-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S2048x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v72)) (v1 : (c : Dev Cert.KernelIdeal.nD) → Buf (Elt Ideal) ((c.tc : Thread Cert.KernelIdeal.nD Cert.KernelIdeal.τ).loc Cert.KernelIdeal.main_v53)) (v2 : (c : Dev Cert.KernelIdeal.nD) → Buf (Elt Ideal) ((c.tc : Thread Cert.KernelIdeal.nD Cert.KernelIdeal.τ).loc Cert.KernelIdeal.main_v60)) (v3 : (c : Dev Cert.KernelIdeal.nD) → Buf (Elt Ideal) ((c.tc : Thread Cert.KernelIdeal.nD Cert.KernelIdeal.τ).loc Cert.KernelIdeal.main_v62)) (v4 : (c : Dev Cert.KernelIdeal.nD) → Buf (Elt Ideal) ((c.tc : Thread Cert.KernelIdeal.nD Cert.KernelIdeal.τ).loc Cert.KernelIdeal.main_v65)) (v5 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_v60) = v2 c
          ∧ r.2.mem ((c.tc : Thread Cert.KernelIdeal.nD Cert.KernelIdeal.τ).loc Cert.KernelIdeal.main_v62) = v3 c
          ∧ r.2.mem ((c.tc : Thread Cert.KernelIdeal.nD Cert.KernelIdeal.τ).loc Cert.KernelIdeal.main_v65) = v4 c
          ∧ r.2.mem ((c.tc : Thread Cert.KernelIdeal.nD Cert.KernelIdeal.τ).loc Cert.KernelIdeal.main_v74) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_v79) = v3 c
          ∧ r.2.mem ((c.tc : Thread Cert.ReferenceIdeal.nD Cert.ReferenceIdeal.τ).loc Cert.ReferenceIdeal.main_v82) = v4 c
          ∧ r.2.mem ((c.tc : Thread Cert.ReferenceIdeal.nD Cert.ReferenceIdeal.τ).loc Cert.ReferenceIdeal.main_v91) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x128 : Shape := ⟨3, ![4096, 64, 128]⟩
abbrev S4096 : Shape := ⟨1, ![4096]⟩
abbrev S10000x128 : Shape := ⟨2, ![10000, 128]⟩
abbrev S_ : Shape := ⟨0, ![]⟩

class Facts : Prop where
  bcast_S_S4096x64x128 : S_.BroadcastsInDim S4096x64x128 (![] : Fin 0 → Fin S4096x64x128.rank)
  reducesTo_S4096x64x128_S_d0_1_2 : S4096x64x128.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S10000x128 : S_.BroadcastsInDim S10000x128 (![] : Fin 0 → Fin S10000x128.rank)
  reducesTo_S10000x128_S_d0_1 : S10000x128.ReducesTo [0, 1] S_

variable [Facts]

def fn_part1 {F : FTy → Type} [FloatOps F] (main_arg3 : IVec S4096 32) (main_v13 : IVec S_ 1) (main_v15 : IVec S4096 1) (main_c_5 : IVec S_ 32) : IVec S_ 1 :=
  let main_v16 : IVec S4096 32 := broadcastInDim S4096 ![] bcast_S_S4096 main_c_5
  let main_v17 : IVec S4096 1 := cmpi .slt main_arg3 main_v16
  let main_v18 : IVec S4096 1 := andi main_v15 main_v17
  let main_c_6 : IVec S_ 1 := constantI S_ 1 1#1
  let main_v19 : IVec S_ 1 := (fun x v => Host.reduce IntOp.andi x v reducesTo_S4096_S_d0 h_S_) main_v18 main_c_6
  let main_v20 : IVec S_ 1 := andi main_v13 main_v19
  main_v20

def fn {F : FTy → Type} [FloatOps F] (main_arg0 : FVec F S4096x64x128 .f32) (main_arg1 : FVec F S4096 .f32) (main_arg2 : FVec F S10000x128 .f32) (main_arg3 : IVec S4096 32) : IVec S_ 1 :=
  let main_v0 : FVec F S4096x64x128 .f32 := Host.absf main_arg0
  let main_cst : FVec F S_ .f32 := constant S_ .f32 0x7F800000#32
  let main_v1 : FVec F S4096x64x128 .f32 := broadcastInDim S4096x64x128 ![] bcast_S_S4096x64x128 main_cst
  let main_v2 : IVec S4096x64x128 1 := cmpf .olt main_v0 main_v1
  let main_c : IVec S_ 1 := constantI S_ 1 1#1
  let main_v3 : IVec S_ 1 := (fun x v => Host.reduce IntOp.andi x v reducesTo_S4096x64x128_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  let main_c_4 : IVec S_ 32 := constantI S_ 32 0#32
  let main_v14 : IVec S4096 32 := broadcastInDim S4096 ![] bcast_S_S4096 main_c_4
  let main_v15 : IVec S4096 1 := cmpi .sge main_arg3 main_v14
  let main_c_5 : IVec S_ 32 := constantI S_ 32 10000#32
  fn_part1 (F := F) main_arg3 main_v13 main_v15 main_c_5
-- ==== Kernel.lean ====
abbrev S4096x64x128 : Shape := ⟨3, ![4096, 64, 128]⟩
abbrev S4096 : Shape := ⟨1, ![4096]⟩
abbrev S10000x128 : Shape := ⟨2, ![10000, 128]⟩
abbrev S4096x128 : Shape := ⟨2, ![4096, 128]⟩
abbrev S512x64x128 : Shape := ⟨3, ![512, 64, 128]⟩
abbrev S512x128 : Shape := ⟨2, ![512, 128]⟩
abbrev S512 : Shape := ⟨1, ![512]⟩
abbrev S512x1 : Shape := ⟨2, ![512, 1]⟩
abbrev S1x4096 : Shape := ⟨2, ![1, 4096]⟩
abbrev S10240x128 : Shape := ⟨2, ![10240, 128]⟩
abbrev S10240x1 : Shape := ⟨2, ![10240, 1]⟩
abbrev S1x1024 : Shape := ⟨2, ![1, 1024]⟩
abbrev S1024x128 : Shape := ⟨2, ![1024, 128]⟩
abbrev S2048x128 : Shape := ⟨2, ![2048, 128]⟩
abbrev S2048x1 : Shape := ⟨2, ![2048, 1]⟩
abbrev S2048x1024 : Shape := ⟨2, ![2048, 1024]⟩
abbrev S2048 : Shape := ⟨1, ![2048]⟩
abbrev S10000x1 : Shape := ⟨2, ![10000, 1]⟩
abbrev S10000 : Shape := ⟨1, ![10000]⟩
abbrev S_ : Shape := ⟨0, ![]⟩
abbrev S240 : Shape := ⟨1, ![240]⟩
abbrev S10240 : Shape := ⟨1, ![10240]⟩
abbrev S1x10240 : Shape := ⟨2, ![1, 10240]⟩
abbrev S4096x1 : Shape := ⟨2, ![4096, 1]⟩
abbrev S1x2048 : Shape := ⟨2, ![1, 2048]⟩
abbrev S1024x1 : Shape := ⟨2, ![1024, 1]⟩
abbrev S1024x2048 : Shape := ⟨2, ![1024, 2048]⟩
abbrev S1024 : Shape := ⟨1, ![1024]⟩
abbrev S1 : Shape := ⟨1, ![1]⟩
abbrev S1x1 : Shape := ⟨2, ![1, 1]⟩

abbrev nBuf : Space → Nat
  | .hbm => 158
  | .vmem => 23
  | .smem => 0
  | _ => 0

abbrev hbmTy0_0 (i : Nat) : BufTy := match i % 128 with
  | 0 => ⟨S4096x64x128, .f32⟩
  | 1 => ⟨S4096, .f32⟩
  | 2 => ⟨S10000x128, .f32⟩
  | 3 => ⟨S4096, .i32⟩
  | 4 => ⟨S4096x128, .f32⟩
  | 5 => ⟨S1x4096, .i32⟩
  | 6 => ⟨S10240x128, .f32⟩
  | 7 => ⟨S10240x1, .f32⟩
  | 8 => ⟨S10000x128, .f32⟩
  | 9 => ⟨S10000x1, .f32⟩
  | 10 => ⟨S10000, .f32⟩
  | 11 => ⟨S_, .f32⟩
  | 12 => ⟨S10000, .f32⟩
  | 13 => ⟨S10000, .f32⟩
  | 14 => ⟨S10000x1, .f32⟩
  | 15 => ⟨S10000x128, .f32⟩
  | 16 => ⟨S10000x128, .f32⟩
  | 17 => ⟨S_, .f32⟩
  | 18 => ⟨S10000x128, .f32⟩
  | 19 => ⟨S10000x128, .f32⟩
  | 20 => ⟨S_, .f32⟩
  | 21 => ⟨S10000x128, .f32⟩
  | 22 => ⟨S10000x128, .f32⟩
  | 23 => ⟨S10000x128, .f32⟩
  | 24 => ⟨S10000x128, .f32⟩
  | 25 => ⟨S_, .f32⟩
  | 26 => ⟨S10000, .f32⟩
  | 27 => ⟨S10000x1, .f32⟩
  | 28 => ⟨S10000x1, .f32⟩
  | 29 => ⟨S_, .f32⟩
  | 30 => ⟨S10000x1, .f32⟩
  | 31 => ⟨S10000x1, .f32⟩
  | 32 => ⟨S10000x128, .f32⟩
  | 33 => ⟨S10000x128, .f32⟩
  | 34 => ⟨S_, .f32⟩
  | 35 => ⟨S10000, .f32⟩
  | 36 => ⟨S10000, .i1⟩
  | 37 => ⟨S10000x1, .i1⟩
  | 38 => ⟨S10000x128, .i1⟩
  | 39 => ⟨S10000x128, .f32⟩
  | 40 => ⟨S_, .i32⟩
  | 41 => ⟨S_, .f32⟩
  | 42 => ⟨S10240x128, .f32⟩
  | 43 => ⟨S10240x128, .bf16⟩
  | 44 => ⟨S10000x128, .f32⟩
  | 45 => ⟨S_, .f32⟩
  | 46 => ⟨S10000, .f32⟩
  | 47 => ⟨S_, .f32⟩
  | 48 => ⟨S240, .f32⟩
  | 49 => ⟨S10240, .f32⟩
  | 50 => ⟨S1x10240, .f32⟩
  | 51 => ⟨S4096x1, .f32⟩
  | 52 => ⟨S4096, .f32⟩
  | 53 => ⟨S_, .i32⟩
  | 54 => ⟨S4096, .i32⟩
  | 55 => ⟨S4096, .i1⟩
  | 56 => ⟨S_, .i32⟩
  | 57 => ⟨S4096, .i32⟩
  | 58 => ⟨S4096, .i32⟩
  | 59 => ⟨S4096, .i32⟩
  | 60 => ⟨S4096x1, .i32⟩
  | 61 => ⟨S1, .i32⟩
  | 62 => ⟨S_, .i32⟩
  | 63 => ⟨S4096x1, .i32⟩
  | 64 => ⟨S4096x1, .i1⟩
  | 65 => ⟨S1x1, .i32⟩
  | 66 => ⟨S4096x1, .i32⟩
  | 67 => ⟨S4096x1, .i1⟩
  | 68 => ⟨S4096x1, .i1⟩
  | 69 => ⟨S_, .i1⟩
  | 70 => ⟨S4096, .i1⟩
  | 71 => ⟨S4096x128, .f32⟩
  | 72 => ⟨S4096x128, .i1⟩
  | 73 => ⟨S_, .f32⟩
  | 74 => ⟨S4096x128, .f32⟩
  | 75 => ⟨S4096x128, .f32⟩
  | 76 => ⟨S4096x128, .f32⟩
  | 77 => ⟨S_, .f32⟩
  | 78 => ⟨S4096, .f32⟩
  | 79 => ⟨S4096x128, .f32⟩
  | 80 => ⟨S_, .f32⟩
  | 81 => ⟨S4096, .f32⟩
  | 82 => ⟨S4096x128, .bf16⟩
  | 83 => ⟨S4096x128, .f32⟩
  | 84 => ⟨S4096x128, .bf16⟩
  | 85 => ⟨S4096x128, .f32⟩
  | 86 => ⟨S4096x128, .f32⟩
  | 87 => ⟨S_, .f32⟩
  | 88 => ⟨S4096, .f32⟩
  | 89 => ⟨S4096, .f32⟩
  | 90 => ⟨S_, .f32⟩
  | 91 => ⟨S4096, .f32⟩
  | 92 => ⟨S4096, .f32⟩
  | 93 => ⟨S4096, .f32⟩
  | 94 => ⟨S_, .f32⟩
  | 95 => ⟨S4096, .f32⟩
  | 96 => ⟨S4096, .f32⟩
  | 97 => ⟨S4096, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S4096, .f32⟩
  | 106 => ⟨S4096, .f32⟩
  | 107 => ⟨S_, .f32⟩
  | 108 => ⟨S4096, .f32⟩
  | 109 => ⟨S4096, .f32⟩
  | 110 => ⟨S_, .f32⟩
  | 111 => ⟨S_, .f32⟩
  | 112 => ⟨S_, .f32⟩
  | 113 => ⟨S_, .f32⟩
  | 114 => ⟨S_, .f32⟩
  | 115 => ⟨S_, .i32⟩
  | 116 => ⟨S_, .f32⟩
  | 117 => ⟨S_, .f32⟩
  | 118 => ⟨S1, .f32⟩
  | 119 => ⟨S_, .f32⟩
  | 120 => ⟨S1, .f32⟩
  | 121 => ⟨S1, .f32⟩
  | 122 => ⟨S4096, .f32⟩
  | 123 => ⟨S4096, .f32⟩
  | 124 => ⟨S4096, .f32⟩
  | 125 => ⟨S_, .f32⟩
  | 126 => ⟨S_, .f32⟩
  | 127 => ⟨S_, .f32⟩
  | _ => ⟨S4096x64x128, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .i1⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | _ => ⟨S4096x64x128, .f32⟩

abbrev hbmTy (i : Nat) : BufTy := match i / 128 with
  | 0 => hbmTy0_0 i
  | 1 => hbmTy0_1 i
  | _ => ⟨S4096x64x128, .f32⟩

abbrev bufTy : (tb : Table) → Fin (tcTables nBuf tb) → BufTy
  | .hbm, ⟨i, _⟩ => hbmTy i
  | .local _ .vmem, ⟨0, _⟩ => ⟨S512x64x128, .f32⟩
  | .local _ .vmem, ⟨1, _⟩ => ⟨S512x64x128, .f32⟩
  | .local _ .vmem, ⟨2, _⟩ => ⟨S512x128, .f32⟩
  | .local _ .vmem, ⟨3, _⟩ => ⟨S512x128, .f32⟩
  | .local _ .vmem, ⟨4, _⟩ => ⟨S1x1024, .i32⟩
  | .local _ .vmem, ⟨5, _⟩ => ⟨S1x1024, .i32⟩
  | .local _ .vmem, ⟨6, _⟩ => ⟨S1024x128, .f32⟩
  | .local _ .vmem, ⟨7, _⟩ => ⟨S1024x128, .f32⟩
  | .local _ .vmem, ⟨8, _⟩ => ⟨S2048x128, .f32⟩
  | .local _ .vmem, ⟨9, _⟩ => ⟨S2048x128, .f32⟩
  | .local _ .vmem, ⟨10, _⟩ => ⟨S2048x1, .f32⟩
  | .local _ .vmem, ⟨11, _⟩ => ⟨S2048x1, .f32⟩
  | .local _ .vmem, ⟨12, _⟩ => ⟨S2048x128, .f32⟩
  | .local _ .vmem, ⟨13, _⟩ => ⟨S2048x1, .f32⟩
  | .local _ .vmem, ⟨14, _⟩ => ⟨S1024x128, .f32⟩
  | .local _ .vmem, ⟨15, _⟩ => ⟨S1024x128, .f32⟩
  | .local _ .vmem, ⟨16, _⟩ => ⟨S2048x128, .bf16⟩
  | .local _ .vmem, ⟨17, _⟩ => ⟨S2048x128, .bf16⟩
  | .local _ .vmem, ⟨18, _⟩ => ⟨S1x2048, .f32⟩
  | .local _ .vmem, ⟨19, _⟩ => ⟨S1x2048, .f32⟩
  | .local _ .vmem, ⟨20, _⟩ => ⟨S1024x1, .f32⟩
  | .local _ .vmem, ⟨21, _⟩ => ⟨S1024x1, .f32⟩
  | .local _ .vmem, ⟨22, _⟩ => ⟨S1024x1, .f32⟩
  | _, _ => ⟨S4096x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_cst : Ref sig .tc := ⟨.hbm, 25, rfl⟩
abbrev main_call0_v1 : Ref sig .tc := ⟨.hbm, 26, rfl⟩
abbrev main_call0_v2 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call1_v0 : Ref sig .tc := ⟨.hbm, 38, rfl⟩
abbrev main_v24 : Ref sig .tc := ⟨.hbm, 39, rfl⟩
abbrev main_c : Ref sig .tc := ⟨.hbm, 40, rfl⟩
abbrev main_call2_v0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call3_c : Ref sig .tc := ⟨.hbm, 53, rfl⟩
abbrev main_call3_v0 : Ref sig .tc := ⟨.hbm, 54, rfl⟩
abbrev main_call3_v1 : Ref sig .tc := ⟨.hbm, 55, rfl⟩
abbrev main_call3_c_0 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_call3_v5 : Ref sig .tc := ⟨.hbm, 60, rfl⟩
abbrev main_call3_c_1 : Ref sig .tc := ⟨.hbm, 61, rfl⟩
abbrev main_call3_c_2 : Ref sig .tc := ⟨.hbm, 62, rfl⟩
abbrev main_call3_v6 : Ref sig .tc := ⟨.hbm, 63, rfl⟩
abbrev main_call3_v7 : Ref sig .tc := ⟨.hbm, 64, rfl⟩
abbrev main_call3_v8 : Ref sig .tc := ⟨.hbm, 65, rfl⟩
abbrev main_call3_v9 : Ref sig .tc := ⟨.hbm, 66, rfl⟩
abbrev main_call3_v10 : Ref sig .tc := ⟨.hbm, 67, rfl⟩
abbrev main_call3_v11 : Ref sig .tc := ⟨.hbm, 68, rfl⟩
abbrev main_call3_c_3 : Ref sig .tc := ⟨.hbm, 69, rfl⟩
abbrev main_call3_v12 : Ref sig .tc := ⟨.hbm, 70, rfl⟩
abbrev main_call3_v13 : Ref sig .tc := ⟨.hbm, 71, rfl⟩
abbrev main_call3_v14 : Ref sig .tc := ⟨.hbm, 72, rfl⟩
abbrev main_call3_cst : Ref sig .tc := ⟨.hbm, 73, rfl⟩
abbrev main_call3_v15 : Ref sig .tc := ⟨.hbm, 74, rfl⟩
abbrev main_v34 : Ref sig .tc := ⟨.hbm, 75, rfl⟩
abbrev main_v35 : Ref sig .tc := ⟨.hbm, 76, rfl⟩
abbrev main_cst_6 : Ref sig .tc := ⟨.hbm, 77, rfl⟩
abbrev main_v36 : Ref sig .tc := ⟨.hbm, 78, rfl⟩
abbrev main_v37 : Ref sig .tc := ⟨.hbm, 79, rfl⟩
abbrev main_cst_7 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst_8 : Ref sig .tc := ⟨.hbm, 87, rfl⟩
abbrev main_v44 : Ref sig .tc := ⟨.hbm, 88, rfl⟩
abbrev main_v45 : Ref sig .tc := ⟨.hbm, 89, rfl⟩
abbrev main_cst_9 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_cst_10 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_cst_11 : Ref sig .tc := ⟨.hbm, 98, rfl⟩
abbrev main_v52 : Ref sig .tc := ⟨.hbm, 99, rfl⟩
abbrev main_cst_12 : Ref sig .tc := ⟨.hbm, 100, rfl⟩
abbrev main_v53 : Ref sig .tc := ⟨.hbm, 101, rfl⟩
abbrev main_cst_13 : Ref sig .tc := ⟨.hbm, 102, rfl⟩
abbrev main_v54 : Ref sig .tc := ⟨.hbm, 103, rfl⟩
abbrev main_cst_14 : Ref sig .tc := ⟨.hbm, 104, rfl⟩
abbrev main_v55 : Ref sig .tc := ⟨.hbm, 105, rfl⟩
abbrev main_v56 : Ref sig .tc := ⟨.hbm, 106, rfl⟩
abbrev main_call4_cst : Ref sig .tc := ⟨.hbm, 107, rfl⟩
abbrev main_call4_v0 : Ref sig .tc := ⟨.hbm, 108, rfl⟩
abbrev main_v57 : Ref sig .tc := ⟨.hbm, 109, rfl⟩
abbrev main_cst_15 : Ref sig .tc := ⟨.hbm, 110, rfl⟩
abbrev main_v58 : Ref sig .tc := ⟨.hbm, 111, rfl⟩
abbrev main_v59 : Ref sig .tc := ⟨.hbm, 112, rfl⟩
abbrev main_cst_16 : Ref sig .tc := ⟨.hbm, 113, rfl⟩
abbrev main_v60 : Ref sig .tc := ⟨.hbm, 114, rfl⟩
abbrev main_c_17 : Ref sig .tc := ⟨.hbm, 115, rfl⟩
abbrev main_call5_call0_cst : Ref sig .tc := ⟨.hbm, 116, rfl⟩
abbrev main_call5_call0_v0 : Ref sig .tc := ⟨.hbm, 117, rfl⟩
abbrev main_call5_call0_v1 : Ref sig .tc := ⟨.hbm, 118, rfl⟩
abbrev main_call5_call0_cst_0 : Ref sig .tc := ⟨.hbm, 119, rfl⟩
abbrev main_call5_call0_v2 : Ref sig .tc := ⟨.hbm, 120, rfl⟩
abbrev main_call5_call0_v3 : Ref sig .tc := ⟨.hbm, 121, rfl⟩
abbrev main_call5_call0_v4 : Ref sig .tc := ⟨.hbm, 122, rfl⟩
abbrev main_call5_call0_v5 : Ref sig .tc := ⟨.hbm, 123, rfl⟩
abbrev main_call5_call0_v6 : Ref sig .tc := ⟨.hbm, 124, rfl⟩
abbrev main_call5_call0_v7 : Ref sig .tc := ⟨.hbm, 125, rfl⟩
abbrev main_call5_call0_cst_1 : Ref sig .tc := ⟨.hbm, 126, rfl⟩
abbrev main_call5_call0_v8 : Ref sig .tc := ⟨.hbm, 127, rfl⟩
abbrev main_call5_call0_cst_2 : Ref sig .tc := ⟨.hbm, 128, rfl⟩
abbrev main_call5_call0_v9 : Ref sig .tc := ⟨.hbm, 129, rfl⟩
abbrev main_call5_call0_v10 : Ref sig .tc := ⟨.hbm, 130, rfl⟩
abbrev main_call5_call0_cst_3 : Ref sig .tc := ⟨.hbm, 131, rfl⟩
abbrev main_call5_call0_v11 : Ref sig .tc := ⟨.hbm, 132, rfl⟩
abbrev main_call5_call0_cst_4 : Ref sig .tc := ⟨.hbm, 133, rfl⟩
abbrev main_call5_call0_call0_v0 : Ref sig .tc := ⟨.hbm, 134, rfl⟩
abbrev main_call5_v0 : Ref sig .tc := ⟨.hbm, 135, rfl⟩
abbrev main_v61 : Ref sig .tc := ⟨.hbm, 136, rfl⟩
abbrev main_v62 : Ref sig .tc := ⟨.hbm, 137, rfl⟩
abbrev main_cst_18 : Ref sig .tc := ⟨.hbm, 138, rfl⟩
abbrev main_v63 : Ref sig .tc := ⟨.hbm, 139, rfl⟩
abbrev main_cst_19 : Ref sig .tc := ⟨.hbm, 140, rfl⟩
abbrev main_v64 : Ref sig .tc := ⟨.hbm, 141, rfl⟩
abbrev main_v65 : Ref sig .tc := ⟨.hbm, 142, rfl⟩
abbrev main_cst_20 : Ref sig .tc := ⟨.hbm, 143, rfl⟩
abbrev main_v66 : Ref sig .tc := ⟨.hbm, 144, rfl⟩
abbrev main_cst_21 : Ref sig .tc := ⟨.hbm, 145, rfl⟩
abbrev main_v67 : Ref sig .tc := ⟨.hbm, 146, rfl⟩
abbrev main_v68 : Ref sig .tc := ⟨.hbm, 147, rfl⟩
abbrev main_cst_22 : Ref sig .tc := ⟨.hbm, 148, rfl⟩
abbrev main_v69 : Ref sig .tc := ⟨.hbm, 149, rfl⟩
abbrev main_v70 : Ref sig .tc := ⟨.hbm, 150, rfl⟩
abbrev main_cst_23 : Ref sig .tc := ⟨.hbm, 151, rfl⟩
abbrev main_v71 : Ref sig .tc := ⟨.hbm, 152, rfl⟩
abbrev main_v72 : Ref sig .tc := ⟨.hbm, 153, rfl⟩
abbrev main_cst_24 : Ref sig .tc := ⟨.hbm, 154, rfl⟩
abbrev main_v73 : Ref sig .tc := ⟨.hbm, 155, rfl⟩
abbrev main_cst_25 : Ref sig .tc := ⟨.hbm, 156, rfl⟩
abbrev main_v74 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc1_scratch1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![5, 4], ![false, false]⟩

def k1_cond2 (i : grid1.Coords) : BitVec 1 :=
  let arg1 : BitVec 32 := BitVec.ofNat 32 (i 1).val
  let c3_i32 : BitVec 32 := 3#32
  let v32 : BitVec 1 := Scalar.cmpi .eq arg1 c3_i32
  let v33 : BitVec 32 := Scalar.extui v32
  let c0_i32_13 : BitVec 32 := 0#32
  let v34 : BitVec 1 := Scalar.cmpi .ne v33 c0_i32_13
  v34

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![4, 5], ![false, false]⟩

def k2_cond2 (i : grid2.Coords) : BitVec 1 :=
  let arg1 : BitVec 32 := BitVec.ofNat 32 (i 1).val
  let c4_i32 : BitVec 32 := 4#32
  let v34 : BitVec 1 := Scalar.cmpi .eq arg1 c4_i32
  let v35 : BitVec 32 := Scalar.extui v34
  let c0_i32_16 : BitVec 32 := 0#32
  let v36 : BitVec 1 := Scalar.cmpi .ne v35 c0_i32_16
  v36

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  inb_S512x64x128_S512x64x128_0_0_0 : ∀ a, (![0, 0, 0] : Fin 3 → Nat) a + S512x64x128.size a ≤ S512x64x128.size a
  h_S512x64x128 : 0 < S512x64x128.numel
  reduces_S512x64x128_S512x128 : S512x64x128.Reduces [1] S512x128
  reduces_S512x128_S512 : S512x128.Reduces [1] S512
  shapeCasts_S512_S512x1 : S512.ShapeCasts S512x1
  broadcasts_S512x1_S512x128 : S512x1.Broadcasts S512x128
  inb_S512x128_S512x128_0_0 : ∀ a, (![0, 0] : Fin 2 → Nat) a + S512x128.size a ≤ S512x128.size a
  h_S512x128 : 0 < S512x128.numel
  shapeCasts_S4096_S1x4096 : S4096.ShapeCasts S1x4096
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  iota_S2048x1_d0_w32 : S2048x1.Iotas .tc 32 [0]
  broadcasts_S2048x1_S2048x1024 : S2048x1.Broadcasts S2048x1024
  broadcasts_S1x1024_S2048x1024 : S1x1024.Broadcasts S2048x1024
  natLt_1_32 : 1 < 32
  bitsLt_bf16_f32 : FTy.bits .bf16 < FTy.bits .f32
  reduces_S2048x1024_S2048 : S2048x1024.Reduces [1] S2048
  shapeCasts_S2048_S2048x1 : S2048.ShapeCasts S2048x1
  slices_S10240x128_S10000x128_0_0 : S10240x128.Slices ![0, 0] S10000x128
  slices_S10240x1_S10000x1_0_0 : S10240x1.Slices ![0, 0] S10000x1
  shapeCasts_S10000x1_S10000 : S10000x1.ShapeCasts S10000
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  reducesTo_S10000x128_S10000_d1 : S10000x128.ReducesTo [1] S10000
  h_S_ : 0 < S_.numel
  bcast_S_S10000x1 : S_.BroadcastsInDim S10000x1 (![] : Fin 0 → Fin S10000x1.rank)
  pads_S10000x128_S10240x128_02400_000 : S10000x128.Pads (![0, 0] : Fin 2 → Nat) ![240, 0] ![0, 0] S10240x128
  bcast_S_S240 : S_.BroadcastsInDim S240 (![] : Fin 0 → Fin S240.rank)
  concatenates_S10000_S240_S10240_d0 : Shape.Concatenates [S10000, S240] S10240 0
  shapeCasts_S10240_S1x10240 : S10240.ShapeCasts S1x10240
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x128_S1024 : S1024x128.Reduces [1] S1024
  shapeCasts_S1024_S1024x1 : S1024.ShapeCasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  reduces_S1024x2048_S1024 : S1024x2048.Reduces [1] S1024
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  bcast_S4096_S4096x128_0 : S4096.BroadcastsInDim S4096x128 (![0] : Fin 1 → Fin S4096x128.rank)
  bcast_S_S4096x128 : S_.BroadcastsInDim S4096x128 (![] : Fin 0 → Fin S4096x128.rank)
  reducesTo_S4096x128_S4096_d1 : S4096x128.ReducesTo [1] S4096
  reducesTo_S4096_S_d0 : S4096.ReducesTo [0] S_
  bcast_S_S1 : S_.BroadcastsInDim S1 (![] : Fin 0 → Fin S1.rank)
  bcast_S1_S4096_0 : S1.BroadcastsInDim S4096 (![0] : Fin 1 → Fin S4096.rank)
  dot_S2048x1024_S1024x128_S2048x128_1_0_0_1_n_n_wf : DotDims.WF S2048x1024 S1024x128 S2048x128 [1] [0] [0] [1] [] []
  dot_S1024x128_S2048x128_S1024x2048_1_1_0_0_n_n_wf : DotDims.WF S1024x128 S2048x128 S1024x2048 [1] [1] [0] [0] [] []
  gather_S10000x128_S4096x1_S4096x128_1_0_n_n_0_1_1128_wf : GatherDims.WF S10000x128 S4096x1 S4096x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64x128.size a ≤ S4096x64x128.size a
  hwx0_0 : ∀ i : grid0.Coords, EltTy.bits .f32 = 32 ∨ (Rect.block (s := S4096x64x128) S512x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S4096x128.size a
  hwx0_1 : ∀ i : grid0.Coords, EltTy.bits .f32 = 32 ∨ (Rect.block (s := S4096x128) S512x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x4096.size a
  hwx1_0 : ∀ i : grid1.Coords, EltTy.bits .i32 = 32 ∨ (Rect.block (s := S1x4096) S1x1024.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S4096x128.size a
  hwx1_1 : ∀ i : grid1.Coords, EltTy.bits .f32 = 32 ∨ (Rect.block (s := S4096x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S10240x128.size a
  hwx1_2 : ∀ i : grid1.Coords, EltTy.bits .f32 = 32 ∨ (Rect.block (s := S10240x128) S2048x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S10240x1.size a
  hwx1_3 : ∀ i : grid1.Coords, EltTy.bits .f32 = 32 ∨ (Rect.block (s := S10240x1) S2048x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S4096x128.size a
  hwx2_0 : ∀ i : grid2.Coords, EltTy.bits .f32 = 32 ∨ (Rect.block (s := S4096x128) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S10240x128.size a
  hwx2_1 : ∀ i : grid2.Coords, EltTy.bits .bf16 = 32 ∨ (Rect.block (s := S10240x128) S2048x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x10240.size a
  hwx2_2 : ∀ i : grid2.Coords, EltTy.bits .f32 = 32 ∨ (Rect.block (s := S1x10240) S1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1.size a ≤ S4096x1.size a
  hwx2_3 : ∀ i : grid2.Coords, EltTy.bits .f32 = 32 ∨ (Rect.block (s := S4096x1) S1024x1.size (cc2_transform_3 i) (hinb2_3 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def gather_S10000x128_S4096x1_S4096x128_1_0_n_n_0_1_1128 : GatherDims S10000x128 S4096x1 S4096x128 where
  offsetDims := [1]
  collapsedSliceDims := [0]
  operandBatchingDims := []
  startIndicesBatchingDims := []
  startIndexMap := [0]
  indexVectorDim := 1
  sliceSizes := ![1, 128]
  wf := gather_S10000x128_S4096x1_S4096x128_1_0_n_n_0_1_1128_wf

abbrev win0_0 : Pipeline.Window sig grid0 :=
  Pipeline.Window.ofSpec (Memref.whole main_arg0) S512x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S1x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_0) S2048x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_1) S2048x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v0) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S1x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v32) S1024x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S4096x64x128 : Shape := ⟨3, ![4096, 64, 128]⟩
abbrev S4096 : Shape := ⟨1, ![4096]⟩
abbrev S10000x128 : Shape := ⟨2, ![10000, 128]⟩
abbrev S_ : Shape := ⟨0, ![]⟩
abbrev S4096x128 : Shape := ⟨2, ![4096, 128]⟩
abbrev S4096x1 : Shape := ⟨2, ![4096, 1]⟩
abbrev S10000 : Shape := ⟨1, ![10000]⟩
abbrev S10000x1 : Shape := ⟨2, ![10000, 1]⟩
abbrev S1x10000 : Shape := ⟨2, ![1, 10000]⟩
abbrev S4096x10000 : Shape := ⟨2, ![4096, 10000]⟩
abbrev S128x10000 : Shape := ⟨2, ![128, 10000]⟩
abbrev S4096x2 : Shape := ⟨2, ![4096, 2]⟩
abbrev S1 : Shape := ⟨1, ![1]⟩

abbrev nBuf : Space → Nat
  | .hbm => 164
  | .vmem => 0
  | .smem => 0
  | _ => 0

abbrev hbmTy0_0 (i : Nat) : BufTy := match i % 128 with
  | 0 => ⟨S4096x64x128, .f32⟩
  | 1 => ⟨S4096, .f32⟩
  | 2 => ⟨S10000x128, .f32⟩
  | 3 => ⟨S4096, .i32⟩
  | 4 => ⟨S_, .f32⟩
  | 5 => ⟨S4096x128, .f32⟩
  | 6 => ⟨S_, .f32⟩
  | 7 => ⟨S4096x128, .f32⟩
  | 8 => ⟨S4096x128, .f32⟩
  | 9 => ⟨S4096x128, .f32⟩
  | 10 => ⟨S_, .f32⟩
  | 11 => ⟨S4096, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x128, .f32⟩
  | 18 => ⟨S4096x128, .f32⟩
  | 19 => ⟨S_, .f32⟩
  | 20 => ⟨S4096, .f32⟩
  | 21 => ⟨S_, .f32⟩
  | 22 => ⟨S10000, .f32⟩
  | 23 => ⟨S4096x1, .i32⟩
  | 24 => ⟨S10000, .f32⟩
  | 25 => ⟨S_, .f32⟩
  | 26 => ⟨S10000x128, .f32⟩
  | 27 => ⟨S4096x1, .i32⟩
  | 28 => ⟨S10000x128, .f32⟩
  | 29 => ⟨S_, .f32⟩
  | 30 => ⟨S10000, .f32⟩
  | 31 => ⟨S10000, .f32⟩
  | 32 => ⟨S10000x1, .f32⟩
  | 33 => ⟨S10000x128, .f32⟩
  | 34 => ⟨S10000x128, .f32⟩
  | 35 => ⟨S_, .f32⟩
  | 36 => ⟨S10000x128, .f32⟩
  | 37 => ⟨S10000x128, .f32⟩
  | 38 => ⟨S_, .f32⟩
  | 39 => ⟨S10000x128, .f32⟩
  | 40 => ⟨S10000x128, .f32⟩
  | 41 => ⟨S10000x128, .f32⟩
  | 42 => ⟨S10000x128, .f32⟩
  | 43 => ⟨S_, .f32⟩
  | 44 => ⟨S10000, .f32⟩
  | 45 => ⟨S10000x1, .f32⟩
  | 46 => ⟨S10000x1, .f32⟩
  | 47 => ⟨S_, .f32⟩
  | 48 => ⟨S10000x1, .f32⟩
  | 49 => ⟨S10000x1, .f32⟩
  | 50 => ⟨S10000x128, .f32⟩
  | 51 => ⟨S10000x128, .f32⟩
  | 52 => ⟨S_, .f32⟩
  | 53 => ⟨S10000, .f32⟩
  | 54 => ⟨S10000, .i1⟩
  | 55 => ⟨S10000x1, .i1⟩
  | 56 => ⟨S10000x128, .i1⟩
  | 57 => ⟨S10000x128, .f32⟩
  | 58 => ⟨S4096x128, .f32⟩
  | 59 => ⟨S_, .f32⟩
  | 60 => ⟨S4096, .f32⟩
  | 61 => ⟨S4096x1, .f32⟩
  | 62 => ⟨S10000x128, .f32⟩
  | 63 => ⟨S_, .f32⟩
  | 64 => ⟨S10000, .f32⟩
  | 65 => ⟨S1x10000, .f32⟩
  | 66 => ⟨S4096x10000, .f32⟩
  | 67 => ⟨S4096x10000, .f32⟩
  | 68 => ⟨S4096x10000, .f32⟩
  | 69 => ⟨S_, .f32⟩
  | 70 => ⟨S4096x128, .f32⟩
  | 71 => ⟨S4096x128, .f32⟩
  | 72 => ⟨S128x10000, .f32⟩
  | 73 => ⟨S4096x10000, .f32⟩
  | 74 => ⟨S4096x10000, .f32⟩
  | 75 => ⟨S_, .f32⟩
  | 76 => ⟨S4096x10000, .f32⟩
  | 77 => ⟨S4096x10000, .f32⟩
  | 78 => ⟨S4096x10000, .f32⟩
  | 79 => ⟨S4096, .i32⟩
  | 80 => ⟨S_, .i32⟩
  | 81 => ⟨S4096, .i32⟩
  | 82 => ⟨S4096, .i1⟩
  | 83 => ⟨S_, .i32⟩
  | 84 => ⟨S4096, .i32⟩
  | 85 => ⟨S4096, .i32⟩
  | 86 => ⟨S4096, .i32⟩
  | 87 => ⟨S_, .i32⟩
  | 88 => ⟨S4096, .i32⟩
  | 89 => ⟨S4096, .i1⟩
  | 90 => ⟨S_, .i32⟩
  | 91 => ⟨S4096, .i32⟩
  | 92 => ⟨S4096, .i32⟩
  | 93 => ⟨S4096, .i32⟩
  | 94 => ⟨S4096x1, .i32⟩
  | 95 => ⟨S4096x1, .i32⟩
  | 96 => ⟨S4096x2, .i32⟩
  | 97 => ⟨S4096, .f32⟩
  | 98 => ⟨S_, .f32⟩
  | 99 => ⟨S_, .f32⟩
  | 100 => ⟨S_, .f32⟩
  | 101 => ⟨S_, .f32⟩
  | 102 => ⟨S_, .f32⟩
  | 103 => ⟨S4096x10000, .f32⟩
  | 104 => ⟨S4096x10000, .f32⟩
  | 105 => ⟨S_, .f32⟩
  | 106 => ⟨S4096x10000, .f32⟩
  | 107 => ⟨S4096x10000, .f32⟩
  | 108 => ⟨S_, .f32⟩
  | 109 => ⟨S_, .f32⟩
  | 110 => ⟨S_, .f32⟩
  | 111 => ⟨S4096, .f32⟩
  | 112 => ⟨S4096, .f32⟩
  | 113 => ⟨S_, .f32⟩
  | 114 => ⟨S4096, .f32⟩
  | 115 => ⟨S4096, .f32⟩
  | 116 => ⟨S_, .f32⟩
  | 117 => ⟨S_, .f32⟩
  | 118 => ⟨S_, .f32⟩
  | 119 => ⟨S_, .f32⟩
  | 120 => ⟨S_, .f32⟩
  | 121 => ⟨S_, .i32⟩
  | 122 => ⟨S_, .f32⟩
  | 123 => ⟨S_, .f32⟩
  | 124 => ⟨S1, .f32⟩
  | 125 => ⟨S_, .f32⟩
  | 126 => ⟨S1, .f32⟩
  | 127 => ⟨S1, .f32⟩
  | _ => ⟨S4096x64x128, .f32⟩

abbrev hbmTy0_1 (i : Nat) : BufTy := match i % 128 with
  | 0 => ⟨S4096, .f32⟩
  | 1 => ⟨S4096, .f32⟩
  | 2 => ⟨S4096, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .i1⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | _ => ⟨S4096x64x128, .f32⟩

abbrev hbmTy (i : Nat) : BufTy := match i / 128 with
  | 0 => hbmTy0_0 i
  | 1 => hbmTy0_1 i
  | _ => ⟨S4096x64x128, .f32⟩

abbrev bufTy : (tb : Table) → Fin (tcTables nBuf tb) → BufTy
  | .hbm, ⟨i, _⟩ => hbmTy i
  | _, _ => ⟨S4096x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call1_v0 : Ref sig .tc := ⟨.hbm, 42, rfl⟩
abbrev main_call1_cst : Ref sig .tc := ⟨.hbm, 43, rfl⟩
abbrev main_call1_v1 : Ref sig .tc := ⟨.hbm, 44, rfl⟩
abbrev main_call1_v2 : Ref sig .tc := ⟨.hbm, 45, rfl⟩
abbrev main_v25 : Ref sig .tc := ⟨.hbm, 46, rfl⟩
abbrev main_cst_8 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_9 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call2_v0 : Ref sig .tc := ⟨.hbm, 56, rfl⟩
abbrev main_v33 : Ref sig .tc := ⟨.hbm, 57, rfl⟩
abbrev main_v34 : Ref sig .tc := ⟨.hbm, 58, rfl⟩
abbrev main_cst_10 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_11 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_12 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_13 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c : Ref sig .tc := ⟨.hbm, 80, rfl⟩
abbrev main_v52 : Ref sig .tc := ⟨.hbm, 81, rfl⟩
abbrev main_v53 : Ref sig .tc := ⟨.hbm, 82, rfl⟩
abbrev main_c_14 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_15 : Ref sig .tc := ⟨.hbm, 87, rfl⟩
abbrev main_v57 : Ref sig .tc := ⟨.hbm, 88, rfl⟩
abbrev main_v58 : Ref sig .tc := ⟨.hbm, 89, rfl⟩
abbrev main_c_16 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_17 : Ref sig .tc := ⟨.hbm, 98, rfl⟩
abbrev main_v66 : Ref sig .tc := ⟨.hbm, 99, rfl⟩
abbrev main_cst_18 : Ref sig .tc := ⟨.hbm, 100, rfl⟩
abbrev main_v67 : Ref sig .tc := ⟨.hbm, 101, rfl⟩
abbrev main_cst_19 : Ref sig .tc := ⟨.hbm, 102, rfl⟩
abbrev main_v68 : Ref sig .tc := ⟨.hbm, 103, rfl⟩
abbrev main_v69 : Ref sig .tc := ⟨.hbm, 104, rfl⟩
abbrev main_call3_cst : Ref sig .tc := ⟨.hbm, 105, rfl⟩
abbrev main_call3_v0 : Ref sig .tc := ⟨.hbm, 106, rfl⟩
abbrev main_v70 : Ref sig .tc := ⟨.hbm, 107, rfl⟩
abbrev main_cst_20 : Ref sig .tc := ⟨.hbm, 108, rfl⟩
abbrev main_v71 : Ref sig .tc := ⟨.hbm, 109, rfl⟩
abbrev main_cst_21 : Ref sig .tc := ⟨.hbm, 110, rfl⟩
abbrev main_v72 : Ref sig .tc := ⟨.hbm, 111, rfl⟩
abbrev main_v73 : Ref sig .tc := ⟨.hbm, 112, rfl⟩
abbrev main_call4_cst : Ref sig .tc := ⟨.hbm, 113, rfl⟩
abbrev main_call4_v0 : Ref sig .tc := ⟨.hbm, 114, rfl⟩
abbrev main_v74 : Ref sig .tc := ⟨.hbm, 115, rfl⟩
abbrev main_cst_22 : Ref sig .tc := ⟨.hbm, 116, rfl⟩
abbrev main_v75 : Ref sig .tc := ⟨.hbm, 117, rfl⟩
abbrev main_v76 : Ref sig .tc := ⟨.hbm, 118, rfl⟩
abbrev main_cst_23 : Ref sig .tc := ⟨.hbm, 119, rfl⟩
abbrev main_v77 : Ref sig .tc := ⟨.hbm, 120, rfl⟩
abbrev main_c_24 : Ref sig .tc := ⟨.hbm, 121, rfl⟩
abbrev main_call5_call0_cst : Ref sig .tc := ⟨.hbm, 122, rfl⟩
abbrev main_call5_call0_v0 : Ref sig .tc := ⟨.hbm, 123, rfl⟩
abbrev main_call5_call0_v1 : Ref sig .tc := ⟨.hbm, 124, rfl⟩
abbrev main_call5_call0_cst_0 : Ref sig .tc := ⟨.hbm, 125, rfl⟩
abbrev main_call5_call0_v2 : Ref sig .tc := ⟨.hbm, 126, rfl⟩
abbrev main_call5_call0_v3 : Ref sig .tc := ⟨.hbm, 127, rfl⟩
abbrev main_call5_call0_v4 : Ref sig .tc := ⟨.hbm, 128, rfl⟩
abbrev main_call5_call0_v5 : Ref sig .tc := ⟨.hbm, 129, rfl⟩
abbrev main_call5_call0_v6 : Ref sig .tc := ⟨.hbm, 130, rfl⟩
abbrev main_call5_call0_v7 : Ref sig .tc := ⟨.hbm, 131, rfl⟩
abbrev main_call5_call0_cst_1 : Ref sig .tc := ⟨.hbm, 132, rfl⟩
abbrev main_call5_call0_v8 : Ref sig .tc := ⟨.hbm, 133, rfl⟩
abbrev main_call5_call0_cst_2 : Ref sig .tc := ⟨.hbm, 134, rfl⟩
abbrev main_call5_call0_v9 : Ref sig .tc := ⟨.hbm, 135, rfl⟩
abbrev main_call5_call0_v10 : Ref sig .tc := ⟨.hbm, 136, rfl⟩
abbrev main_call5_call0_cst_3 : Ref sig .tc := ⟨.hbm, 137, rfl⟩
abbrev main_call5_call0_v11 : Ref sig .tc := ⟨.hbm, 138, rfl⟩
abbrev main_call5_call0_cst_4 : Ref sig .tc := ⟨.hbm, 139, rfl⟩
abbrev main_call5_call0_call0_v0 : Ref sig .tc := ⟨.hbm, 140, rfl⟩
abbrev main_call5_v0 : Ref sig .tc := ⟨.hbm, 141, rfl⟩
abbrev main_v78 : Ref sig .tc := ⟨.hbm, 142, rfl⟩
abbrev main_v79 : Ref sig .tc := ⟨.hbm, 143, rfl⟩
abbrev main_cst_25 : Ref sig .tc := ⟨.hbm, 144, rfl⟩
abbrev main_v80 : Ref sig .tc := ⟨.hbm, 145, rfl⟩
abbrev main_cst_26 : Ref sig .tc := ⟨.hbm, 146, rfl⟩
abbrev main_v81 : Ref sig .tc := ⟨.hbm, 147, rfl⟩
abbrev main_v82 : Ref sig .tc := ⟨.hbm, 148, rfl⟩
abbrev main_cst_27 : Ref sig .tc := ⟨.hbm, 149, rfl⟩
abbrev main_v83 : Ref sig .tc := ⟨.hbm, 150, rfl⟩
abbrev main_cst_28 : Ref sig .tc := ⟨.hbm, 151, rfl⟩
abbrev main_v84 : Ref sig .tc := ⟨.hbm, 152, rfl⟩
abbrev main_v85 : Ref sig .tc := ⟨.hbm, 153, rfl⟩
abbrev main_cst_29 : Ref sig .tc := ⟨.hbm, 154, rfl⟩
abbrev main_v86 : Ref sig .tc := ⟨.hbm, 155, rfl⟩
abbrev main_v87 : Ref sig .tc := ⟨.hbm, 156, rfl⟩
abbrev main_cst_30 : Ref sig .tc := ⟨.hbm, 157, rfl⟩
abbrev main_v88 : Ref sig .tc := ⟨.hbm, 158, rfl⟩
abbrev main_v89 : Ref sig .tc := ⟨.hbm, 159, rfl⟩
abbrev main_cst_31 : Ref sig .tc := ⟨.hbm, 160, rfl⟩
abbrev main_v90 : Ref sig .tc := ⟨.hbm, 161, rfl⟩
abbrev main_cst_32 : Ref sig .tc := ⟨.hbm, 162, rfl⟩
abbrev main_v91 : Ref sig .tc := ⟨.hbm, 163, rfl⟩

abbrev nD : Nat := 1
abbrev τ : Topo := Topo.v7x

variable {F : FTy → Type} [FloatOps F]

class Facts₀ : Prop where
  reducesTo_S4096x64x128_S4096x128_d1 : S4096x64x128.ReducesTo [1] S4096x128
  h_S_ : 0 < S_.numel
  bcast_S_S4096x128 : S_.BroadcastsInDim S4096x128 (![] : Fin 0 → Fin S4096x128.rank)
  reducesTo_S4096x128_S4096_d1 : S4096x128.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  bcast_S_S4096 : S_.BroadcastsInDim S4096 (![] : Fin 0 → Fin S4096.rank)
  bcast_S_S10000 : S_.BroadcastsInDim S10000 (![] : Fin 0 → Fin S10000.rank)
  bcast_S_S10000x128 : S_.BroadcastsInDim S10000x128 (![] : Fin 0 → Fin S10000x128.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  reducesTo_S10000x128_S10000_d1 : S10000x128.ReducesTo [1] S10000
  bcast_S_S10000x1 : S_.BroadcastsInDim S10000x1 (![] : Fin 0 → Fin S10000x1.rank)
  bcast_S10000_S1x10000_1 : S10000.BroadcastsInDim S1x10000 (![1] : Fin 1 → Fin S1x10000.rank)
  bcast_S4096x1_S4096x10000_0_1 : S4096x1.BroadcastsInDim S4096x10000 (![0, 1] : Fin 2 → Fin S4096x10000.rank)
  bcast_S1x10000_S4096x10000_0_1 : S1x10000.BroadcastsInDim S4096x10000 (![0, 1] : Fin 2 → Fin S4096x10000.rank)
  transposes_S10000x128_S128x10000_1_0 : S10000x128.Transposes [1, 0] S128x10000
  bcast_S_S4096x10000 : S_.BroadcastsInDim S4096x10000 (![] : Fin 0 → Fin S4096x10000.rank)
  concatenates_S4096x1_S4096x1_S4096x2_d1 : Shape.Concatenates [S4096x1, S4096x1] S4096x2 1
  reducesTo_S4096_S_d0 : S4096.ReducesTo [0] S_
  reducesTo_S4096x10000_S_d0_1 : S4096x10000.ReducesTo [0, 1] S_
  bcast_S_S1 : S_.BroadcastsInDim S1 (![] : Fin 0 → Fin S1.rank)
  bcast_S1_S4096_0 : S1.BroadcastsInDim S4096 (![0] : Fin 1 → Fin S4096.rank)
  scatter_S10000_S4096x1_S4096_n_0_0_1_wf : ScatterDims.WF S10000 S4096x1 S4096 [] [0] [0] 1
  scatter_S10000x128_S4096x1_S4096x128_1_0_0_1_wf : ScatterDims.WF S10000x128 S4096x1 S4096x128 [1] [0] [0] 1
  dot_S4096x128_S128x10000_S4096x10000_1_0_0_1_n_n_wf : DotDims.WF S4096x128 S128x10000 S4096x10000 [1] [0] [0] [1] [] []
  gather_S4096x10000_S4096x2_S4096_n_01_n_n_01_1_11_wf : GatherDims.WF S4096x10000 S4096x2 S4096 [] [0, 1] [] [0, 1] [] 1 ![1, 1]

variable [Facts₀]

def scatter_S10000_S4096x1_S4096_n_0_0_1 : ScatterDims S10000 S4096x1 S4096 where
  updateWindowDims := []
  insertedWindowDims := [0]
  scatterDimsToOperandDims := [0]
  indexVectorDim := 1
  wf := scatter_S10000_S4096x1_S4096_n_0_0_1_wf
def scatter_S10000x128_S4096x1_S4096x128_1_0_0_1 : ScatterDims S10000x128 S4096x1 S4096x128 where
  updateWindowDims := [1]
  insertedWindowDims := [0]
  scatterDimsToOperandDims := [0]
  indexVectorDim := 1
  wf := scatter_S10000x128_S4096x1_S4096x128_1_0_0_1_wf
def dot_S4096x128_S128x10000_S4096x10000_1_0_0_1_n_n : DotDims S4096x128 S128x10000 S4096x10000 where
  lhsContracting := [1]
  rhsContracting := [0]
  lhsNonContracting := [0]
  rhsNonContracting := [1]
  lhsBatch := []
  rhsBatch := []
  wf := dot_S4096x128_S128x10000_S4096x10000_1_0_0_1_n_n_wf
def gather_S4096x10000_S4096x2_S4096_n_01_n_n_01_1_11 : GatherDims S4096x10000 S4096x2 S4096 where
  offsetDims := []
  collapsedSliceDims := [0, 1]
  operandBatchingDims := []
  startIndicesBatchingDims := []
  startIndexMap := [0, 1]
  indexVectorDim := 1
  sliceSizes := ![1, 1]
  wf := gather_S4096x10000_S4096x2_S4096_n_01_n_n_01_1_11_wf

class Facts : Prop extends Facts₀ where

variable [Facts]
-- ==== Proof.KB.Region0.lean ====
import proofs.«408336_j75806172774555_3_alg».proof.Proof.Gen.Kernel.Launch
import proofs.«408336_j75806172774555_3_alg».proof.Proof.Gen.Kernel.Skeleton
import proofs.«408336_j75806172774555_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window w's block at point t, read off its array at the region's entry contents V.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_in : Rect S512x64x128 := Rect.unit (s := S512x64x128) ![0, 0, 0] S512x64x128.size inb_S512x64x128_S512x64x128_0_0_0
abbrev r0_out : Rect S512x128 := Rect.unit (s := S512x128) ![0, 0] S512x128.size inb_S512x128_S512x128_0_0
theorem hz0_in : (![0, 0, 0] : Fin S512x64x128.rank → Nat) = fun _ => 0 := funext fun a => by fin_cases a <;> rfl
theorem hz0_out : (![0, 0] : Fin S512x128.rank → Nat) = fun _ => 0 := funext fun a => by fin_cases a <;> rfl

-- What the body leaves for the output window: its one store, of the payload of what its one load read.
def out0_1 (x0 : Vec F S512x64x128 .f32) : Vec F S512x128 .f32 :=
  View.canon [⟨r0_out, k0_pay1 (View.ld x0 r0_in)⟩]

-- The store is of the whole buffer and the load read the whole block.
theorem out0_1_eq (x0 : Vec F S512x64x128 .f32) : out0_1 x0 = k0_pay1 x0 := by
  unfold out0_1
  rw [View.canon_unit_zero hz0_out]
  simp only [View.ld_unit_zero (S := S512x64x128) hz0_in]

theorem sound_kernel0 (c : Dev nD) (E : Set ℕ) (i : grid0.Coords) (arg1 : Memref sig .tc .vmem S512x64x128 .f32) (harg1 : arg1.IsWhole) (arg2 : Memref sig .tc .vmem S512x128 .f32) (harg2 : arg2.IsWhole)
    (x0 : Vec F S512x64x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__pool_norm_kernel i arg1 harg1 arg2 harg2) K := by
  simp only [cc0__pool_norm_kernel_eq_skeleton]; unfold cc0__pool_norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ fun y =>
    ⟨_, List.mem_singleton_self _, View.mem_set_unit_zero hz0_out inb_S512x128_S512x128_0_0 y⟩

-- Nothing is carried between grid points: the invariant is the class's, nothing is owed, every share is full.
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl

-- The input's memref holds its block, so the body's triple applies; the invariant and the debts pass through unread.
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d)))
    ⊢ wp frame (wpE (defs₀ (F := F)) Variants.none c none) Set.univ (bodyAt0 t) fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)) := by
  unfold bodyAt0
  simp only [before0_0]
  rw [show (dat0 V c).Φ t.succ = (dat0 V c).Φ t.castSucc from rfl,
    show (dat0 V c).owesAt () t.succ = (dat0 V c).owesAt () t.castSucc from rfl, after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Region1Runs.lean ====
import proofs.«408336_j75806172774555_3_alg».proof.Proof.Gen.Kernel.Launch
import proofs.«408336_j75806172774555_3_alg».proof.Proof.Gen.Kernel.Skeleton
import proofs.«408336_j75806172774555_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off its array as the region finds it.
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- The body's two branch conditions (the inner grid coordinate is 0; it is 3), and where on the grid they hold.
abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1
theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 = 3 :=
  (by decide +kernel : ∀ t : Fin grid1.N, cond1_1 (grid1.coords t) ↔ t.val % 4 = 3)

theorem liveIn1 : ∀ t : Fin cfg1.N, cfg1.idle 0 (grid1.coords t) = false ∧ cfg1.idle 1 (grid1.coords t) = false := by decide +kernel
theorem idleOut1 : ∀ t : Fin cfg1.N, ¬t.val % 4 = 3 → cfg1.idle 2 (grid1.coords t) = true ∧ (cfg1.win 2).flush t = false
    ∧ cfg1.idle 3 (grid1.coords t) = true ∧ (cfg1.win 3).flush t = false := by decide +kernel
theorem liveOut1 : ∀ t : Fin cfg1.N, t.val % 4 = 3 → cfg1.idle 2 (grid1.coords t) = false ∧ cfg1.idle 3 (grid1.coords t) = false := by decide +kernel

abbrev VO1_2 : View sig .tc .vmem S2048x128 .f32 := (Memref.whole cc1_stg2_0 : Memref sig .tc .vmem S2048x128 .f32).view
abbrev VO1_3 : View sig .tc .vmem S2048x1 .f32 := (Memref.whole cc1_stg3_0 : Memref sig .tc .vmem S2048x1 .f32).view
abbrev ms1_0 (t : Fin cfg1.N) : Memref sig .tc .vmem S1x1024 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .f32 := win1_3.stage (cfg1.slots t 3)
abbrev hs1_3 (t : Fin cfg1.N) : (ms1_3 t).IsWhole := hstage1_3 ((cfg1.slots t 3).cast nbuf1_3)
abbrev scM1_0 : Memref sig .tc .vmem S2048x128 .f32 := Memref.whole cc1_scratch0
abbrev scM1_1 : Memref sig .tc .vmem S2048x1 .f32 := Memref.whole cc1_scratch1
abbrev VS1_0 : View sig .tc .vmem S2048x128 .f32 := scM1_0.view
abbrev VS1_1 : View sig .tc .vmem S2048x1 .f32 := scM1_1.view

-- The core's other scoped buffers, each at some contents.
def rest1 (c : Dev nD) : sProp 𝕄 := Pipeline.scopedRestBut spec1 c [cc1_scratch0, cc1_scratch1]

-- The region invariant, the two accumulators described by `P0` and `P1`.
def PhiR1 (c : Dev nD) (P0 P1 : sProp 𝕄) : sProp 𝕄 :=
  iprop(((P0 ∗ P1) ∗ rest1 (F := F) c) ∗ (∃ r, prngReg c r))

-- On entry the invariant holds with each accumulator at some contents.
theorem PhiA1_eq (c : Dev nD) :
    (Pipeline.ΦA spec1 c : sProp 𝕄)
      = PhiR1 (F := F) c iprop(∃ d, owns (c : Thread nD τ) scM1_0 fullShare d) iprop(∃ d, owns (c : Thread nD τ) scM1_1 fullShare d) := by
  unfold Pipeline.ΦA PhiR1 rest1
  rw [Pipeline.scopedRest_split_of_list spec1 c [cc1_scratch0, cc1_scratch1] (by decide) (by decide)]
  simp only [scM1_0, scM1_1, owns_whole]; try rfl

end Cert.Kernel.Hand

end
-- ==== Proof.KB.Region1RunA.lean ====
import proofs.«408336_j75806172774555_3_alg».proof.Proof.KB.Region1Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun1_A (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x1 .f32) (harg7 : arg7.IsWhole) (hc0 : cond1_0 i) (hc1 : ¬cond1_1 i)
    (x0 : Vec F S1x1024 .i32) (x1 : Vec F S1024x128 .f32) :
    Σ' (LS0 : List (View.Piece (Elt F) S2048x128 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__ema_sum_kernel i arg2 harg2 arg3 harg3 arg4 harg4 arg5 harg5 arg6 harg6 arg7 harg7) K } := by
  refine ⟨?_, ?_, fun E K => ?run⟩
  case run =>
    simp only [cc1__ema_sum_kernel_eq_skeleton]; unfold cc1__ema_sum_kernel_skel
    simp only [k1_part1_eq_skeleton]
    unfold owns
    iintro ⟨⟨%f0, %hf0, H0⟩, ⟨%f1, %hf1, H1⟩, ⟨%ds0, %fs0, -, HS0⟩, ⟨%ds1, %fs1, -, HS1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.Kernel.Hand

end
-- ==== Proof.KB.Region1RunB.lean ====
import proofs.«408336_j75806172774555_3_alg».proof.Proof.KB.Region1RunA

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun1_B (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x1 .f32) (harg7 : arg7.IsWhole) (hc0 : ¬cond1_0 i) (hc1 : ¬cond1_1 i)
    (x0 : Vec F S1x1024 .i32) (x1 : Vec F S1024x128 .f32) (xs0 : Vec F S2048x128 .f32) (xs1 : Vec F S2048x1 .f32) :
    Σ' (LS0 : List (View.Piece (Elt F) S2048x128 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__ema_sum_kernel i arg2 harg2 arg3 harg3 arg4 harg4 arg5 harg5 arg6 harg6 arg7 harg7) K } := by
  refine ⟨?_, ?_, fun E K => ?run⟩
  case run =>
    simp only [cc1__ema_sum_kernel_eq_skeleton]; unfold cc1__ema_sum_kernel_skel
    simp only [k1_part1_eq_skeleton]
    unfold owns
    iintro ⟨⟨%f0, %hf0, H0⟩, ⟨%f1, %hf1, H1⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.Kernel.Hand

end
-- ==== Proof.KB.Region1RunC.lean ====
import proofs.«408336_j75806172774555_3_alg».proof.Proof.KB.Region1RunB

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun1_C (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x1 .f32) (harg7 : arg7.IsWhole) (hc0 : ¬cond1_0 i) (hc1 : cond1_1 i)
    (x0 : Vec F S1x1024 .i32) (x1 : Vec F S1024x128 .f32) (xs0 : Vec F S2048x128 .f32) (xs1 : Vec F S2048x1 .f32) :
    Σ' (L2 : List (View.Piece (Elt F) S2048x128 .f32)) (L3 : List (View.Piece (Elt F) S2048x1 .f32)) (LS0 : List (View.Piece (Elt F) S2048x128 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__ema_sum_kernel i arg2 harg2 arg3 harg3 arg4 harg4 arg5 harg5 arg6 harg6 arg7 harg7) K } := by
  refine ⟨?_, ?_, ?_, ?_, fun E K => ?run⟩
  case run =>
    simp only [cc1__ema_sum_kernel_eq_skeleton]; unfold cc1__ema_sum_kernel_skel
    simp only [k1_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.Kernel.Hand

end
-- ==== Proof.KB.Region1.lean ====
import proofs.«408336_j75806172774555_3_alg».proof.Proof.KB.Region1RunC

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (c : Dev nD)

-- What pieces written over anything leave in a buffer, read through `v`.
abbrev rd1 {S : Shape} {e : EltTy} (v : View sig .tc .vmem S e) (L : List (View.Piece (Elt F) S e)) : Vec F S e :=
  v.read (Elt F) (v.writes (Elt F) v.junk L)

section
variable (t : Fin cfg1.N)

-- The three cases' runs on the memrefs and blocks of point `t`; `p` is what the accumulators hold when the point is reached.
def run1A (h0 : t.val % 4 = 0) (h1 : ¬t.val % 4 = 3) :=
  kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _)
    ((hcond1_0 t).mpr h0) (mt (hcond1_1 t).mp h1) (iblk1 V c 0 t) (iblk1 V c 1 t)
def run1B (h0 : ¬t.val % 4 = 0) (h1 : ¬t.val % 4 = 3) (p : Vec F S2048x128 .f32 × Vec F S2048x1 .f32) :=
  kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _)
    (mt (hcond1_0 t).mp h0) (mt (hcond1_1 t).mp h1) (iblk1 V c 0 t) (iblk1 V c 1 t) p.1 p.2
def run1C (h0 : ¬t.val % 4 = 0) (h1 : t.val % 4 = 3) (p : Vec F S2048x128 .f32 × Vec F S2048x1 .f32) :=
  kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _)
    (mt (hcond1_0 t).mp h0) ((hcond1_1 t).mpr h1) (iblk1 V c 0 t) (iblk1 V c 1 t) p.1 p.2

-- What the body at point `t` leaves in the two accumulators: a first point of a row resets them, a later one updates `p`.
def step1 (p : Vec F S2048x128 .f32 × Vec F S2048x1 .f32) : Vec F S2048x128 .f32 × Vec F S2048x1 .f32 :=
  if h0 : t.val % 4 = 0 then (rd1 VS1_0 (run1A V c t h0 (by omega)).1, rd1 VS1_1 (run1A V c t h0 (by omega)).2.1)
  else if h1 : t.val % 4 = 3 then (rd1 VS1_0 (run1C V c t h0 h1 p).2.2.1, rd1 VS1_1 (run1C V c t h0 h1 p).2.2.2.1)
  else (rd1 VS1_0 (run1B V c t h0 h1 p).1, rd1 VS1_1 (run1B V c t h0 h1 p).2.1)

end

-- What the accumulators hold after the body at position `n`; position 0 resets, so its seed is never read.
def sAt1 : (n : ℕ) → n < cfg1.N → Vec F S2048x128 .f32 × Vec F S2048x1 .f32
  | 0, hn => step1 V c ⟨0, hn⟩ (k1_pay1, k1_pay2)
  | n + 1, hn => step1 V c ⟨n + 1, hn⟩ (sAt1 n (Nat.lt_of_succ_lt hn))

variable (t : Fin cfg1.N)

-- What the point before `t` left in the accumulators.
abbrev prev1 : Vec F S2048x128 .f32 × Vec F S2048x1 .f32 := sAt1 V c (t.val - 1) (Nat.lt_of_le_of_lt (Nat.sub_le _ _) t.isLt)

-- Every position is one step from what the point before left: position 0 starts a row, where the step forgets what it is given.
theorem sAt1_eq : sAt1 V c t.val t.isLt = step1 V c t (prev1 V c t) := by
  obtain ⟨_ | n, hn⟩ := t
  · have h : (⟨0, hn⟩ : Fin cfg1.N).val % 4 = 0 := Nat.zero_mod 4
    show step1 V c _ _ = step1 V c _ _
    unfold step1; rw [dif_pos h, dif_pos h]
  · rfl

theorem sAt1_A (h0 : t.val % 4 = 0) (h1 : ¬t.val % 4 = 3) :
    sAt1 V c t.val t.isLt = (rd1 VS1_0 (run1A V c t h0 h1).1, rd1 VS1_1 (run1A V c t h0 h1).2.1) := by
  rw [sAt1_eq V c t, step1, dif_pos h0]
theorem sAt1_B (h0 : ¬t.val % 4 = 0) (h1 : ¬t.val % 4 = 3) :
    sAt1 V c t.val t.isLt = (rd1 VS1_0 (run1B V c t h0 h1 (prev1 V c t)).1, rd1 VS1_1 (run1B V c t h0 h1 (prev1 V c t)).2.1) := by
  rw [sAt1_eq V c t, step1, dif_neg h0, dif_neg h1]
theorem sAt1_C (h0 : ¬t.val % 4 = 0) (h1 : t.val % 4 = 3) :
    sAt1 V c t.val t.isLt = (rd1 VS1_0 (run1C V c t h0 h1 (prev1 V c t)).2.2.1, rd1 VS1_1 (run1C V c t h0 h1 (prev1 V c t)).2.2.2.1) := by
  rw [sAt1_eq V c t, step1, dif_neg h0, dif_pos h1]

-- What the two output blocks hold after the body at point `t`: at the last point of a row the copies of the accumulators; elsewhere nothing is stored and nothing is asked.
def outAt1 : Vec F S2048x128 .f32 × Vec F S2048x1 .f32 :=
  if h1 : t.val % 4 = 3 then (rd1 VO1_2 (run1C V c t (by omega) h1 (prev1 V c t)).1, rd1 VO1_3 (run1C V c t (by omega) h1 (prev1 V c t)).2.1)
  else (rd1 VO1_2 [], rd1 VO1_3 [])

-- The invariant before position `n`: first the entry condition, afterwards each accumulator at what the point before left.
def PhiS1 : (n : ℕ) → n ≤ cfg1.N → sProp 𝕄
  | 0, _ => Pipeline.ΦA spec1 c
  | n + 1, hn => PhiR1 (F := F) c (owns (c : Thread nD τ) scM1_0 fullShare (sAt1 V c n hn).1) (owns (c : Thread nD τ) scM1_1 fullShare (sAt1 V c n hn).2)

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outAt1 V c t).1
    | ⟨3, _⟩ => (outAt1 V c t).2
  Φ t := PhiS1 V c t.val (Nat.le_of_lt_succ t.isLt)
  q _ := fullShare
  owed _ := 0

theorem A_eq1 (w : Fin cfg1.W) : (dat1 V c).A w = V c (Pipeline.arrRef spec1 w) := by
  dsimp only [dat1]

theorem after1_0 : (dat1 V c).after 0 t = iblk1 V c 0 t := by dsimp only [dat1]
theorem after1_1 : (dat1 V c).after 1 t = iblk1 V c 1 t := by dsimp only [dat1]
theorem after1_2 : (dat1 V c).after 2 t = (outAt1 V c t).1 := by dsimp only [dat1]
theorem after1_3 : (dat1 V c).after 3 t = (outAt1 V c t).2 := by dsimp only [dat1]

-- The body finds each input block at every point and leaves it as found.
theorem before1_0 (d) : (dat1 V c).before 0 t d = iblk1 V c 0 t :=
  ((dat1 V c).before_in_eq_fetched 0 rfl (fun _ => rfl) (fun _ _ _ => rfl) (fun _ => rfl) t d).trans rfl
theorem before1_1 (d) : (dat1 V c).before 1 t d = iblk1 V c 1 t :=
  ((dat1 V c).before_in_eq_fetched 1 rfl (fun _ => rfl) (fun _ _ _ => rfl) (fun _ => rfl) t d).trans rfl

-- After any point but the first each accumulator is at what that point left.
theorem Phi1_pos (s : Fin (cfg1.N + 1)) (hs : s.val ≠ 0) :
    (dat1 V c).Φ s = PhiR1 (F := F) c (owns (c : Thread nD τ) scM1_0 fullShare (sAt1 V c (s.val - 1) (by omega)).1) (owns (c : Thread nD τ) scM1_1 fullShare (sAt1 V c (s.val - 1) (by omega)).2) := by
  obtain ⟨_ | n, hn⟩ := s
  · exact absurd rfl hs
  · rfl

-- At every position each accumulator is at some contents, as on entry and on exit.
theorem Phi1_any (s : Fin (cfg1.N + 1)) : (dat1 V c).Φ s ⊢ PhiR1 (F := F) c iprop(∃ d, owns (c : Thread nD τ) scM1_0 fullShare d) iprop(∃ d, owns (c : Thread nD τ) scM1_1 fullShare d) := by
  by_cases hs : s.val = 0
  · obtain ⟨_ | n, hn⟩ := s
    · rw [← PhiA1_eq]; exact Idealize.SL.BI.Entails.refl _
    · exact absurd hs (Nat.succ_ne_zero n)
  rw [Phi1_pos V c s hs]; unfold PhiR1
  iintro ⟨⟨⟨HS0, HS1⟩, Hrest⟩, Hg⟩
  iframe Hrest Hg
  isplitl [HS0]; · iexists _; iexact HS0
  iexists _; iexact HS1

theorem hin1 : Pipeline.ΦA spec1 c ⊢ (dat1 V c).Φ 0 := Idealize.SL.BI.Entails.refl _

theorem hout1 : (dat1 V c).Φ (Fin.last cfg1.N) ⊢ Pipeline.ΦA spec1 c := by
  rw [PhiA1_eq]; exact Phi1_any V c _

-- What the body is called with at point `t`, the windows one by one, and what it returns.
def bodyPre1 : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))
def bodyPost1 : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

-- The body at any point: the accumulators go in as the point before left them (at a first point of a row, at anything) and come out at this point's contents; the output blocks come back untouched except at the last point of a row.
theorem sound_body1 : bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = PhiR1 (F := F) c (owns (c : Thread nD τ) scM1_0 fullShare (sAt1 V c t.val t.isLt).1) (owns (c : Thread nD τ) scM1_1 fullShare (sAt1 V c t.val t.isLt).2) from rfl,
    show (dat1 V c).leavesExact 0 t = owns (c : Thread nD τ) (ms1_0 t) fullShare ((dat1 V c).after 0 t) from by
      unfold Dat.leavesExact; rw [(liveIn1 t).1], after1_0,
    show (dat1 V c).leavesExact 1 t = owns (c : Thread nD τ) (ms1_1 t) fullShare ((dat1 V c).after 1 t) from by
      unfold Dat.leavesExact; rw [(liveIn1 t).2], after1_1]
  by_cases h1 : t.val % 4 = 3
  · have h0 : ¬t.val % 4 = 0 := by omega
    rw [show (dat1 V c).leavesExact 2 t = owns (c : Thread nD τ) (ms1_2 t) fullShare ((dat1 V c).after 2 t) from by
        unfold Dat.leavesExact; rw [(liveOut1 t h1).1], after1_2,
      show (dat1 V c).leavesExact 3 t = owns (c : Thread nD τ) (ms1_3 t) fullShare ((dat1 V c).after 3 t) from by
        unfold Dat.leavesExact; rw [(liveOut1 t h1).2], after1_3,
      show outAt1 V c t = _ from dif_pos h1, sAt1_C V c t h0 h1, Phi1_pos V c t.castSucc (fun e => h0 (by rw [show t.val = 0 from e]))]
    dsimp only [Fin.coe_castSucc]
    unfold PhiR1
    iintro ⟨⟨⟨⟨HS0, HS1⟩, Hrest⟩, Hg⟩, Ho, ⟨%d0, H0⟩, ⟨%d1, H1⟩, ⟨%d2, H2⟩, ⟨%d3, H3⟩⟩
    iapply ((run1C V c t h0 h1 (prev1 V c t)).2.2.2.2 Set.univ _)
    iframe H0 H1 HS0 HS1
    isplitl [H2]; · iexists _; iexact H2
    isplitl [H3]; · iexists _; iexact H3
    iintro ⟨H0, H1, ⟨%e2, H2⟩, ⟨%e3, H3⟩, ⟨%es0, HS0⟩, ⟨%es1, HS1⟩⟩
    iframe Hrest Hg Ho H0 H1
    isplitl [HS0 HS1]
    · isplitl [HS0]
      · ihave H' := (Ring.owns_of_writes_tiledL VS1_0 S2048x128.size) $$ HS0; iapply H'; ipureintro; sl_kernel_rfl
      ihave H' := (Ring.owns_of_writes_tiledL VS1_1 S2048x1.size) $$ HS1; iapply H'; ipureintro; sl_kernel_rfl
    isplitl [H2]
    · ihave H' := (Ring.owns_of_writes_tiledL VO1_2 S2048x128.size) $$ H2; iapply H'; ipureintro; sl_kernel_rfl
    ihave H' := (Ring.owns_of_writes_tiledL VO1_3 S2048x1.size) $$ H3; iapply H'; ipureintro; sl_kernel_rfl
  obtain ⟨i2, f2, i3, f3⟩ := idleOut1 t h1
  rw [Dat.leavesExact_idle (dat1 V c) 2 t i2 f2, Dat.leavesExact_idle (dat1 V c) 3 t i3 f3]
  by_cases h0 : t.val % 4 = 0
  · rw [sAt1_A V c t h0 h1]
    dsimp only
    iintro ⟨HΦ, Ho, ⟨%d0, H0⟩, ⟨%d1, H1⟩, ⟨%d2, H2⟩, ⟨%d3, H3⟩⟩
    ihave HA := (Phi1_any V c t.castSucc) $$ HΦ
    unfold PhiR1
    icases HA with ⟨⟨⟨HS0, HS1⟩, Hrest⟩, Hg⟩
    iapply ((run1A V c t h0 h1).2.2 Set.univ _)
    iframe H0 H1 HS0 HS1
    iintro ⟨H0, H1, ⟨%es0, HS0⟩, ⟨%es1, HS1⟩⟩
    iframe Hrest Hg Ho H0 H1
    isplitl [HS0 HS1]
    · isplitl [HS0]
      · ihave H' := (Ring.owns_of_writes_tiledL VS1_0 S2048x128.size) $$ HS0; iapply H'; ipureintro; sl_kernel_rfl
      ihave H' := (Ring.owns_of_writes_tiledL VS1_1 S2048x1.size) $$ HS1; iapply H'; ipureintro; sl_kernel_rfl
    isplitl [H2]; · iexists _; iexact H2
    iexists _; iexact H3
  rw [sAt1_B V c t h0 h1, Phi1_pos V c t.castSucc (fun e => h0 (by rw [show t.val = 0 from e]))]
  dsimp only [Fin.coe_castSucc]
  unfold PhiR1
  iintro ⟨⟨⟨⟨HS0, HS1⟩, Hrest⟩, Hg⟩, Ho, ⟨%d0, H0⟩, ⟨%d1, H1⟩, ⟨%d2, H2⟩, ⟨%d3, H3⟩⟩
  iapply ((run1B V c t h0 h1 (prev1 V c t)).2.2 Set.univ _)
  iframe H0 H1 HS0 HS1
  iintro ⟨H0, H1, ⟨%es0, HS0⟩, ⟨%es1, HS1⟩⟩
  iframe Hrest Hg Ho H0 H1
  isplitl [HS0 HS1]
  · isplitl [HS0]
    · ihave H' := (Ring.owns_of_writes_tiledL VS1_0 S2048x128.size) $$ HS0; iapply H'; ipureintro; sl_kernel_rfl
    ihave H' := (Ring.owns_of_writes_tiledL VS1_1 S2048x1.size) $$ HS1; iapply H'; ipureintro; sl_kernel_rfl
  isplitl [H2]; · iexists _; iexact H2
  iexists _; iexact H3

theorem body_obligation1 : BodyObligation (dat1 (F := F) V c) (defs₀ (F := F)) Variants.none () Set.univ := fun t => by
  rw [bigSep_W1, bigSep_W1]
  exact sound_body1 V c t

end Cert.Kernel.Hand

end
-- ==== Proof.KB.Region2Runs.lean ====
import proofs.«408336_j75806172774555_3_alg».proof.Proof.Gen.Kernel.Launch
import proofs.«408336_j75806172774555_3_alg».proof.Proof.Gen.Kernel.Skeleton
import proofs.«408336_j75806172774555_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

end Blocks

abbrev cond2_0 (i : grid2.Coords) : Prop := (Scalar.cmpi .ne (Scalar.extui (Scalar.cmpi .eq (BitVec.ofNat 32 (i 1).val) 0#32)) 0#32) = 1#1
abbrev cond2_1 (i : grid2.Coords) : Prop := k2_cond2 i = 1#1

-- The zero fill is taken at the first class tile of a row of the grid, the copy into the output block at the last.
theorem hcond2_0 : ∀ t : Fin cfg2.N, cond2_0 (grid2.coords t) ↔ t.val % 5 = 0 :=
  (by decide +kernel : ∀ t : Fin grid2.N, cond2_0 (grid2.coords t) ↔ t.val % 5 = 0)
theorem hcond2_1 : ∀ t : Fin cfg2.N, cond2_1 (grid2.coords t) ↔ t.val % 5 = 4 :=
  (by decide +kernel : ∀ t : Fin grid2.N, cond2_1 (grid2.coords t) ↔ t.val % 5 = 4)

theorem live2 : ∀ (t : Fin cfg2.N) (w : Fin cfg2.W), w.val < 3 ∨ t.val % 5 = 4 → cfg2.idle w (grid2.coords t) = false := by decide +kernel
theorem idle2 : ∀ t : Fin cfg2.N, ¬t.val % 5 = 4 → cfg2.idle 3 (grid2.coords t) = true ∧ (cfg2.win 3).flush t = false := by decide +kernel

abbrev VO2_3 : View sig .tc .vmem S1024x1 .f32 := (Memref.whole cc2_stg3_0 : Memref sig .tc .vmem S1024x1 .f32).view
abbrev ms2_0 (t : Fin cfg2.N) : Memref sig .tc .vmem S1024x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2048 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1 .f32 := win2_3.stage (cfg2.slots t 3)
abbrev hs2_3 (t : Fin cfg2.N) : (ms2_3 t).IsWhole := hstage2_3 ((cfg2.slots t 3).cast nbuf2_3)
abbrev scM2_0 : Memref sig .tc .vmem S1024x1 .f32 := Memref.whole cc2_scratch0
abbrev VS2_0 : View sig .tc .vmem S1024x1 .f32 := scM2_0.view

-- What the region never touches: the core's other scoped buffers, at some contents each.
def rest2 (c : Dev nD) : sProp 𝕄 := Pipeline.scopedRestBut spec2 c [cc2_scratch0]

-- The resting invariant is the accumulator at some contents, the other scoped buffers, and the generator register.
theorem PhiA2_eq (c : Dev nD) :
    (Pipeline.ΦA spec2 c : sProp 𝕄) = iprop(((∃ d, owns (c : Thread nD τ) scM2_0 fullShare d) ∗ rest2 (F := F) c) ∗ (∃ r, prngReg c r)) := by
  unfold Pipeline.ΦA rest2
  rw [Pipeline.scopedRest_split_of_list spec2 c [cc2_scratch0] (by decide) (by decide)]
  simp only [scM2_0, owns_whole]; try rfl

end Cert.Kernel.Hand

end
-- ==== Proof.KB.Region2RunA.lean ====
import proofs.«408336_j75806172774555_3_alg».proof.Proof.KB.Region2Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable def kernelRun2_A (c : Dev nD) (i : grid2.Coords) (arg2 : Memref sig .tc .vmem S1024x128 .f32) (harg2 : arg2.IsWhole) (arg3 : Memref sig .tc .vmem S2048x128 .bf16) (harg3 : arg3.IsWhole) (arg4 : Memref sig .tc .vmem S1x2048 .f32) (harg4 : arg4.IsWhole) (arg5 : Memref sig .tc .vmem S1024x1 .f32) (harg5 : arg5.IsWhole) (arg6 : Memref sig .tc .vmem S1024x1 .f32) (harg6 : arg6.IsWhole) (hc0 : cond2_0 i) (hc1 : ¬cond2_1 i)
    (x0 : Vec F S1024x128 .f32) (x1 : Vec F S2048x128 .bf16) (x2 : Vec F S1x2048 .f32) :
    Σ' (L3 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg6.view.loc (c : Thread nD τ) ↦[arg6.view.set]{fullShare} arg6.view.writes (Elt F) f LS0)) -∗ K ⟨⟩))
          ⊢ wp frame (wpE (defs₀ (F := F)) Variants.none c none) E (cc2__cdist_margin_kernel i arg2 harg2 arg3 harg3 arg4 harg4 arg5 harg5 arg6 harg6) K } := by
  refine ⟨[], ?_, fun E K => ?run⟩
  case run =>
    simp only [cc2__cdist_margin_kernel_eq_skeleton]; unfold cc2__cdist_margin_kernel_skel
    simp only [k2_part1_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KB.Region2RunB.lean ====
import proofs.«408336_j75806172774555_3_alg».proof.Proof.KB.Region2RunA

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable def kernelRun2_B (c : Dev nD) (i : grid2.Coords) (arg2 : Memref sig .tc .vmem S1024x128 .f32) (harg2 : arg2.IsWhole) (arg3 : Memref sig .tc .vmem S2048x128 .bf16) (harg3 : arg3.IsWhole) (arg4 : Memref sig .tc .vmem S1x2048 .f32) (harg4 : arg4.IsWhole) (arg5 : Memref sig .tc .vmem S1024x1 .f32) (harg5 : arg5.IsWhole) (arg6 : Memref sig .tc .vmem S1024x1 .f32) (harg6 : arg6.IsWhole) (hc0 : ¬cond2_0 i) (hc1 : ¬cond2_1 i)
    (x0 : Vec F S1024x128 .f32) (x1 : Vec F S2048x128 .bf16) (x2 : Vec F S1x2048 .f32) (xs0 : Vec F S1024x1 .f32) :
    Σ' (L3 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg6.view.loc (c : Thread nD τ) ↦[arg6.view.set]{fullShare} arg6.view.writes (Elt F) f LS0)) -∗ K ⟨⟩))
          ⊢ wp frame (wpE (defs₀ (F := F)) Variants.none c none) E (cc2__cdist_margin_kernel i arg2 harg2 arg3 harg3 arg4 harg4 arg5 harg5 arg6 harg6) K } := by
  refine ⟨[], ?_, fun E K => ?run⟩
  case run =>
    simp only [cc2__cdist_margin_kernel_eq_skeleton]; unfold cc2__cdist_margin_kernel_skel
    simp only [k2_part1_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KB.Region2RunC.lean ====
import proofs.«408336_j75806172774555_3_alg».proof.Proof.KB.Region2RunB

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable def kernelRun2_C (c : Dev nD) (i : grid2.Coords) (arg2 : Memref sig .tc .vmem S1024x128 .f32) (harg2 : arg2.IsWhole) (arg3 : Memref sig .tc .vmem S2048x128 .bf16) (harg3 : arg3.IsWhole) (arg4 : Memref sig .tc .vmem S1x2048 .f32) (harg4 : arg4.IsWhole) (arg5 : Memref sig .tc .vmem S1024x1 .f32) (harg5 : arg5.IsWhole) (arg6 : Memref sig .tc .vmem S1024x1 .f32) (harg6 : arg6.IsWhole) (hc0 : ¬cond2_0 i) (hc1 : cond2_1 i)
    (x0 : Vec F S1024x128 .f32) (x1 : Vec F S2048x128 .bf16) (x2 : Vec F S1x2048 .f32) (xs0 : Vec F S1024x1 .f32) :
    Σ' (L3 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__cdist_margin_kernel i arg2 harg2 arg3 harg3 arg4 harg4 arg5 harg5 arg6 harg6) K } := by
  refine ⟨?_, ?_, fun E K => ?run⟩
  case run =>
    simp only [cc2__cdist_margin_kernel_eq_skeleton]; unfold cc2__cdist_margin_kernel_skel
    simp only [k2_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.KB.Region2.lean ====
import proofs.«408336_j75806172774555_3_alg».proof.Proof.KB.Region2RunC

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- What a list of stores leaves in a buffer of the accumulator's shape, read through the view `v`.
abbrev rd2 (v : View sig .tc .vmem S1024x1 .f32) (L : List (View.Piece (Elt F) S1024x1 .f32)) : Vec F S1024x1 .f32 :=
  v.read (Elt F) (v.writes (Elt F) v.junk L)

section Point
variable (c : Dev nD) (t : Fin cfg2.N)

-- The three cases of the body run at the point `t`, on its memrefs and the inputs' blocks.
abbrev runA2 (h0 : t.val % 5 = 0) (h1 : ¬t.val % 5 = 4) :=
  kernelRun2_A c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)
abbrev runB2 (h0 : ¬t.val % 5 = 0) (h1 : ¬t.val % 5 = 4) (p : Vec F S1024x1 .f32) :=
  kernelRun2_B c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) p
abbrev runC2 (h0 : ¬t.val % 5 = 0) (h1 : t.val % 5 = 4) (p : Vec F S1024x1 .f32) :=
  kernelRun2_C c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) p

-- The accumulator after the body at `t`, entered at `p`: a reset point stores over it before reading it.
def acc2 (p : Vec F S1024x1 .f32) : Vec F S1024x1 .f32 :=
  if h0 : t.val % 5 = 0 then rd2 VS2_0 (runA2 V c t h0 (by omega)).2.1
  else if h1 : t.val % 5 = 4 then rd2 VS2_0 (runC2 V c t h0 h1 p).2.1
  else rd2 VS2_0 (runB2 V c t h0 h1 p).2.1

end Point

-- The accumulator's contents after the body at position `n`: each point's update of what the point before left.
def sAt2 (c : Dev nD) : (n : ℕ) → n < cfg2.N → Vec F S1024x1 .f32
  | 0, hn => acc2 V c ⟨0, hn⟩ (rd2 VS2_0 [])
  | n + 1, hn => acc2 V c ⟨n + 1, hn⟩ (sAt2 c n (Nat.lt_of_succ_lt hn))

-- What the accumulator holds when the body at `t` begins (at the first point, nothing that is read).
def pre2 (c : Dev nD) : Fin cfg2.N → Vec F S1024x1 .f32
  | ⟨0, _⟩ => rd2 VS2_0 []
  | ⟨n + 1, hn⟩ => sAt2 V c n (Nat.lt_of_succ_lt hn)

theorem sAt2_eq (c : Dev nD) (t : Fin cfg2.N) : sAt2 V c t.val t.isLt = acc2 V c t (pre2 V c t) := by
  obtain ⟨n, hn⟩ := t; cases n <;> rfl

theorem pre2_pos (c : Dev nD) (t : Fin cfg2.N) (hz : t.val ≠ 0) :
    pre2 V c t = sAt2 V c (t.val - 1) (Nat.lt_of_le_of_lt (Nat.sub_le _ _) t.isLt) := by
  obtain ⟨n, hn⟩ := t
  cases n with
  | zero => exact absurd rfl hz
  | succ n => rfl

-- What the body at `t` leaves in the output's buffer: the last case's store; elsewhere nothing is stored and nothing consults it.
def out2 (c : Dev nD) (t : Fin cfg2.N) : Vec F S1024x1 .f32 :=
  if h1 : t.val % 5 = 4 then rd2 VO2_3 (runC2 V c t (by omega) h1 (pre2 V c t)).1 else rd2 VO2_3 []

-- Before the first point nothing is said of the accumulator; before a later one it is named: what the point before left.
def PhiS2 (c : Dev nD) : (n : ℕ) → n ≤ cfg2.N → sProp 𝕄
  | 0, _ => Pipeline.ΦA spec2 c
  | n + 1, hn => iprop((owns (c : Thread nD τ) scM2_0 fullShare (sAt2 V c n hn) ∗ rest2 (F := F) c) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) : (dat2 V c).after 3 t = out2 V c t := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl

theorem live_leaves2 (c : Dev nD) (w : Fin cfg2.W) (t : Fin cfg2.N) (h : w.val < 3 ∨ t.val % 5 = 4) :
    (dat2 V c).leavesExact w t = owns (c : Thread nD τ) ((cfg2.win w).stage (cfg2.slots t w)) fullShare ((dat2 V c).after w t) := by
  unfold Dat.leavesExact; rw [live2 t w h]

-- At any position the invariant holds the accumulator at some contents,
theorem Phi2_some (c : Dev nD) (t : Fin (cfg2.N + 1)) :
    (dat2 V c).Φ t ⊢ iprop(((∃ d, owns (c : Thread nD τ) scM2_0 fullShare d) ∗ rest2 (F := F) c) ∗ (∃ r, prngReg c r)) := by
  obtain ⟨n, hn⟩ := t
  cases n with
  | zero =>
    rw [show (dat2 V c).Φ ⟨0, hn⟩ = Pipeline.ΦA spec2 c from rfl, PhiA2_eq]
    try exact Idealize.SL.BI.Entails.refl _
  | succ n =>
    rw [show (dat2 V c).Φ ⟨n + 1, hn⟩ = iprop((owns (c : Thread nD τ) scM2_0 fullShare (sAt2 V c n (Nat.lt_of_succ_lt_succ hn)) ∗ rest2 (F := F) c) ∗ (∃ r, prngReg c r)) from rfl]
    iintro ⟨⟨HS0, Hrest⟩, Hg⟩
    isplitr [Hg]
    · isplitl [HS0]; · iexists _; iexact HS0
      iexact Hrest
    iexact Hg

-- and past the first point at what the point before left.
theorem Phi2_pre (c : Dev nD) (t : Fin cfg2.N) (hz : t.val ≠ 0) :
    (dat2 V c).Φ t.castSucc = iprop((owns (c : Thread nD τ) scM2_0 fullShare (pre2 V c t) ∗ rest2 (F := F) c) ∗ (∃ r, prngReg c r)) := by
  obtain ⟨n, hn⟩ := t
  cases n with
  | zero => exact absurd rfl hz
  | succ n => rfl

-- One point of the grid: the accumulator goes in as the invariant names it and comes back at this point's update; all else is returned as found.
theorem sound_body2 (c : Dev nD) (t : Fin cfg2.N) :
    iprop((dat2 V c).Φ t.castSucc ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d))
      ∗ (∃ d, owns (c : Thread nD τ) (ms2_3 t) fullShare ((dat2 V c).before 3 t d)))
    ⊢ wp frame (wpE (defs₀ (F := F)) Variants.none c none) Set.univ (bodyAt2 t) (fun _ =>
      iprop((dat2 V c).Φ t.succ ∗ (dat2 V c).owesAt () t.succ
        ∗ (dat2 V c).leavesExact 0 t ∗ (dat2 V c).leavesExact 1 t ∗ (dat2 V c).leavesExact 2 t ∗ (dat2 V c).leavesExact 3 t)) := by
  unfold bodyAt2
  simp only [before2_0, before2_1, before2_2]
  rw [show (dat2 V c).owesAt () t.succ = (dat2 V c).owesAt () t.castSucc from rfl,
    show (dat2 V c).Φ t.succ = iprop((owns (c : Thread nD τ) scM2_0 fullShare (sAt2 V c t.val t.isLt) ∗ rest2 (F := F) c) ∗ (∃ r, prngReg c r)) from rfl,
    show (dat2 V c).leavesExact 0 t = owns (c : Thread nD τ) (ms2_0 t) fullShare (iblk2 V c 0 t) from live_leaves2 V c 0 t (.inl (by decide)),
    show (dat2 V c).leavesExact 1 t = owns (c : Thread nD τ) (ms2_1 t) fullShare (iblk2 V c 1 t) from live_leaves2 V c 1 t (.inl (by decide)),
    show (dat2 V c).leavesExact 2 t = owns (c : Thread nD τ) (ms2_2 t) fullShare (iblk2 V c 2 t) from live_leaves2 V c 2 t (.inl (by decide)),
    sAt2_eq V c t]
  unfold acc2
  by_cases h1 : t.val % 5 = 4
  · have h0 : ¬t.val % 5 = 0 := by omega
    rw [dif_neg h0, dif_pos h1, Phi2_pre V c t (by omega),
      show (dat2 V c).leavesExact 3 t = owns (c : Thread nD τ) (ms2_3 t) fullShare (out2 V c t) from live_leaves2 V c 3 t (.inr h1)]
    unfold out2; rw [dif_pos h1]
    iintro ⟨⟨⟨HS0, Hrest⟩, Hg⟩, Ho, ⟨%d0, H0⟩, ⟨%d1, H1⟩, ⟨%d2, H2⟩, ⟨%d3, H3⟩⟩
    iapply ((runC2 V c t h0 h1 _).2.2 Set.univ _)
    iframe H0 H1 H2 HS0
    isplitl [H3]; · iexists _; iexact H3
    iintro ⟨H0, H1, H2, ⟨%e3, H3⟩, ⟨%es0, HS0⟩⟩
    iframe Hrest Hg Ho H0 H1 H2
    isplitl [HS0]
    · ihave H' := (Ring.owns_of_writes_tiledL VS2_0 S1024x1.size) $$ HS0; iapply H'; ipureintro; sl_kernel_rfl
    ihave H' := (Ring.owns_of_writes_tiledL VO2_3 S1024x1.size) $$ H3; iapply H'; ipureintro; sl_kernel_rfl
  · rw [Dat.leavesExact_idle (dat2 V c) 3 t (idle2 t h1).1 (idle2 t h1).2]
    by_cases h0 : t.val % 5 = 0
    · rw [dif_pos h0]
      iintro ⟨HΦ, Ho, ⟨%d0, H0⟩, ⟨%d1, H1⟩, ⟨%d2, H2⟩, ⟨%d3, H3⟩⟩
      ihave HΦ' := (Phi2_some V c t.castSucc) $$ HΦ
      icases HΦ' with ⟨⟨HS0, Hrest⟩, Hg⟩
      iapply ((runA2 V c t h0 h1).2.2 Set.univ _)
      iframe H0 H1 H2 HS0
      iintro ⟨H0, H1, H2, ⟨%es0, HS0⟩⟩
      iframe Hrest Hg Ho H0 H1 H2
      isplitl [HS0]
      · ihave H' := (Ring.owns_of_writes_tiledL VS2_0 S1024x1.size) $$ HS0; iapply H'; ipureintro; sl_kernel_rfl
      iexists _; iexact H3
    · rw [dif_neg h0, dif_neg h1, Phi2_pre V c t (by omega)]
      iintro ⟨⟨⟨HS0, Hrest⟩, Hg⟩, Ho, ⟨%d0, H0⟩, ⟨%d1, H1⟩, ⟨%d2, H2⟩, ⟨%d3, H3⟩⟩
      iapply ((runB2 V c t h0 h1 _).2.2 Set.univ _)
      iframe H0 H1 H2 HS0
      iintro ⟨H0, H1, H2, ⟨%es0, HS0⟩⟩
      iframe Hrest Hg Ho H0 H1 H2
      isplitl [HS0]
      · ihave H' := (Ring.owns_of_writes_tiledL VS2_0 S1024x1.size) $$ HS0; iapply H'; ipureintro; sl_kernel_rfl
      iexists _; iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = Pipeline.ΦA spec2 c from rfl]
  try exact Idealize.SL.BI.Entails.refl _

-- The resting invariant asks nothing of the accumulator's contents, so the invariant at any position gives it.
theorem hout2 (c : Dev nD) : (dat2 V c).Φ (Fin.last cfg2.N) ⊢ Pipeline.ΦA spec2 c := by
  rw [PhiA2_eq]; exact Phi2_some V c _

end Cert.Kernel.Hand

end
-- ==== Proof.KB.Main.lean ====
import proofs.«408336_j75806172774555_3_alg».proof.Proof.Gen.Kernel.Regions
import proofs.«408336_j75806172774555_3_alg».proof.Proof.KB.Region0
import proofs.«408336_j75806172774555_3_alg».proof.Proof.KB.Region1
import proofs.«408336_j75806172774555_3_alg».proof.Proof.KB.Region2
import Idealize.ShloMosaic.Lib.Pipeline.RegionsLoop

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after after_of_writes_sub held)
open Cert.Kernel Cert.Kernel.Gen

variable {F : FTy → Type} [FloatOps F]

local notation "𝕄" => MT nD τ sig Unit (Elt F) ℕ (UR sig nD τ) ℕ

-- At a region's exit its arrays hold the proof data's final contents and every other buffer what it held at entry.
def exitW {cfg : Cfg sig Λ₀} (dat : (c : Dev nD) → Dat τ (Elt F) Unit ℕ (UR sig nD τ) ℕ cfg c)
    (W : Dev nD → Valuation τ sig (Elt F)) (c : Dev nD) : Valuation τ sig (Elt F) :=
  Pipeline.withArrays cfg.spec c (W c) fun w => (dat c).arrAt w cfg.N

section
variable {cfg : Cfg sig Λ₀} (dat : (c : Dev nD) → Dat τ (Elt F) Unit ℕ (UR sig nD τ) ℕ cfg c)
  (W : Dev nD → Valuation τ sig (Elt F)) (c : Dev nD)
theorem exitW_arr (hinj : Function.Injective (Pipeline.arrRef cfg.spec)) (w : Fin cfg.W) :
    exitW dat W c (Proc.devRef .tc (Pipeline.arrRef cfg.spec w)) = (dat c).arrAt w cfg.N :=
  Pipeline.withArrays_arr cfg.spec hinj c _ _ w
theorem exitW_of_ne (b : Ref sig .tc) (hb : ∀ w, Pipeline.arrRef cfg.spec w ≠ b) :
    exitW dat W c (Proc.devRef .tc b) = W c (Proc.devRef .tc b) :=
  Pipeline.withArrays_of_ne cfg.spec c _ _ b hb
end

-- A host stretch takes every core's contents to what its operations leave.
abbrev aft (ops : List (HloOp τ sig (Elt F))) (W : Dev nD → Valuation τ sig (Elt F)) : Dev nD → Valuation τ sig (Elt F) :=
  fun c => after ops (W c)

variable (m : (ℓ : Loc nD τ sig) → Buf (Elt F) ℓ) (ρ : Dev nD → PrngReg)

-- The buffer contents at the nineteen segment boundaries, and each region's entry contents read at its references.
abbrev W0 : Dev nD → Valuation τ sig (Elt F) := fun c b => (s₀ m ρ).mem ((c : Dev nD), b)
abbrev VE0 : (c : Dev nD) → (b : Ref sig .tc) → Buf (Elt F) ((c : Thread nD τ).loc b) := fun c b => W0 m ρ c b
abbrev W1 := exitW (dat0 (VE0 m ρ)) (W0 m ρ)
abbrev W2 := aft hostOps1 (W1 m ρ)
abbrev VE1 : (c : Dev nD) → (b : Ref sig .tc) → Buf (Elt F) ((c : Thread nD τ).loc b) := fun c b => W2 m ρ c b
abbrev W3 := exitW (dat1 (VE1 m ρ)) (W2 m ρ)
abbrev W4 := aft hostOps2 (W3 m ρ)
abbrev W5 := aft hostOps2_1 (W4 m ρ)
abbrev W6 := aft hostOps2_2 (W5 m ρ)
abbrev W7 := aft hostOps2_3 (W6 m ρ)
abbrev W8 := aft hostOps2_4 (W7 m ρ)
abbrev W9 := aft hostOps2_5 (W8 m ρ)
abbrev W10 := aft hostOps2_6 (W9 m ρ)
abbrev VE2 : (c : Dev nD) → (b : Ref sig .tc) → Buf (Elt F) ((c : Thread nD τ).loc b) := fun c b => W10 m ρ c b
abbrev W11 := exitW (dat2 (VE2 m ρ)) (W10 m ρ)
abbrev W12 := aft hostOps3 (W11 m ρ)
abbrev W13 := aft hostOps3_1 (W12 m ρ)
abbrev W14 := aft hostOps3_2 (W13 m ρ)
abbrev W15 := aft hostOps3_3 (W14 m ρ)
abbrev W16 := aft hostOps3_4 (W15 m ρ)
abbrev W17 := aft hostOps3_5 (W16 m ρ)
abbrev W18 := aft hostOps3_6 (W17 m ρ)

section
variable (c : Dev nD) (r : Ref sig .tc)
-- A buffer that no stretch between two boundaries writes, and that is no array of the region between them, is unchanged.
abbrev Kept3 : Prop := (∀ w, Pipeline.arrRef spec1 w ≠ r) ∧ r ∉ hostOps1_W
abbrev Kept11 : Prop := (∀ w, Pipeline.arrRef spec2 w ≠ r) ∧ r ∉ hostOps2_6_W ∧ r ∉ hostOps2_5_W ∧ r ∉ hostOps2_4_W ∧ r ∉ hostOps2_3_W
  ∧ r ∉ hostOps2_2_W ∧ r ∉ hostOps2_1_W ∧ r ∉ hostOps2_W
abbrev Kept18 : Prop := r ∉ hostOps3_6_W ∧ r ∉ hostOps3_5_W ∧ r ∉ hostOps3_4_W ∧ r ∉ hostOps3_3_W ∧ r ∉ hostOps3_2_W ∧ r ∉ hostOps3_1_W
  ∧ r ∉ hostOps3_W
theorem keep3 (h : Kept3 r) : W3 m ρ c (Proc.devRef .tc r) = W1 m ρ c (Proc.devRef .tc r) :=
  (exitW_of_ne _ _ c r h.1).trans (after_of_writes_sub _ _ hostOps1_writes h.2)
theorem keep11 (h : Kept11 r) : W11 m ρ c (Proc.devRef .tc r) = W3 m ρ c (Proc.devRef .tc r) := by
  obtain ⟨h2, b6, b5, b4, b3, b2, b1, b0⟩ := h
  exact (exitW_of_ne _ _ c r h2).trans <| (after_of_writes_sub _ _ hostOps2_6_writes b6).trans <|
    (after_of_writes_sub _ _ hostOps2_5_writes b5).trans <| (after_of_writes_sub _ _ hostOps2_4_writes b4).trans <|
    (after_of_writes_sub _ _ hostOps2_3_writes b3).trans <| (after_of_writes_sub _ _ hostOps2_2_writes b2).trans <|
    (after_of_writes_sub _ _ hostOps2_1_writes b1).trans (after_of_writes_sub _ _ hostOps2_writes b0)
theorem keep18 (h : Kept18 r) : W18 m ρ c (Proc.devRef .tc r) = W11 m ρ c (Proc.devRef .tc r) := by
  obtain ⟨a6, a5, a4, a3, a2, a1, a0⟩ := h
  exact (after_of_writes_sub _ _ hostOps3_6_writes a6).trans <| (after_of_writes_sub _ _ hostOps3_5_writes a5).trans <|
    (after_of_writes_sub _ _ hostOps3_4_writes a4).trans <| (after_of_writes_sub _ _ hostOps3_3_writes a3).trans <|
    (after_of_writes_sub _ _ hostOps3_2_writes a2).trans <| (after_of_writes_sub _ _ hostOps3_1_writes a1).trans
    (after_of_writes_sub _ _ hostOps3_writes a0)
theorem keep (h : Kept18 r ∧ Kept11 r ∧ Kept3 r) : W18 m ρ c (Proc.devRef .tc r) = W1 m ρ c (Proc.devRef .tc r) :=
  (keep18 m ρ c r h.1).trans ((keep11 m ρ c r h.2.1).trans (keep3 m ρ c r h.2.2))
end

-- Region 0 leaves its input array, the first argument, as entered.
theorem W1_arg0 (c : Dev nD) : W1 m ρ c (Proc.devRef .tc main_arg0) = m ((c : Thread nD τ).loc main_arg0) :=
  (exitW_arr _ _ c launch0.win.arr_inj 0).trans ((dat0 (VE0 m ρ) c).arrAt_in 0 rfl _)

theorem W18_main_arg0 (c : Dev nD) : W18 m ρ c (Proc.devRef .tc main_arg0) = m ((c : Thread nD τ).loc main_arg0) :=
  (keep m ρ c _ (by decide)).trans (W1_arg0 m ρ c)
theorem W18_main_arg1 (c : Dev nD) : W18 m ρ c (Proc.devRef .tc main_arg1) = m ((c : Thread nD τ).loc main_arg1) :=
  (keep m ρ c _ (by decide)).trans (exitW_of_ne _ _ c _ (by decide))
theorem W18_main_arg2 (c : Dev nD) : W18 m ρ c (Proc.devRef .tc main_arg2) = m ((c : Thread nD τ).loc main_arg2) :=
  (keep m ρ c _ (by decide)).trans (exitW_of_ne _ _ c _ (by decide))
theorem W18_main_arg3 (c : Dev nD) : W18 m ρ c (Proc.devRef .tc main_arg3) = m ((c : Thread nD τ).loc main_arg3) :=
  (keep m ρ c _ (by decide)).trans (exitW_of_ne _ _ c _ (by decide))

-- Every pipeline's proof data, each at its region's entry contents.
def pdats : (p : Fin 3) → (c : Dev nD) → Dat τ (Elt F) Unit ℕ (UR sig nD τ) ℕ (Pipeline.pin (pcfgs (F := F)) adm p) c
  | ⟨0, _⟩ => fun c => dat0 (VE0 m ρ) c
  | ⟨1, _⟩ => fun c => dat1 (VE1 m ρ) c
  | ⟨2, _⟩ => fun c => dat2 (VE2 m ρ) c
abbrev 𝒱₀ : Variants := Variants.none
abbrev L : GSem nD τ sig → Finset Unit := fun _ => ∅
abbrev lv : GSem nD τ sig → Unit → ℕ := fun _ _ => 0
-- What rides beside the buffers through every segment: the generator register at some state, and nothing owed.
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- A region of the class invariant, owing nothing at full shares: its arrays leave the unscoped buffers at entry and rejoin them at exit.
def regA (p : Fin 3) (lw : Pipeline.LaunchFacts (nD := nD) (τ := τ) cfgs p) (W : Dev nD → Valuation τ sig (Elt F))
    (hA : ∀ c w, (pdats m ρ p c).A w = W c (Proc.devRef .tc (Pipeline.arrRef (cfgs p).spec w)))
    (hq : ∀ c w, (pdats m ρ p c).q w = fullShare) (howed : ∀ c t, (pdats m ρ p c).owed t = 0)
    (hrec : ∀ c, (pdats m ρ p c).recorded 0 = Set.univ)
    (hbody : ∀ c, BodyObligation (pdats m ρ p c) (defs₀ (F := F)) 𝒱₀ () Set.univ)
    (hin : ∀ c, Pipeline.ΦA (cfgs p).spec c ⊢ (pdats m ρ p c).Φ 0)
    (hout : ∀ c, (pdats m ρ p c).Φ (Fin.last (cfgs p).N) ⊢ Pipeline.ΦA (cfgs p).spec c) :
    Pipeline.RegionSeg (pcfgs (F := F)) adm (pdats m ρ) () defs₀ 𝒱₀ L lv p where
  win := lw.win.to₀
  block_pos := lw.block_pos
  stage_whole := lw.stage_whole
  K := PEmpty
  osem k := k.elim
  ho := Pipeline.OwnSemFacts.none _
  hbody c := (hbody c).loose
  hwaits := Pipeline.hwaits_of_owed_zero _ _ _ _ L lv p howed
  pre c := iprop(held (c : Thread nD τ) (Pipeline.ucRefs τ sig) (W c) ∗ R c)
  post c := iprop(held (c : Thread nD τ) (Pipeline.ucRefs τ sig) (exitW (pdats m ρ p) W c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    rw [Pipeline.ownSems0_none]
    unfold Pipeline.Dat.owesAt Pipeline.owesWithin
    rw [howed c 0]
    have hsplit := Pipeline.arrays_of_unscopedBufs (p := p) (pcfgs (F := F)) adm (pdats m ρ) lw.win lw.arr_whole c
      ((pdats m ρ p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl (hrec c ▸ Set.mem_univ _)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    unfold Pipeline.Dat.owesAt Pipeline.owesWithin
    rw [howed c (Fin.last _)]
    have hjoin := Pipeline.unscopedBufs_of_arrays (p := p) (pcfgs (F := F)) adm (Ix := Unit) (Name := ℕ) (U := UR sig nD τ) (Lvl := ℕ)
      lw.win lw.arr_whole c (pdats m ρ) ((pdats m ρ p c).share_full (hq c))
      (fun b => W c b) (fun b => exitW (pdats m ρ p) W c b) ((pdats m ρ p c).arrAt · (cfgs p).N)
      (fun w => (exitW_arr _ W c lw.win.arr_inj w).symm)
      fun b hb => exitW_of_ne _ W c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

abbrev reg0 := regA m ρ 0 launch0 (W0 m ρ) (fun _ _ => rfl) (fun _ _ => rfl) (fun _ _ => rfl) (fun _ => rfl)
  (fun c => body_obligation0 (VE0 m ρ) c) (fun _ => .rfl) (fun _ => .rfl)
abbrev reg1 := regA m ρ 1 launch1 (W2 m ρ) (fun _ _ => rfl) (fun _ _ => rfl) (fun _ _ => rfl) (fun _ => rfl)
  (fun c => body_obligation1 (VE1 m ρ) c) (hin1 (VE1 m ρ)) (hout1 (VE1 m ρ))
abbrev reg2 := regA m ρ 2 launch2 (W10 m ρ) (fun _ _ => rfl) (fun _ _ => rfl) (fun _ _ => rfl) (fun _ => rfl)
  (fun c => body_obligation2 (VE2 m ρ) c) (hin2 (VE2 m ρ)) (hout2 (VE2 m ρ))

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .host (hseg hostOps2_1 hostOps2_1_sub hostOps2_1_fresh (W4 m ρ)),
    .host (hseg hostOps2_2 hostOps2_2_sub hostOps2_2_fresh (W5 m ρ)),
    .host (hseg hostOps2_3 hostOps2_3_sub hostOps2_3_fresh (W6 m ρ)),
    .host (hseg hostOps2_4 hostOps2_4_sub hostOps2_4_fresh (W7 m ρ)),
    .host (hseg hostOps2_5 hostOps2_5_sub hostOps2_5_fresh (W8 m ρ)),
    .host (hseg hostOps2_6 hostOps2_6_sub hostOps2_6_fresh (W9 m ρ)),
    .region (reg2 m ρ),
    .host (hseg hostOps3 hostOps3_sub hostOps3_fresh (W11 m ρ)),
    .host (hseg hostOps3_1 hostOps3_1_sub hostOps3_1_fresh (W12 m ρ)),
    .host (hseg hostOps3_2 hostOps3_2_sub hostOps3_2_fresh (W13 m ρ)),
    .host (hseg hostOps3_3 hostOps3_3_sub hostOps3_3_fresh (W14 m ρ)),
    .host (hseg hostOps3_4 hostOps3_4_sub hostOps3_4_fresh (W15 m ρ)),
    .host (hseg hostOps3_5 hostOps3_5_sub hostOps3_5_fresh (W16 m ρ)),
    .host (hseg hostOps3_6 hostOps3_6_sub hostOps3_6_fresh (W17 m ρ)) ]
theorem main_run (c : Dev nD) : main (F := F) c = Pipeline.Seg.run (segs m ρ) := (main_chain c).trans (by chain_rfl)

-- Every weakly fair execution of @main terminates without fault, every unscoped buffer ending at the last boundary's contents.
theorem run_all : θ_run defs (onTc (τ := τ) (main (F := F))) ⟨m, fun _ => 0, ρ⟩ (fun r => ∀ c : Dev nD,
      ∀ b ∈ Pipeline.ucRefs τ sig, r.2.mem (((c : Thread nD τ)).1, b) = W18 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(held (c : Thread nD τ) (Pipeline.ucRefs τ sig) (W0 m ρ c) ∗ R c)) (Tₙ := fun c => iprop(held (c : Thread nD τ) (Pipeline.ucRefs τ sig) (W18 m ρ c) ∗ ∃ r, prngReg c r))
    (hch := by repeat' first | exact fun _ => sep_assoc' | exact fun _ => .rfl | constructor)
    (hinit := by
      refine Pipeline.initEach L lv fun c => ?_
      rw [show unscopedBufs c (fun b => m ((c : Thread nD τ).loc b)) = held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h => h)

/-- info: 'Cert.Kernel.Hand.run_all' depends on axioms: [propext, Classical.choice, Quot.sound] -/
#guard_msgs in #print axioms run_all

end Cert.Kernel.Hand

end
-- ==== Proof.KI.Region0.lean ====
import proofs.«408336_j75806172774555_3_alg».proof.Proof.Gen.KernelIdeal.Launch
import proofs.«408336_j75806172774555_3_alg».proof.Proof.Gen.KernelIdeal.Skeleton
import proofs.«408336_j75806172774555_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window w's block at point t, read off its array at the region's entry contents V.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_in : Rect S512x64x128 := Rect.unit (s := S512x64x128) ![0, 0, 0] S512x64x128.size inb_S512x64x128_S512x64x128_0_0_0
abbrev r0_out : Rect S512x128 := Rect.unit (s := S512x128) ![0, 0] S512x128.size inb_S512x128_S512x128_0_0
theorem hz0_in : (![0, 0, 0] : Fin S512x64x128.rank → Nat) = fun _ => 0 := funext fun a => by fin_cases a <;> rfl
theorem hz0_out : (![0, 0] : Fin S512x128.rank → Nat) = fun _ => 0 := funext fun a => by fin_cases a <;> rfl

-- What the body leaves for the output window: its one store, of the payload of what its one load read.
def out0_1 (x0 : Vec F S512x64x128 .f32) : Vec F S512x128 .f32 :=
  View.canon [⟨r0_out, k0_pay1 (View.ld x0 r0_in)⟩]

-- The store is of the whole buffer and the load read the whole block.
theorem out0_1_eq (x0 : Vec F S512x64x128 .f32) : out0_1 x0 = k0_pay1 x0 := by
  unfold out0_1
  rw [View.canon_unit_zero hz0_out]
  simp only [View.ld_unit_zero (S := S512x64x128) hz0_in]

theorem sound_kernel0 (c : Dev nD) (E : Set ℕ) (i : grid0.Coords) (arg1 : Memref sig .tc .vmem S512x64x128 .f32) (harg1 : arg1.IsWhole) (arg2 : Memref sig .tc .vmem S512x128 .f32) (harg2 : arg2.IsWhole)
    (x0 : Vec F S512x64x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__pool_norm_kernel i arg1 harg1 arg2 harg2) K := by
  simp only [cc0__pool_norm_kernel_eq_skeleton]; unfold cc0__pool_norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ fun y =>
    ⟨_, List.mem_singleton_self _, View.mem_set_unit_zero hz0_out inb_S512x128_S512x128_0_0 y⟩

-- Nothing is carried between grid points: the invariant is the class's, nothing is owed, every share is full.
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl

-- The input's memref holds its block, so the body's triple applies; the invariant and the debts pass through unread.
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d)))
    ⊢ wp frame (wpE (defs₀ (F := F)) Variants.none c none) Set.univ (bodyAt0 t) fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)) := by
  unfold bodyAt0
  simp only [before0_0]
  rw [show (dat0 V c).Φ t.succ = (dat0 V c).Φ t.castSucc from rfl,
    show (dat0 V c).owesAt () t.succ = (dat0 V c).owesAt () t.castSucc from rfl, after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1Runs.lean ====
import proofs.«408336_j75806172774555_3_alg».proof.Proof.Gen.KernelIdeal.Launch
import proofs.«408336_j75806172774555_3_alg».proof.Proof.Gen.KernelIdeal.Skeleton
import proofs.«408336_j75806172774555_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off its array as the region finds it.
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- The body's two branch conditions (the inner grid coordinate is 0; it is 3), and where on the grid they hold.
abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1
theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 = 3 :=
  (by decide +kernel : ∀ t : Fin grid1.N, cond1_1 (grid1.coords t) ↔ t.val % 4 = 3)

theorem liveIn1 : ∀ t : Fin cfg1.N, cfg1.idle 0 (grid1.coords t) = false ∧ cfg1.idle 1 (grid1.coords t) = false := by decide +kernel
theorem idleOut1 : ∀ t : Fin cfg1.N, ¬t.val % 4 = 3 → cfg1.idle 2 (grid1.coords t) = true ∧ (cfg1.win 2).flush t = false
    ∧ cfg1.idle 3 (grid1.coords t) = true ∧ (cfg1.win 3).flush t = false := by decide +kernel
theorem liveOut1 : ∀ t : Fin cfg1.N, t.val % 4 = 3 → cfg1.idle 2 (grid1.coords t) = false ∧ cfg1.idle 3 (grid1.coords t) = false := by decide +kernel

abbrev VO1_2 : View sig .tc .vmem S2048x128 .f32 := (Memref.whole cc1_stg2_0 : Memref sig .tc .vmem S2048x128 .f32).view
abbrev VO1_3 : View sig .tc .vmem S2048x1 .f32 := (Memref.whole cc1_stg3_0 : Memref sig .tc .vmem S2048x1 .f32).view
abbrev ms1_0 (t : Fin cfg1.N) : Memref sig .tc .vmem S1x1024 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .f32 := win1_3.stage (cfg1.slots t 3)
abbrev hs1_3 (t : Fin cfg1.N) : (ms1_3 t).IsWhole := hstage1_3 ((cfg1.slots t 3).cast nbuf1_3)
abbrev scM1_0 : Memref sig .tc .vmem S2048x128 .f32 := Memref.whole cc1_scratch0
abbrev scM1_1 : Memref sig .tc .vmem S2048x1 .f32 := Memref.whole cc1_scratch1
abbrev VS1_0 : View sig .tc .vmem S2048x128 .f32 := scM1_0.view
abbrev VS1_1 : View sig .tc .vmem S2048x1 .f32 := scM1_1.view

-- The core's other scoped buffers, each at some contents.
def rest1 (c : Dev nD) : sProp 𝕄 := Pipeline.scopedRestBut spec1 c [cc1_scratch0, cc1_scratch1]

-- The region invariant, the two accumulators described by `P0` and `P1`.
def PhiR1 (c : Dev nD) (P0 P1 : sProp 𝕄) : sProp 𝕄 :=
  iprop(((P0 ∗ P1) ∗ rest1 (F := F) c) ∗ (∃ r, prngReg c r))

-- On entry the invariant holds with each accumulator at some contents.
theorem PhiA1_eq (c : Dev nD) :
    (Pipeline.ΦA spec1 c : sProp 𝕄)
      = PhiR1 (F := F) c iprop(∃ d, owns (c : Thread nD τ) scM1_0 fullShare d) iprop(∃ d, owns (c : Thread nD τ) scM1_1 fullShare d) := by
  unfold Pipeline.ΦA PhiR1 rest1
  rw [Pipeline.scopedRest_split_of_list spec1 c [cc1_scratch0, cc1_scratch1] (by decide) (by decide)]
  simp only [scM1_0, scM1_1, owns_whole]; try rfl

end Cert.KernelIdeal.Hand

end
-- ==== Proof.KI.Region1RunA.lean ====
import proofs.«408336_j75806172774555_3_alg».proof.Proof.KI.Region1Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun1_A (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x1 .f32) (harg7 : arg7.IsWhole) (hc0 : cond1_0 i) (hc1 : ¬cond1_1 i)
    (x0 : Vec F S1x1024 .i32) (x1 : Vec F S1024x128 .f32) :
    Σ' (LS0 : List (View.Piece (Elt F) S2048x128 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__ema_sum_kernel i arg2 harg2 arg3 harg3 arg4 harg4 arg5 harg5 arg6 harg6 arg7 harg7) K } := by
  refine ⟨?_, ?_, fun E K => ?run⟩
  case run =>
    simp only [cc1__ema_sum_kernel_eq_skeleton]; unfold cc1__ema_sum_kernel_skel
    simp only [k1_part1_eq_skeleton]
    unfold owns
    iintro ⟨⟨%f0, %hf0, H0⟩, ⟨%f1, %hf1, H1⟩, ⟨%ds0, %fs0, -, HS0⟩, ⟨%ds1, %fs1, -, HS1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.KernelIdeal.Hand

end
-- ==== Proof.KI.Region1RunB.lean ====
import proofs.«408336_j75806172774555_3_alg».proof.Proof.KI.Region1RunA

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun1_B (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x1 .f32) (harg7 : arg7.IsWhole) (hc0 : ¬cond1_0 i) (hc1 : ¬cond1_1 i)
    (x0 : Vec F S1x1024 .i32) (x1 : Vec F S1024x128 .f32) (xs0 : Vec F S2048x128 .f32) (xs1 : Vec F S2048x1 .f32) :
    Σ' (LS0 : List (View.Piece (Elt F) S2048x128 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__ema_sum_kernel i arg2 harg2 arg3 harg3 arg4 harg4 arg5 harg5 arg6 harg6 arg7 harg7) K } := by
  refine ⟨?_, ?_, fun E K => ?run⟩
  case run =>
    simp only [cc1__ema_sum_kernel_eq_skeleton]; unfold cc1__ema_sum_kernel_skel
    simp only [k1_part1_eq_skeleton]
    unfold owns
    iintro ⟨⟨%f0, %hf0, H0⟩, ⟨%f1, %hf1, H1⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.KernelIdeal.Hand

end
-- ==== Proof.KI.Region1RunC.lean ====
import proofs.«408336_j75806172774555_3_alg».proof.Proof.KI.Region1RunB

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun1_C (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x1 .f32) (harg7 : arg7.IsWhole) (hc0 : ¬cond1_0 i) (hc1 : cond1_1 i)
    (x0 : Vec F S1x1024 .i32) (x1 : Vec F S1024x128 .f32) (xs0 : Vec F S2048x128 .f32) (xs1 : Vec F S2048x1 .f32) :
    Σ' (L2 : List (View.Piece (Elt F) S2048x128 .f32)) (L3 : List (View.Piece (Elt F) S2048x1 .f32)) (LS0 : List (View.Piece (Elt F) S2048x128 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__ema_sum_kernel i arg2 harg2 arg3 harg3 arg4 harg4 arg5 harg5 arg6 harg6 arg7 harg7) K } := by
  refine ⟨?_, ?_, ?_, ?_, fun E K => ?run⟩
  case run =>
    simp only [cc1__ema_sum_kernel_eq_skeleton]; unfold cc1__ema_sum_kernel_skel
    simp only [k1_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.KernelIdeal.Hand

end
-- ==== Proof.KI.Region1.lean ====
import proofs.«408336_j75806172774555_3_alg».proof.Proof.KI.Region1RunC

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (c : Dev nD)

-- What pieces written over anything leave in a buffer, read through `v`.
abbrev rd1 {S : Shape} {e : EltTy} (v : View sig .tc .vmem S e) (L : List (View.Piece (Elt F) S e)) : Vec F S e :=
  v.read (Elt F) (v.writes (Elt F) v.junk L)

section
variable (t : Fin cfg1.N)

-- The three cases' runs on the memrefs and blocks of point `t`; `p` is what the accumulators hold when the point is reached.
def run1A (h0 : t.val % 4 = 0) (h1 : ¬t.val % 4 = 3) :=
  kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _)
    ((hcond1_0 t).mpr h0) (mt (hcond1_1 t).mp h1) (iblk1 V c 0 t) (iblk1 V c 1 t)
def run1B (h0 : ¬t.val % 4 = 0) (h1 : ¬t.val % 4 = 3) (p : Vec F S2048x128 .f32 × Vec F S2048x1 .f32) :=
  kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _)
    (mt (hcond1_0 t).mp h0) (mt (hcond1_1 t).mp h1) (iblk1 V c 0 t) (iblk1 V c 1 t) p.1 p.2
def run1C (h0 : ¬t.val % 4 = 0) (h1 : t.val % 4 = 3) (p : Vec F S2048x128 .f32 × Vec F S2048x1 .f32) :=
  kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _)
    (mt (hcond1_0 t).mp h0) ((hcond1_1 t).mpr h1) (iblk1 V c 0 t) (iblk1 V c 1 t) p.1 p.2

-- What the body at point `t` leaves in the two accumulators: a first point of a row resets them, a later one updates `p`.
def step1 (p : Vec F S2048x128 .f32 × Vec F S2048x1 .f32) : Vec F S2048x128 .f32 × Vec F S2048x1 .f32 :=
  if h0 : t.val % 4 = 0 then (rd1 VS1_0 (run1A V c t h0 (by omega)).1, rd1 VS1_1 (run1A V c t h0 (by omega)).2.1)
  else if h1 : t.val % 4 = 3 then (rd1 VS1_0 (run1C V c t h0 h1 p).2.2.1, rd1 VS1_1 (run1C V c t h0 h1 p).2.2.2.1)
  else (rd1 VS1_0 (run1B V c t h0 h1 p).1, rd1 VS1_1 (run1B V c t h0 h1 p).2.1)

end

-- What the accumulators hold after the body at position `n`; position 0 resets, so its seed is never read.
def sAt1 : (n : ℕ) → n < cfg1.N → Vec F S2048x128 .f32 × Vec F S2048x1 .f32
  | 0, hn => step1 V c ⟨0, hn⟩ (k1_pay1, k1_pay2)
  | n + 1, hn => step1 V c ⟨n + 1, hn⟩ (sAt1 n (Nat.lt_of_succ_lt hn))

variable (t : Fin cfg1.N)

-- What the point before `t` left in the accumulators.
abbrev prev1 : Vec F S2048x128 .f32 × Vec F S2048x1 .f32 := sAt1 V c (t.val - 1) (Nat.lt_of_le_of_lt (Nat.sub_le _ _) t.isLt)

-- Every position is one step from what the point before left: position 0 starts a row, where the step forgets what it is given.
theorem sAt1_eq : sAt1 V c t.val t.isLt = step1 V c t (prev1 V c t) := by
  obtain ⟨_ | n, hn⟩ := t
  · have h : (⟨0, hn⟩ : Fin cfg1.N).val % 4 = 0 := Nat.zero_mod 4
    show step1 V c _ _ = step1 V c _ _
    unfold step1; rw [dif_pos h, dif_pos h]
  · rfl

theorem sAt1_A (h0 : t.val % 4 = 0) (h1 : ¬t.val % 4 = 3) :
    sAt1 V c t.val t.isLt = (rd1 VS1_0 (run1A V c t h0 h1).1, rd1 VS1_1 (run1A V c t h0 h1).2.1) := by
  rw [sAt1_eq V c t, step1, dif_pos h0]
theorem sAt1_B (h0 : ¬t.val % 4 = 0) (h1 : ¬t.val % 4 = 3) :
    sAt1 V c t.val t.isLt = (rd1 VS1_0 (run1B V c t h0 h1 (prev1 V c t)).1, rd1 VS1_1 (run1B V c t h0 h1 (prev1 V c t)).2.1) := by
  rw [sAt1_eq V c t, step1, dif_neg h0, dif_neg h1]
theorem sAt1_C (h0 : ¬t.val % 4 = 0) (h1 : t.val % 4 = 3) :
    sAt1 V c t.val t.isLt = (rd1 VS1_0 (run1C V c t h0 h1 (prev1 V c t)).2.2.1, rd1 VS1_1 (run1C V c t h0 h1 (prev1 V c t)).2.2.2.1) := by
  rw [sAt1_eq V c t, step1, dif_neg h0, dif_pos h1]

-- What the two output blocks hold after the body at point `t`: at the last point of a row the copies of the accumulators; elsewhere nothing is stored and nothing is asked.
def outAt1 : Vec F S2048x128 .f32 × Vec F S2048x1 .f32 :=
  if h1 : t.val % 4 = 3 then (rd1 VO1_2 (run1C V c t (by omega) h1 (prev1 V c t)).1, rd1 VO1_3 (run1C V c t (by omega) h1 (prev1 V c t)).2.1)
  else (rd1 VO1_2 [], rd1 VO1_3 [])

-- The invariant before position `n`: first the entry condition, afterwards each accumulator at what the point before left.
def PhiS1 : (n : ℕ) → n ≤ cfg1.N → sProp 𝕄
  | 0, _ => Pipeline.ΦA spec1 c
  | n + 1, hn => PhiR1 (F := F) c (owns (c : Thread nD τ) scM1_0 fullShare (sAt1 V c n hn).1) (owns (c : Thread nD τ) scM1_1 fullShare (sAt1 V c n hn).2)

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outAt1 V c t).1
    | ⟨3, _⟩ => (outAt1 V c t).2
  Φ t := PhiS1 V c t.val (Nat.le_of_lt_succ t.isLt)
  q _ := fullShare
  owed _ := 0

theorem A_eq1 (w : Fin cfg1.W) : (dat1 V c).A w = V c (Pipeline.arrRef spec1 w) := by
  dsimp only [dat1]

theorem after1_0 : (dat1 V c).after 0 t = iblk1 V c 0 t := by dsimp only [dat1]
theorem after1_1 : (dat1 V c).after 1 t = iblk1 V c 1 t := by dsimp only [dat1]
theorem after1_2 : (dat1 V c).after 2 t = (outAt1 V c t).1 := by dsimp only [dat1]
theorem after1_3 : (dat1 V c).after 3 t = (outAt1 V c t).2 := by dsimp only [dat1]

-- The body finds each input block at every point and leaves it as found.
theorem before1_0 (d) : (dat1 V c).before 0 t d = iblk1 V c 0 t :=
  ((dat1 V c).before_in_eq_fetched 0 rfl (fun _ => rfl) (fun _ _ _ => rfl) (fun _ => rfl) t d).trans rfl
theorem before1_1 (d) : (dat1 V c).before 1 t d = iblk1 V c 1 t :=
  ((dat1 V c).before_in_eq_fetched 1 rfl (fun _ => rfl) (fun _ _ _ => rfl) (fun _ => rfl) t d).trans rfl

-- After any point but the first each accumulator is at what that point left.
theorem Phi1_pos (s : Fin (cfg1.N + 1)) (hs : s.val ≠ 0) :
    (dat1 V c).Φ s = PhiR1 (F := F) c (owns (c : Thread nD τ) scM1_0 fullShare (sAt1 V c (s.val - 1) (by omega)).1) (owns (c : Thread nD τ) scM1_1 fullShare (sAt1 V c (s.val - 1) (by omega)).2) := by
  obtain ⟨_ | n, hn⟩ := s
  · exact absurd rfl hs
  · rfl

-- At every position each accumulator is at some contents, as on entry and on exit.
theorem Phi1_any (s : Fin (cfg1.N + 1)) : (dat1 V c).Φ s ⊢ PhiR1 (F := F) c iprop(∃ d, owns (c : Thread nD τ) scM1_0 fullShare d) iprop(∃ d, owns (c : Thread nD τ) scM1_1 fullShare d) := by
  by_cases hs : s.val = 0
  · obtain ⟨_ | n, hn⟩ := s
    · rw [← PhiA1_eq]; exact Idealize.SL.BI.Entails.refl _
    · exact absurd hs (Nat.succ_ne_zero n)
  rw [Phi1_pos V c s hs]; unfold PhiR1
  iintro ⟨⟨⟨HS0, HS1⟩, Hrest⟩, Hg⟩
  iframe Hrest Hg
  isplitl [HS0]; · iexists _; iexact HS0
  iexists _; iexact HS1

theorem hin1 : Pipeline.ΦA spec1 c ⊢ (dat1 V c).Φ 0 := Idealize.SL.BI.Entails.refl _

theorem hout1 : (dat1 V c).Φ (Fin.last cfg1.N) ⊢ Pipeline.ΦA spec1 c := by
  rw [PhiA1_eq]; exact Phi1_any V c _

-- What the body is called with at point `t`, the windows one by one, and what it returns.
def bodyPre1 : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))
def bodyPost1 : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

-- The body at any point: the accumulators go in as the point before left them (at a first point of a row, at anything) and come out at this point's contents; the output blocks come back untouched except at the last point of a row.
theorem sound_body1 : bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = PhiR1 (F := F) c (owns (c : Thread nD τ) scM1_0 fullShare (sAt1 V c t.val t.isLt).1) (owns (c : Thread nD τ) scM1_1 fullShare (sAt1 V c t.val t.isLt).2) from rfl,
    show (dat1 V c).leavesExact 0 t = owns (c : Thread nD τ) (ms1_0 t) fullShare ((dat1 V c).after 0 t) from by
      unfold Dat.leavesExact; rw [(liveIn1 t).1], after1_0,
    show (dat1 V c).leavesExact 1 t = owns (c : Thread nD τ) (ms1_1 t) fullShare ((dat1 V c).after 1 t) from by
      unfold Dat.leavesExact; rw [(liveIn1 t).2], after1_1]
  by_cases h1 : t.val % 4 = 3
  · have h0 : ¬t.val % 4 = 0 := by omega
    rw [show (dat1 V c).leavesExact 2 t = owns (c : Thread nD τ) (ms1_2 t) fullShare ((dat1 V c).after 2 t) from by
        unfold Dat.leavesExact; rw [(liveOut1 t h1).1], after1_2,
      show (dat1 V c).leavesExact 3 t = owns (c : Thread nD τ) (ms1_3 t) fullShare ((dat1 V c).after 3 t) from by
        unfold Dat.leavesExact; rw [(liveOut1 t h1).2], after1_3,
      show outAt1 V c t = _ from dif_pos h1, sAt1_C V c t h0 h1, Phi1_pos V c t.castSucc (fun e => h0 (by rw [show t.val = 0 from e]))]
    dsimp only [Fin.coe_castSucc]
    unfold PhiR1
    iintro ⟨⟨⟨⟨HS0, HS1⟩, Hrest⟩, Hg⟩, Ho, ⟨%d0, H0⟩, ⟨%d1, H1⟩, ⟨%d2, H2⟩, ⟨%d3, H3⟩⟩
    iapply ((run1C V c t h0 h1 (prev1 V c t)).2.2.2.2 Set.univ _)
    iframe H0 H1 HS0 HS1
    isplitl [H2]; · iexists _; iexact H2
    isplitl [H3]; · iexists _; iexact H3
    iintro ⟨H0, H1, ⟨%e2, H2⟩, ⟨%e3, H3⟩, ⟨%es0, HS0⟩, ⟨%es1, HS1⟩⟩
    iframe Hrest Hg Ho H0 H1
    isplitl [HS0 HS1]
    · isplitl [HS0]
      · ihave H' := (Ring.owns_of_writes_tiledL VS1_0 S2048x128.size) $$ HS0; iapply H'; ipureintro; sl_kernel_rfl
      ihave H' := (Ring.owns_of_writes_tiledL VS1_1 S2048x1.size) $$ HS1; iapply H'; ipureintro; sl_kernel_rfl
    isplitl [H2]
    · ihave H' := (Ring.owns_of_writes_tiledL VO1_2 S2048x128.size) $$ H2; iapply H'; ipureintro; sl_kernel_rfl
    ihave H' := (Ring.owns_of_writes_tiledL VO1_3 S2048x1.size) $$ H3; iapply H'; ipureintro; sl_kernel_rfl
  obtain ⟨i2, f2, i3, f3⟩ := idleOut1 t h1
  rw [Dat.leavesExact_idle (dat1 V c) 2 t i2 f2, Dat.leavesExact_idle (dat1 V c) 3 t i3 f3]
  by_cases h0 : t.val % 4 = 0
  · rw [sAt1_A V c t h0 h1]
    dsimp only
    iintro ⟨HΦ, Ho, ⟨%d0, H0⟩, ⟨%d1, H1⟩, ⟨%d2, H2⟩, ⟨%d3, H3⟩⟩
    ihave HA := (Phi1_any V c t.castSucc) $$ HΦ
    unfold PhiR1
    icases HA with ⟨⟨⟨HS0, HS1⟩, Hrest⟩, Hg⟩
    iapply ((run1A V c t h0 h1).2.2 Set.univ _)
    iframe H0 H1 HS0 HS1
    iintro ⟨H0, H1, ⟨%es0, HS0⟩, ⟨%es1, HS1⟩⟩
    iframe Hrest Hg Ho H0 H1
    isplitl [HS0 HS1]
    · isplitl [HS0]
      · ihave H' := (Ring.owns_of_writes_tiledL VS1_0 S2048x128.size) $$ HS0; iapply H'; ipureintro; sl_kernel_rfl
      ihave H' := (Ring.owns_of_writes_tiledL VS1_1 S2048x1.size) $$ HS1; iapply H'; ipureintro; sl_kernel_rfl
    isplitl [H2]; · iexists _; iexact H2
    iexists _; iexact H3
  rw [sAt1_B V c t h0 h1, Phi1_pos V c t.castSucc (fun e => h0 (by rw [show t.val = 0 from e]))]
  dsimp only [Fin.coe_castSucc]
  unfold PhiR1
  iintro ⟨⟨⟨⟨HS0, HS1⟩, Hrest⟩, Hg⟩, Ho, ⟨%d0, H0⟩, ⟨%d1, H1⟩, ⟨%d2, H2⟩, ⟨%d3, H3⟩⟩
  iapply ((run1B V c t h0 h1 (prev1 V c t)).2.2 Set.univ _)
  iframe H0 H1 HS0 HS1
  iintro ⟨H0, H1, ⟨%es0, HS0⟩, ⟨%es1, HS1⟩⟩
  iframe Hrest Hg Ho H0 H1
  isplitl [HS0 HS1]
  · isplitl [HS0]
    · ihave H' := (Ring.owns_of_writes_tiledL VS1_0 S2048x128.size) $$ HS0; iapply H'; ipureintro; sl_kernel_rfl
    ihave H' := (Ring.owns_of_writes_tiledL VS1_1 S2048x1.size) $$ HS1; iapply H'; ipureintro; sl_kernel_rfl
  isplitl [H2]; · iexists _; iexact H2
  iexists _; iexact H3

theorem body_obligation1 : BodyObligation (dat1 (F := F) V c) (defs₀ (F := F)) Variants.none () Set.univ := fun t => by
  rw [bigSep_W1, bigSep_W1]
  exact sound_body1 V c t

end Cert.KernelIdeal.Hand

end
-- ==== Proof.KI.Region2Runs.lean ====
import proofs.«408336_j75806172774555_3_alg».proof.Proof.Gen.KernelIdeal.Launch
import proofs.«408336_j75806172774555_3_alg».proof.Proof.Gen.KernelIdeal.Skeleton
import proofs.«408336_j75806172774555_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

end Blocks

abbrev cond2_0 (i : grid2.Coords) : Prop := (Scalar.cmpi .ne (Scalar.extui (Scalar.cmpi .eq (BitVec.ofNat 32 (i 1).val) 0#32)) 0#32) = 1#1
abbrev cond2_1 (i : grid2.Coords) : Prop := k2_cond2 i = 1#1

-- The zero fill is taken at the first class tile of a row of the grid, the copy into the output block at the last.
theorem hcond2_0 : ∀ t : Fin cfg2.N, cond2_0 (grid2.coords t) ↔ t.val % 5 = 0 :=
  (by decide +kernel : ∀ t : Fin grid2.N, cond2_0 (grid2.coords t) ↔ t.val % 5 = 0)
theorem hcond2_1 : ∀ t : Fin cfg2.N, cond2_1 (grid2.coords t) ↔ t.val % 5 = 4 :=
  (by decide +kernel : ∀ t : Fin grid2.N, cond2_1 (grid2.coords t) ↔ t.val % 5 = 4)

theorem live2 : ∀ (t : Fin cfg2.N) (w : Fin cfg2.W), w.val < 3 ∨ t.val % 5 = 4 → cfg2.idle w (grid2.coords t) = false := by decide +kernel
theorem idle2 : ∀ t : Fin cfg2.N, ¬t.val % 5 = 4 → cfg2.idle 3 (grid2.coords t) = true ∧ (cfg2.win 3).flush t = false := by decide +kernel

abbrev VO2_3 : View sig .tc .vmem S1024x1 .f32 := (Memref.whole cc2_stg3_0 : Memref sig .tc .vmem S1024x1 .f32).view
abbrev ms2_0 (t : Fin cfg2.N) : Memref sig .tc .vmem S1024x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2048 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1 .f32 := win2_3.stage (cfg2.slots t 3)
abbrev hs2_3 (t : Fin cfg2.N) : (ms2_3 t).IsWhole := hstage2_3 ((cfg2.slots t 3).cast nbuf2_3)
abbrev scM2_0 : Memref sig .tc .vmem S1024x1 .f32 := Memref.whole cc2_scratch0
abbrev VS2_0 : View sig .tc .vmem S1024x1 .f32 := scM2_0.view

-- What the region never touches: the core's other scoped buffers, at some contents each.
def rest2 (c : Dev nD) : sProp 𝕄 := Pipeline.scopedRestBut spec2 c [cc2_scratch0]

-- The resting invariant is the accumulator at some contents, the other scoped buffers, and the generator register.
theorem PhiA2_eq (c : Dev nD) :
    (Pipeline.ΦA spec2 c : sProp 𝕄) = iprop(((∃ d, owns (c : Thread nD τ) scM2_0 fullShare d) ∗ rest2 (F := F) c) ∗ (∃ r, prngReg c r)) := by
  unfold Pipeline.ΦA rest2
  rw [Pipeline.scopedRest_split_of_list spec2 c [cc2_scratch0] (by decide) (by decide)]
  simp only [scM2_0, owns_whole]; try rfl

end Cert.KernelIdeal.Hand

end
-- ==== Proof.KI.Region2RunA.lean ====
import proofs.«408336_j75806172774555_3_alg».proof.Proof.KI.Region2Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable def kernelRun2_A (c : Dev nD) (i : grid2.Coords) (arg2 : Memref sig .tc .vmem S1024x128 .f32) (harg2 : arg2.IsWhole) (arg3 : Memref sig .tc .vmem S2048x128 .bf16) (harg3 : arg3.IsWhole) (arg4 : Memref sig .tc .vmem S1x2048 .f32) (harg4 : arg4.IsWhole) (arg5 : Memref sig .tc .vmem S1024x1 .f32) (harg5 : arg5.IsWhole) (arg6 : Memref sig .tc .vmem S1024x1 .f32) (harg6 : arg6.IsWhole) (hc0 : cond2_0 i) (hc1 : ¬cond2_1 i)
    (x0 : Vec F S1024x128 .f32) (x1 : Vec F S2048x128 .bf16) (x2 : Vec F S1x2048 .f32) :
    Σ' (L3 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg6.view.loc (c : Thread nD τ) ↦[arg6.view.set]{fullShare} arg6.view.writes (Elt F) f LS0)) -∗ K ⟨⟩))
          ⊢ wp frame (wpE (defs₀ (F := F)) Variants.none c none) E (cc2__cdist_margin_kernel i arg2 harg2 arg3 harg3 arg4 harg4 arg5 harg5 arg6 harg6) K } := by
  refine ⟨[], ?_, fun E K => ?run⟩
  case run =>
    simp only [cc2__cdist_margin_kernel_eq_skeleton]; unfold cc2__cdist_margin_kernel_skel
    simp only [k2_part1_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Region2RunB.lean ====
import proofs.«408336_j75806172774555_3_alg».proof.Proof.KI.Region2RunA

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable def kernelRun2_B (c : Dev nD) (i : grid2.Coords) (arg2 : Memref sig .tc .vmem S1024x128 .f32) (harg2 : arg2.IsWhole) (arg3 : Memref sig .tc .vmem S2048x128 .bf16) (harg3 : arg3.IsWhole) (arg4 : Memref sig .tc .vmem S1x2048 .f32) (harg4 : arg4.IsWhole) (arg5 : Memref sig .tc .vmem S1024x1 .f32) (harg5 : arg5.IsWhole) (arg6 : Memref sig .tc .vmem S1024x1 .f32) (harg6 : arg6.IsWhole) (hc0 : ¬cond2_0 i) (hc1 : ¬cond2_1 i)
    (x0 : Vec F S1024x128 .f32) (x1 : Vec F S2048x128 .bf16) (x2 : Vec F S1x2048 .f32) (xs0 : Vec F S1024x1 .f32) :
    Σ' (L3 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg6.view.loc (c : Thread nD τ) ↦[arg6.view.set]{fullShare} arg6.view.writes (Elt F) f LS0)) -∗ K ⟨⟩))
          ⊢ wp frame (wpE (defs₀ (F := F)) Variants.none c none) E (cc2__cdist_margin_kernel i arg2 harg2 arg3 harg3 arg4 harg4 arg5 harg5 arg6 harg6) K } := by
  refine ⟨[], ?_, fun E K => ?run⟩
  case run =>
    simp only [cc2__cdist_margin_kernel_eq_skeleton]; unfold cc2__cdist_margin_kernel_skel
    simp only [k2_part1_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Region2RunC.lean ====
import proofs.«408336_j75806172774555_3_alg».proof.Proof.KI.Region2RunB

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable def kernelRun2_C (c : Dev nD) (i : grid2.Coords) (arg2 : Memref sig .tc .vmem S1024x128 .f32) (harg2 : arg2.IsWhole) (arg3 : Memref sig .tc .vmem S2048x128 .bf16) (harg3 : arg3.IsWhole) (arg4 : Memref sig .tc .vmem S1x2048 .f32) (harg4 : arg4.IsWhole) (arg5 : Memref sig .tc .vmem S1024x1 .f32) (harg5 : arg5.IsWhole) (arg6 : Memref sig .tc .vmem S1024x1 .f32) (harg6 : arg6.IsWhole) (hc0 : ¬cond2_0 i) (hc1 : cond2_1 i)
    (x0 : Vec F S1024x128 .f32) (x1 : Vec F S2048x128 .bf16) (x2 : Vec F S1x2048 .f32) (xs0 : Vec F S1024x1 .f32) :
    Σ' (L3 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__cdist_margin_kernel i arg2 harg2 arg3 harg3 arg4 harg4 arg5 harg5 arg6 harg6) K } := by
  refine ⟨?_, ?_, fun E K => ?run⟩
  case run =>
    simp only [cc2__cdist_margin_kernel_eq_skeleton]; unfold cc2__cdist_margin_kernel_skel
    simp only [k2_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.Region2.lean ====
import proofs.«408336_j75806172774555_3_alg».proof.Proof.KI.Region2RunC

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- What a list of stores leaves in a buffer of the accumulator's shape, read through the view `v`.
abbrev rd2 (v : View sig .tc .vmem S1024x1 .f32) (L : List (View.Piece (Elt F) S1024x1 .f32)) : Vec F S1024x1 .f32 :=
  v.read (Elt F) (v.writes (Elt F) v.junk L)

section Point
variable (c : Dev nD) (t : Fin cfg2.N)

-- The three cases of the body run at the point `t`, on its memrefs and the inputs' blocks.
abbrev runA2 (h0 : t.val % 5 = 0) (h1 : ¬t.val % 5 = 4) :=
  kernelRun2_A c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)
abbrev runB2 (h0 : ¬t.val % 5 = 0) (h1 : ¬t.val % 5 = 4) (p : Vec F S1024x1 .f32) :=
  kernelRun2_B c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) p
abbrev runC2 (h0 : ¬t.val % 5 = 0) (h1 : t.val % 5 = 4) (p : Vec F S1024x1 .f32) :=
  kernelRun2_C c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) p

-- The accumulator after the body at `t`, entered at `p`: a reset point stores over it before reading it.
def acc2 (p : Vec F S1024x1 .f32) : Vec F S1024x1 .f32 :=
  if h0 : t.val % 5 = 0 then rd2 VS2_0 (runA2 V c t h0 (by omega)).2.1
  else if h1 : t.val % 5 = 4 then rd2 VS2_0 (runC2 V c t h0 h1 p).2.1
  else rd2 VS2_0 (runB2 V c t h0 h1 p).2.1

end Point

-- The accumulator's contents after the body at position `n`: each point's update of what the point before left.
def sAt2 (c : Dev nD) : (n : ℕ) → n < cfg2.N → Vec F S1024x1 .f32
  | 0, hn => acc2 V c ⟨0, hn⟩ (rd2 VS2_0 [])
  | n + 1, hn => acc2 V c ⟨n + 1, hn⟩ (sAt2 c n (Nat.lt_of_succ_lt hn))

-- What the accumulator holds when the body at `t` begins (at the first point, nothing that is read).
def pre2 (c : Dev nD) : Fin cfg2.N → Vec F S1024x1 .f32
  | ⟨0, _⟩ => rd2 VS2_0 []
  | ⟨n + 1, hn⟩ => sAt2 V c n (Nat.lt_of_succ_lt hn)

theorem sAt2_eq (c : Dev nD) (t : Fin cfg2.N) : sAt2 V c t.val t.isLt = acc2 V c t (pre2 V c t) := by
  obtain ⟨n, hn⟩ := t; cases n <;> rfl

theorem pre2_pos (c : Dev nD) (t : Fin cfg2.N) (hz : t.val ≠ 0) :
    pre2 V c t = sAt2 V c (t.val - 1) (Nat.lt_of_le_of_lt (Nat.sub_le _ _) t.isLt) := by
  obtain ⟨n, hn⟩ := t
  cases n with
  | zero => exact absurd rfl hz
  | succ n => rfl

-- What the body at `t` leaves in the output's buffer: the last case's store; elsewhere nothing is stored and nothing consults it.
def out2 (c : Dev nD) (t : Fin cfg2.N) : Vec F S1024x1 .f32 :=
  if h1 : t.val % 5 = 4 then rd2 VO2_3 (runC2 V c t (by omega) h1 (pre2 V c t)).1 else rd2 VO2_3 []

-- Before the first point nothing is said of the accumulator; before a later one it is named: what the point before left.
def PhiS2 (c : Dev nD) : (n : ℕ) → n ≤ cfg2.N → sProp 𝕄
  | 0, _ => Pipeline.ΦA spec2 c
  | n + 1, hn => iprop((owns (c : Thread nD τ) scM2_0 fullShare (sAt2 V c n hn) ∗ rest2 (F := F) c) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) : (dat2 V c).after 3 t = out2 V c t := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl

theorem live_leaves2 (c : Dev nD) (w : Fin cfg2.W) (t : Fin cfg2.N) (h : w.val < 3 ∨ t.val % 5 = 4) :
    (dat2 V c).leavesExact w t = owns (c : Thread nD τ) ((cfg2.win w).stage (cfg2.slots t w)) fullShare ((dat2 V c).after w t) := by
  unfold Dat.leavesExact; rw [live2 t w h]

-- At any position the invariant holds the accumulator at some contents,
theorem Phi2_some (c : Dev nD) (t : Fin (cfg2.N + 1)) :
    (dat2 V c).Φ t ⊢ iprop(((∃ d, owns (c : Thread nD τ) scM2_0 fullShare d) ∗ rest2 (F := F) c) ∗ (∃ r, prngReg c r)) := by
  obtain ⟨n, hn⟩ := t
  cases n with
  | zero =>
    rw [show (dat2 V c).Φ ⟨0, hn⟩ = Pipeline.ΦA spec2 c from rfl, PhiA2_eq]
    try exact Idealize.SL.BI.Entails.refl _
  | succ n =>
    rw [show (dat2 V c).Φ ⟨n + 1, hn⟩ = iprop((owns (c : Thread nD τ) scM2_0 fullShare (sAt2 V c n (Nat.lt_of_succ_lt_succ hn)) ∗ rest2 (F := F) c) ∗ (∃ r, prngReg c r)) from rfl]
    iintro ⟨⟨HS0, Hrest⟩, Hg⟩
    isplitr [Hg]
    · isplitl [HS0]; · iexists _; iexact HS0
      iexact Hrest
    iexact Hg

-- and past the first point at what the point before left.
theorem Phi2_pre (c : Dev nD) (t : Fin cfg2.N) (hz : t.val ≠ 0) :
    (dat2 V c).Φ t.castSucc = iprop((owns (c : Thread nD τ) scM2_0 fullShare (pre2 V c t) ∗ rest2 (F := F) c) ∗ (∃ r, prngReg c r)) := by
  obtain ⟨n, hn⟩ := t
  cases n with
  | zero => exact absurd rfl hz
  | succ n => rfl

-- One point of the grid: the accumulator goes in as the invariant names it and comes back at this point's update; all else is returned as found.
theorem sound_body2 (c : Dev nD) (t : Fin cfg2.N) :
    iprop((dat2 V c).Φ t.castSucc ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d))
      ∗ (∃ d, owns (c : Thread nD τ) (ms2_3 t) fullShare ((dat2 V c).before 3 t d)))
    ⊢ wp frame (wpE (defs₀ (F := F)) Variants.none c none) Set.univ (bodyAt2 t) (fun _ =>
      iprop((dat2 V c).Φ t.succ ∗ (dat2 V c).owesAt () t.succ
        ∗ (dat2 V c).leavesExact 0 t ∗ (dat2 V c).leavesExact 1 t ∗ (dat2 V c).leavesExact 2 t ∗ (dat2 V c).leavesExact 3 t)) := by
  unfold bodyAt2
  simp only [before2_0, before2_1, before2_2]
  rw [show (dat2 V c).owesAt () t.succ = (dat2 V c).owesAt () t.castSucc from rfl,
    show (dat2 V c).Φ t.succ = iprop((owns (c : Thread nD τ) scM2_0 fullShare (sAt2 V c t.val t.isLt) ∗ rest2 (F := F) c) ∗ (∃ r, prngReg c r)) from rfl,
    show (dat2 V c).leavesExact 0 t = owns (c : Thread nD τ) (ms2_0 t) fullShare (iblk2 V c 0 t) from live_leaves2 V c 0 t (.inl (by decide)),
    show (dat2 V c).leavesExact 1 t = owns (c : Thread nD τ) (ms2_1 t) fullShare (iblk2 V c 1 t) from live_leaves2 V c 1 t (.inl (by decide)),
    show (dat2 V c).leavesExact 2 t = owns (c : Thread nD τ) (ms2_2 t) fullShare (iblk2 V c 2 t) from live_leaves2 V c 2 t (.inl (by decide)),
    sAt2_eq V c t]
  unfold acc2
  by_cases h1 : t.val % 5 = 4
  · have h0 : ¬t.val % 5 = 0 := by omega
    rw [dif_neg h0, dif_pos h1, Phi2_pre V c t (by omega),
      show (dat2 V c).leavesExact 3 t = owns (c : Thread nD τ) (ms2_3 t) fullShare (out2 V c t) from live_leaves2 V c 3 t (.inr h1)]
    unfold out2; rw [dif_pos h1]
    iintro ⟨⟨⟨HS0, Hrest⟩, Hg⟩, Ho, ⟨%d0, H0⟩, ⟨%d1, H1⟩, ⟨%d2, H2⟩, ⟨%d3, H3⟩⟩
    iapply ((runC2 V c t h0 h1 _).2.2 Set.univ _)
    iframe H0 H1 H2 HS0
    isplitl [H3]; · iexists _; iexact H3
    iintro ⟨H0, H1, H2, ⟨%e3, H3⟩, ⟨%es0, HS0⟩⟩
    iframe Hrest Hg Ho H0 H1 H2
    isplitl [HS0]
    · ihave H' := (Ring.owns_of_writes_tiledL VS2_0 S1024x1.size) $$ HS0; iapply H'; ipureintro; sl_kernel_rfl
    ihave H' := (Ring.owns_of_writes_tiledL VO2_3 S1024x1.size) $$ H3; iapply H'; ipureintro; sl_kernel_rfl
  · rw [Dat.leavesExact_idle (dat2 V c) 3 t (idle2 t h1).1 (idle2 t h1).2]
    by_cases h0 : t.val % 5 = 0
    · rw [dif_pos h0]
      iintro ⟨HΦ, Ho, ⟨%d0, H0⟩, ⟨%d1, H1⟩, ⟨%d2, H2⟩, ⟨%d3, H3⟩⟩
      ihave HΦ' := (Phi2_some V c t.castSucc) $$ HΦ
      icases HΦ' with ⟨⟨HS0, Hrest⟩, Hg⟩
      iapply ((runA2 V c t h0 h1).2.2 Set.univ _)
      iframe H0 H1 H2 HS0
      iintro ⟨H0, H1, H2, ⟨%es0, HS0⟩⟩
      iframe Hrest Hg Ho H0 H1 H2
      isplitl [HS0]
      · ihave H' := (Ring.owns_of_writes_tiledL VS2_0 S1024x1.size) $$ HS0; iapply H'; ipureintro; sl_kernel_rfl
      iexists _; iexact H3
    · rw [dif_neg h0, dif_neg h1, Phi2_pre V c t (by omega)]
      iintro ⟨⟨⟨HS0, Hrest⟩, Hg⟩, Ho, ⟨%d0, H0⟩, ⟨%d1, H1⟩, ⟨%d2, H2⟩, ⟨%d3, H3⟩⟩
      iapply ((runB2 V c t h0 h1 _).2.2 Set.univ _)
      iframe H0 H1 H2 HS0
      iintro ⟨H0, H1, H2, ⟨%es0, HS0⟩⟩
      iframe Hrest Hg Ho H0 H1 H2
      isplitl [HS0]
      · ihave H' := (Ring.owns_of_writes_tiledL VS2_0 S1024x1.size) $$ HS0; iapply H'; ipureintro; sl_kernel_rfl
      iexists _; iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = Pipeline.ΦA spec2 c from rfl]
  try exact Idealize.SL.BI.Entails.refl _

-- The resting invariant asks nothing of the accumulator's contents, so the invariant at any position gives it.
theorem hout2 (c : Dev nD) : (dat2 V c).Φ (Fin.last cfg2.N) ⊢ Pipeline.ΦA spec2 c := by
  rw [PhiA2_eq]; exact Phi2_some V c _

end Cert.KernelIdeal.Hand

end
-- ==== Proof.KI.Main.lean ====
import proofs.«408336_j75806172774555_3_alg».proof.Proof.Gen.KernelIdeal.Regions
import proofs.«408336_j75806172774555_3_alg».proof.Proof.KI.Region0
import proofs.«408336_j75806172774555_3_alg».proof.Proof.KI.Region1
import proofs.«408336_j75806172774555_3_alg».proof.Proof.KI.Region2
import Idealize.ShloMosaic.Lib.Pipeline.RegionsLoop

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after after_of_writes_sub held)
open Cert.KernelIdeal Cert.KernelIdeal.Gen

variable {F : FTy → Type} [FloatOps F]

local notation "𝕄" => MT nD τ sig Unit (Elt F) ℕ (UR sig nD τ) ℕ

-- At a region's exit its arrays hold the proof data's final contents and every other buffer what it held at entry.
def exitW {cfg : Cfg sig Λ₀} (dat : (c : Dev nD) → Dat τ (Elt F) Unit ℕ (UR sig nD τ) ℕ cfg c)
    (W : Dev nD → Valuation τ sig (Elt F)) (c : Dev nD) : Valuation τ sig (Elt F) :=
  Pipeline.withArrays cfg.spec c (W c) fun w => (dat c).arrAt w cfg.N

section
variable {cfg : Cfg sig Λ₀} (dat : (c : Dev nD) → Dat τ (Elt F) Unit ℕ (UR sig nD τ) ℕ cfg c)
  (W : Dev nD → Valuation τ sig (Elt F)) (c : Dev nD)
theorem exitW_arr (hinj : Function.Injective (Pipeline.arrRef cfg.spec)) (w : Fin cfg.W) :
    exitW dat W c (Proc.devRef .tc (Pipeline.arrRef cfg.spec w)) = (dat c).arrAt w cfg.N :=
  Pipeline.withArrays_arr cfg.spec hinj c _ _ w
theorem exitW_of_ne (b : Ref sig .tc) (hb : ∀ w, Pipeline.arrRef cfg.spec w ≠ b) :
    exitW dat W c (Proc.devRef .tc b) = W c (Proc.devRef .tc b) :=
  Pipeline.withArrays_of_ne cfg.spec c _ _ b hb
end

-- A host stretch takes every core's contents to what its operations leave.
abbrev aft (ops : List (HloOp τ sig (Elt F))) (W : Dev nD → Valuation τ sig (Elt F)) : Dev nD → Valuation τ sig (Elt F) :=
  fun c => after ops (W c)

variable (m : (ℓ : Loc nD τ sig) → Buf (Elt F) ℓ) (ρ : Dev nD → PrngReg)

-- The buffer contents at the nineteen segment boundaries, and each region's entry contents read at its references.
abbrev W0 : Dev nD → Valuation τ sig (Elt F) := fun c b => (s₀ m ρ).mem ((c : Dev nD), b)
abbrev VE0 : (c : Dev nD) → (b : Ref sig .tc) → Buf (Elt F) ((c : Thread nD τ).loc b) := fun c b => W0 m ρ c b
abbrev W1 := exitW (dat0 (VE0 m ρ)) (W0 m ρ)
abbrev W2 := aft hostOps1 (W1 m ρ)
abbrev VE1 : (c : Dev nD) → (b : Ref sig .tc) → Buf (Elt F) ((c : Thread nD τ).loc b) := fun c b => W2 m ρ c b
abbrev W3 := exitW (dat1 (VE1 m ρ)) (W2 m ρ)
abbrev W4 := aft hostOps2 (W3 m ρ)
abbrev W5 := aft hostOps2_1 (W4 m ρ)
abbrev W6 := aft hostOps2_2 (W5 m ρ)
abbrev W7 := aft hostOps2_3 (W6 m ρ)
abbrev W8 := aft hostOps2_4 (W7 m ρ)
abbrev W9 := aft hostOps2_5 (W8 m ρ)
abbrev W10 := aft hostOps2_6 (W9 m ρ)
abbrev VE2 : (c : Dev nD) → (b : Ref sig .tc) → Buf (Elt F) ((c : Thread nD τ).loc b) := fun c b => W10 m ρ c b
abbrev W11 := exitW (dat2 (VE2 m ρ)) (W10 m ρ)
abbrev W12 := aft hostOps3 (W11 m ρ)
abbrev W13 := aft hostOps3_1 (W12 m ρ)
abbrev W14 := aft hostOps3_2 (W13 m ρ)
abbrev W15 := aft hostOps3_3 (W14 m ρ)
abbrev W16 := aft hostOps3_4 (W15 m ρ)
abbrev W17 := aft hostOps3_5 (W16 m ρ)
abbrev W18 := aft hostOps3_6 (W17 m ρ)

section
variable (c : Dev nD) (r : Ref sig .tc)
-- A buffer that no stretch between two boundaries writes, and that is no array of the region between them, is unchanged.
abbrev Kept3 : Prop := (∀ w, Pipeline.arrRef spec1 w ≠ r) ∧ r ∉ hostOps1_W
abbrev Kept11 : Prop := (∀ w, Pipeline.arrRef spec2 w ≠ r) ∧ r ∉ hostOps2_6_W ∧ r ∉ hostOps2_5_W ∧ r ∉ hostOps2_4_W ∧ r ∉ hostOps2_3_W
  ∧ r ∉ hostOps2_2_W ∧ r ∉ hostOps2_1_W ∧ r ∉ hostOps2_W
abbrev Kept18 : Prop := r ∉ hostOps3_6_W ∧ r ∉ hostOps3_5_W ∧ r ∉ hostOps3_4_W ∧ r ∉ hostOps3_3_W ∧ r ∉ hostOps3_2_W ∧ r ∉ hostOps3_1_W
  ∧ r ∉ hostOps3_W
theorem keep3 (h : Kept3 r) : W3 m ρ c (Proc.devRef .tc r) = W1 m ρ c (Proc.devRef .tc r) :=
  (exitW_of_ne _ _ c r h.1).trans (after_of_writes_sub _ _ hostOps1_writes h.2)
theorem keep11 (h : Kept11 r) : W11 m ρ c (Proc.devRef .tc r) = W3 m ρ c (Proc.devRef .tc r) := by
  obtain ⟨h2, b6, b5, b4, b3, b2, b1, b0⟩ := h
  exact (exitW_of_ne _ _ c r h2).trans <| (after_of_writes_sub _ _ hostOps2_6_writes b6).trans <|
    (after_of_writes_sub _ _ hostOps2_5_writes b5).trans <| (after_of_writes_sub _ _ hostOps2_4_writes b4).trans <|
    (after_of_writes_sub _ _ hostOps2_3_writes b3).trans <| (after_of_writes_sub _ _ hostOps2_2_writes b2).trans <|
    (after_of_writes_sub _ _ hostOps2_1_writes b1).trans (after_of_writes_sub _ _ hostOps2_writes b0)
theorem keep18 (h : Kept18 r) : W18 m ρ c (Proc.devRef .tc r) = W11 m ρ c (Proc.devRef .tc r) := by
  obtain ⟨a6, a5, a4, a3, a2, a1, a0⟩ := h
  exact (after_of_writes_sub _ _ hostOps3_6_writes a6).trans <| (after_of_writes_sub _ _ hostOps3_5_writes a5).trans <|
    (after_of_writes_sub _ _ hostOps3_4_writes a4).trans <| (after_of_writes_sub _ _ hostOps3_3_writes a3).trans <|
    (after_of_writes_sub _ _ hostOps3_2_writes a2).trans <| (after_of_writes_sub _ _ hostOps3_1_writes a1).trans
    (after_of_writes_sub _ _ hostOps3_writes a0)
theorem keep (h : Kept18 r ∧ Kept11 r ∧ Kept3 r) : W18 m ρ c (Proc.devRef .tc r) = W1 m ρ c (Proc.devRef .tc r) :=
  (keep18 m ρ c r h.1).trans ((keep11 m ρ c r h.2.1).trans (keep3 m ρ c r h.2.2))
end

-- Region 0 leaves its input array, the first argument, as entered.
theorem W1_arg0 (c : Dev nD) : W1 m ρ c (Proc.devRef .tc main_arg0) = m ((c : Thread nD τ).loc main_arg0) :=
  (exitW_arr _ _ c launch0.win.arr_inj 0).trans ((dat0 (VE0 m ρ) c).arrAt_in 0 rfl _)

theorem W18_main_arg0 (c : Dev nD) : W18 m ρ c (Proc.devRef .tc main_arg0) = m ((c : Thread nD τ).loc main_arg0) :=
  (keep m ρ c _ (by decide)).trans (W1_arg0 m ρ c)
theorem W18_main_arg1 (c : Dev nD) : W18 m ρ c (Proc.devRef .tc main_arg1) = m ((c : Thread nD τ).loc main_arg1) :=
  (keep m ρ c _ (by decide)).trans (exitW_of_ne _ _ c _ (by decide))
theorem W18_main_arg2 (c : Dev nD) : W18 m ρ c (Proc.devRef .tc main_arg2) = m ((c : Thread nD τ).loc main_arg2) :=
  (keep m ρ c _ (by decide)).trans (exitW_of_ne _ _ c _ (by decide))
theorem W18_main_arg3 (c : Dev nD) : W18 m ρ c (Proc.devRef .tc main_arg3) = m ((c : Thread nD τ).loc main_arg3) :=
  (keep m ρ c _ (by decide)).trans (exitW_of_ne _ _ c _ (by decide))

-- Every pipeline's proof data, each at its region's entry contents.
def pdats : (p : Fin 3) → (c : Dev nD) → Dat τ (Elt F) Unit ℕ (UR sig nD τ) ℕ (Pipeline.pin (pcfgs (F := F)) adm p) c
  | ⟨0, _⟩ => fun c => dat0 (VE0 m ρ) c
  | ⟨1, _⟩ => fun c => dat1 (VE1 m ρ) c
  | ⟨2, _⟩ => fun c => dat2 (VE2 m ρ) c
abbrev 𝒱₀ : Variants := Variants.none
abbrev L : GSem nD τ sig → Finset Unit := fun _ => ∅
abbrev lv : GSem nD τ sig → Unit → ℕ := fun _ _ => 0
-- What rides beside the buffers through every segment: the generator register at some state, and nothing owed.
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- A region of the class invariant, owing nothing at full shares: its arrays leave the unscoped buffers at entry and rejoin them at exit.
def regA (p : Fin 3) (lw : Pipeline.LaunchFacts (nD := nD) (τ := τ) cfgs p) (W : Dev nD → Valuation τ sig (Elt F))
    (hA : ∀ c w, (pdats m ρ p c).A w = W c (Proc.devRef .tc (Pipeline.arrRef (cfgs p).spec w)))
    (hq : ∀ c w, (pdats m ρ p c).q w = fullShare) (howed : ∀ c t, (pdats m ρ p c).owed t = 0)
    (hrec : ∀ c, (pdats m ρ p c).recorded 0 = Set.univ)
    (hbody : ∀ c, BodyObligation (pdats m ρ p c) (defs₀ (F := F)) 𝒱₀ () Set.univ)
    (hin : ∀ c, Pipeline.ΦA (cfgs p).spec c ⊢ (pdats m ρ p c).Φ 0)
    (hout : ∀ c, (pdats m ρ p c).Φ (Fin.last (cfgs p).N) ⊢ Pipeline.ΦA (cfgs p).spec c) :
    Pipeline.RegionSeg (pcfgs (F := F)) adm (pdats m ρ) () defs₀ 𝒱₀ L lv p where
  win := lw.win.to₀
  block_pos := lw.block_pos
  stage_whole := lw.stage_whole
  K := PEmpty
  osem k := k.elim
  ho := Pipeline.OwnSemFacts.none _
  hbody c := (hbody c).loose
  hwaits := Pipeline.hwaits_of_owed_zero _ _ _ _ L lv p howed
  pre c := iprop(held (c : Thread nD τ) (Pipeline.ucRefs τ sig) (W c) ∗ R c)
  post c := iprop(held (c : Thread nD τ) (Pipeline.ucRefs τ sig) (exitW (pdats m ρ p) W c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    rw [Pipeline.ownSems0_none]
    unfold Pipeline.Dat.owesAt Pipeline.owesWithin
    rw [howed c 0]
    have hsplit := Pipeline.arrays_of_unscopedBufs (p := p) (pcfgs (F := F)) adm (pdats m ρ) lw.win lw.arr_whole c
      ((pdats m ρ p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl (hrec c ▸ Set.mem_univ _)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    unfold Pipeline.Dat.owesAt Pipeline.owesWithin
    rw [howed c (Fin.last _)]
    have hjoin := Pipeline.unscopedBufs_of_arrays (p := p) (pcfgs (F := F)) adm (Ix := Unit) (Name := ℕ) (U := UR sig nD τ) (Lvl := ℕ)
      lw.win lw.arr_whole c (pdats m ρ) ((pdats m ρ p c).share_full (hq c))
      (fun b => W c b) (fun b => exitW (pdats m ρ p) W c b) ((pdats m ρ p c).arrAt · (cfgs p).N)
      (fun w => (exitW_arr _ W c lw.win.arr_inj w).symm)
      fun b hb => exitW_of_ne _ W c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

abbrev reg0 := regA m ρ 0 launch0 (W0 m ρ) (fun _ _ => rfl) (fun _ _ => rfl) (fun _ _ => rfl) (fun _ => rfl)
  (fun c => body_obligation0 (VE0 m ρ) c) (fun _ => .rfl) (fun _ => .rfl)
abbrev reg1 := regA m ρ 1 launch1 (W2 m ρ) (fun _ _ => rfl) (fun _ _ => rfl) (fun _ _ => rfl) (fun _ => rfl)
  (fun c => body_obligation1 (VE1 m ρ) c) (hin1 (VE1 m ρ)) (hout1 (VE1 m ρ))
abbrev reg2 := regA m ρ 2 launch2 (W10 m ρ) (fun _ _ => rfl) (fun _ _ => rfl) (fun _ _ => rfl) (fun _ => rfl)
  (fun c => body_obligation2 (VE2 m ρ) c) (hin2 (VE2 m ρ)) (hout2 (VE2 m ρ))

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .host (hseg hostOps2_1 hostOps2_1_sub hostOps2_1_fresh (W4 m ρ)),
    .host (hseg hostOps2_2 hostOps2_2_sub hostOps2_2_fresh (W5 m ρ)),
    .host (hseg hostOps2_3 hostOps2_3_sub hostOps2_3_fresh (W6 m ρ)),
    .host (hseg hostOps2_4 hostOps2_4_sub hostOps2_4_fresh (W7 m ρ)),
    .host (hseg hostOps2_5 hostOps2_5_sub hostOps2_5_fresh (W8 m ρ)),
    .host (hseg hostOps2_6 hostOps2_6_sub hostOps2_6_fresh (W9 m ρ)),
    .region (reg2 m ρ),
    .host (hseg hostOps3 hostOps3_sub hostOps3_fresh (W11 m ρ)),
    .host (hseg hostOps3_1 hostOps3_1_sub hostOps3_1_fresh (W12 m ρ)),
    .host (hseg hostOps3_2 hostOps3_2_sub hostOps3_2_fresh (W13 m ρ)),
    .host (hseg hostOps3_3 hostOps3_3_sub hostOps3_3_fresh (W14 m ρ)),
    .host (hseg hostOps3_4 hostOps3_4_sub hostOps3_4_fresh (W15 m ρ)),
    .host (hseg hostOps3_5 hostOps3_5_sub hostOps3_5_fresh (W16 m ρ)),
    .host (hseg hostOps3_6 hostOps3_6_sub hostOps3_6_fresh (W17 m ρ)) ]
theorem main_run (c : Dev nD) : main (F := F) c = Pipeline.Seg.run (segs m ρ) := (main_chain c).trans (by chain_rfl)

-- Every weakly fair execution of @main terminates without fault, every unscoped buffer ending at the last boundary's contents.
theorem run_all : θ_run defs (onTc (τ := τ) (main (F := F))) ⟨m, fun _ => 0, ρ⟩ (fun r => ∀ c : Dev nD,
      ∀ b ∈ Pipeline.ucRefs τ sig, r.2.mem (((c : Thread nD τ)).1, b) = W18 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(held (c : Thread nD τ) (Pipeline.ucRefs τ sig) (W0 m ρ c) ∗ R c)) (Tₙ := fun c => iprop(held (c : Thread nD τ) (Pipeline.ucRefs τ sig) (W18 m ρ c) ∗ ∃ r, prngReg c r))
    (hch := by repeat' first | exact fun _ => sep_assoc' | exact fun _ => .rfl | constructor)
    (hinit := by
      refine Pipeline.initEach L lv fun c => ?_
      rw [show unscopedBufs c (fun b => m ((c : Thread nD τ).loc b)) = held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h => h)

/-- info: 'Cert.KernelIdeal.Hand.run_all' depends on axioms: [propext, Classical.choice, Quot.sound] -/
#guard_msgs in #print axioms run_all

end Cert.KernelIdeal.Hand

end
-- ==== Proof.KI.HostA.lean ====
import proofs.«408336_j75806172774555_3_alg».proof.Proof.Gen.KernelIdeal.Regions

noncomputable section

namespace Cert.KernelIdeal.Hand

open Cert.KernelIdeal Cert.KernelIdeal.Gen
open Idealize.ShloMosaic Idealize.ShloMosaic.TcCoe

variable {F : FTy → Type} [FloatOps F]

def kLabRow (a3 : IVec S4096 32) : IVec S1x4096 32 :=
  shapeCast S1x4096 a3 shapeCasts_S4096_S1x4096

theorem after1_v1 (W : Valuation τ sig (Elt F)) :
    StableHlo.after hostOps1 W (Proc.devRef .tc main_v1) = kLabRow (W (Proc.devRef .tc main_arg3)) := by
  after_results
  rfl

/-- For reading a buffer back through a stretch that does not write it. -/
theorem after_keep {ops : List (HloOp τ sig (Elt F))} {L : List (Ref sig .tc)} {W : Valuation τ sig (Elt F)}
    (hL : ops.Forall fun op => op.writes ⊆ (L.map (Proc.devRef (τ := τ) .tc)).toFinset) (r : Ref sig .tc)
    (hr : r ∉ L := by decide) : StableHlo.after ops W (Proc.devRef .tc r) = W (Proc.devRef .tc r) :=
  StableHlo.after_of_writes_sub ops W hL hr

end Cert.KernelIdeal.Hand

end
-- ==== Proof.KI.HostB.lean ====
import proofs.«408336_j75806172774555_3_alg».proof.Proof.KI.HostA

noncomputable section

namespace Cert.KernelIdeal.Hand

open Cert.KernelIdeal Cert.KernelIdeal.Gen
open Idealize.ShloMosaic Idealize.ShloMosaic.TcCoe

variable {F : FTy → Type} [FloatOps F]

def kSmOf (o2 : FVec F S10240x128 .f32) : FVec F S10000x128 .f32 :=
  extractStridedSlice S10000x128 ![0, 0] o2 slices_S10240x128_S10000x128_0_0

def kCntOf (o3 : FVec F S10240x1 .f32) : FVec F S10000 .f32 :=
  shapeCast S10000 (extractStridedSlice S10000x1 ![0, 0] o3 slices_S10240x1_S10000x1_0_0) shapeCasts_S10000x1_S10000

def kMix (a2 : FVec F S10000x128 .f32) (cnt : FVec F S10000 .f32) (sm : FVec F S10000x128 .f32) : FVec F S10000x128 .f32 :=
  have cst : FVec F S_ .f32 := constant S_ .f32 0x3F800000#32
  have v6 : FVec F S10000 .f32 := broadcastInDim S10000 ![] bcast_S_S10000 cst
  have v7 : FVec F S10000 .f32 := maximumf cnt v6
  have v8 : FVec F S10000x1 .f32 := broadcastInDim S10000x1 ![0] bcast_S10000_S10000x1_0 v7
  have v9 : FVec F S10000x128 .f32 := broadcastInDim S10000x128 ![0, 1] bcast_S10000x1_S10000x128_0_1 v8
  have v10 : FVec F S10000x128 .f32 := Host.divf sm v9
  have cst_0 : FVec F S_ .f32 := constant S_ .f32 0x3F666666#32
  have v11 : FVec F S10000x128 .f32 := broadcastInDim S10000x128 ![] bcast_S_S10000x128 cst_0
  have v12 : FVec F S10000x128 .f32 := mulf v11 a2
  have cst_1 : FVec F S_ .f32 := constant S_ .f32 0x3DCCCCCD#32
  have v13 : FVec F S10000x128 .f32 := broadcastInDim S10000x128 ![] bcast_S_S10000x128 cst_1
  have v14 : FVec F S10000x128 .f32 := mulf v13 v10
  addf v12 v14

def kRowNorm (x : FVec F S10000x128 .f32) : FVec F S10000x1 .f32 :=
  have v0 : FVec F S10000x128 .f32 := mulf x x
  have cst : FVec F S_ .f32 := constant S_ .f32 0x00000000#32
  have v1 : FVec F S10000 .f32 := Host.reduceAdd v0 cst reducesTo_S10000x128_S10000_d1 h_S_
  have v2 : FVec F S10000x1 .f32 := broadcastInDim S10000x1 ![0] bcast_S10000_S10000x1_0 v1
  Host.sqrt v2

def kUnit (x : FVec F S10000x128 .f32) (nrm : FVec F S10000x1 .f32) : FVec F S10000x128 .f32 :=
  have cst_2 : FVec F S_ .f32 := constant S_ .f32 0x2B8CBCCC#32
  have v17 : FVec F S10000x1 .f32 := broadcastInDim S10000x1 ![] bcast_S_S10000x1 cst_2
  have v18 : FVec F S10000x1 .f32 := maximumf nrm v17
  have v19 : FVec F S10000x128 .f32 := broadcastInDim S10000x128 ![0, 1] bcast_S10000x1_S10000x128_0_1 v18
  Host.divf x v19

def kSeen (cnt : FVec F S10000 .f32) : IVec S10000x1 1 :=
  have cst_3 : FVec F S_ .f32 := constant S_ .f32 0x00000000#32
  have v21 : FVec F S10000 .f32 := broadcastInDim S10000 ![] bcast_S_S10000 cst_3
  have v22 : IVec S10000 1 := cmpf .ogt cnt v21
  broadcastInDim S10000x1 ![0] bcast_S10000_S10000x1_0 v22

def kWhere (seen : IVec S10000x1 1) (x y : FVec F S10000x128 .f32) : FVec F S10000x128 .f32 :=
  have v0 : IVec S10000x128 1 := broadcastInDim S10000x128 ![0, 1] bcast_S10000x1_S10000x128_0_1 seen
  select v0 x y

def kProtosOf (a2 : FVec F S10000x128 .f32) (cnt : FVec F S10000 .f32) (sm : FVec F S10000x128 .f32) : FVec F S10000x128 .f32 :=
  kWhere (kSeen cnt) (kUnit (kMix a2 cnt sm) (kRowNorm (kMix a2 cnt sm))) a2

def kPadBf (pr : FVec F S10000x128 .f32) : FVec F S10240x128 .bf16 :=
  have c : IVec S_ 32 := constantI S_ 32 0#32
  have v0 : FVec F S_ .f32 := sitofp .f32 c
  have v25 : FVec F S10240x128 .f32 := pad S10240x128 ![0, 0] ![240, 0] ![0, 0] pr v0 pads_S10000x128_S10240x128_02400_000 h_S_
  truncf .bf16 v25 bitsLt_bf16_f32

def kP2Of (pr : FVec F S10000x128 .f32) : FVec F S1x10240 .f32 :=
  have v27 : FVec F S10000x128 .f32 := mulf pr pr
  have cst_4 : FVec F S_ .f32 := constant S_ .f32 0x00000000#32
  have v28 : FVec F S10000 .f32 := Host.reduceAdd v27 cst_4 reducesTo_S10000x128_S10000_d1 h_S_
  have cst_5 : FVec F S_ .f32 := constant S_ .f32 0x49742400#32
  have v29 : FVec F S240 .f32 := broadcastInDim S240 ![] bcast_S_S240 cst_5
  have v30 : FVec F S10240 .f32 := concatenate S10240 0 [⟨S10000, v28⟩, ⟨S240, v29⟩] concatenates_S10000_S240_S10240_d0
  shapeCast S1x10240 v30 shapeCasts_S10240_S1x10240

section Stretches

variable (W : Valuation τ sig (Elt F))

theorem s2_v5 : StableHlo.after hostOps2 W (Proc.devRef .tc main_v5) = kCntOf (W (Proc.devRef .tc main_v2_1)) := by
  after_results
  rfl

theorem s2_v15 : StableHlo.after hostOps2 W (Proc.devRef .tc main_v15)
    = kMix (W (Proc.devRef .tc main_arg2)) (kCntOf (W (Proc.devRef .tc main_v2_1))) (kSmOf (W (Proc.devRef .tc main_v2_0))) := by
  after_results
  rfl

theorem s21_v16 : StableHlo.after hostOps2_1 W (Proc.devRef .tc main_v16) = kRowNorm (W (Proc.devRef .tc main_v15)) := by
  after_results
  rfl

theorem s22_v20 : StableHlo.after hostOps2_2 W (Proc.devRef .tc main_v20) = kUnit (W (Proc.devRef .tc main_v15)) (W (Proc.devRef .tc main_v16)) := by
  after_results
  rfl

theorem s22_v23 : StableHlo.after hostOps2_2 W (Proc.devRef .tc main_v23) = kSeen (W (Proc.devRef .tc main_v5)) := by
  after_results
  rfl

theorem s23_v24 : StableHlo.after hostOps2_3 W (Proc.devRef .tc main_v24)
    = kWhere (W (Proc.devRef .tc main_v23)) (W (Proc.devRef .tc main_v20)) (W (Proc.devRef .tc main_arg2)) := by
  after_results
  rfl

theorem s24_c : StableHlo.after hostOps2_4 W (Proc.devRef .tc main_c) = (constantI S_ 32 0#32 : IVec S_ 32) := by
  after_results

theorem s25_v25 : StableHlo.after hostOps2_5 W (Proc.devRef .tc main_v25)
    = (pad S10240x128 ![0, 0] ![240, 0] ![0, 0] (W (Proc.devRef .tc main_v24)) (sitofp .f32 (W (Proc.devRef .tc main_c)) : FVec F S_ .f32)
        pads_S10000x128_S10240x128_02400_000 h_S_ : FVec F S10240x128 .f32) := by
  after_results
  rfl

theorem s26_v26 : StableHlo.after hostOps2_6 W (Proc.devRef .tc main_v26)
    = (truncf .bf16 (W (Proc.devRef .tc main_v25) : FVec F S10240x128 .f32) bitsLt_bf16_f32 : FVec F S10240x128 .bf16) := by
  after_results

theorem s26_v31 : StableHlo.after hostOps2_6 W (Proc.devRef .tc main_v31) = kP2Of (W (Proc.devRef .tc main_v24)) := by
  after_results
  rfl

end Stretches

abbrev chain2 (W : Valuation τ sig (Elt F)) : Valuation τ sig (Elt F) :=
  StableHlo.after hostOps2_6 (StableHlo.after hostOps2_5 (StableHlo.after hostOps2_4 (StableHlo.after hostOps2_3
    (StableHlo.after hostOps2_2 (StableHlo.after hostOps2_1 (StableHlo.after hostOps2 W))))))

section Chain

variable (W : Valuation τ sig (Elt F))

theorem after2_v0 : chain2 W (Proc.devRef .tc main_v0) = W (Proc.devRef .tc main_v0) := by
  unfold chain2
  rw [after_keep hostOps2_6_writes main_v0, after_keep hostOps2_5_writes main_v0, after_keep hostOps2_4_writes main_v0, after_keep hostOps2_3_writes main_v0, after_keep hostOps2_2_writes main_v0, after_keep hostOps2_1_writes main_v0, after_keep hostOps2_writes main_v0]

theorem protos_at :
    StableHlo.after hostOps2_3 (StableHlo.after hostOps2_2 (StableHlo.after hostOps2_1 (StableHlo.after hostOps2 W))) (Proc.devRef .tc main_v24)
      = kProtosOf (W (Proc.devRef .tc main_arg2)) (kCntOf (W (Proc.devRef .tc main_v2_1))) (kSmOf (W (Proc.devRef .tc main_v2_0))) := by
  rw [s23_v24, s22_v23, s22_v20, after_keep hostOps2_2_writes main_arg2, s21_v16, after_keep hostOps2_1_writes main_v5, after_keep hostOps2_1_writes main_v15, after_keep hostOps2_1_writes main_arg2,
    s2_v5, s2_v15, after_keep hostOps2_writes main_arg2]
  rfl

theorem after2_v24 : chain2 W (Proc.devRef .tc main_v24) = kProtosOf (W (Proc.devRef .tc main_arg2)) (kCntOf (W (Proc.devRef .tc main_v2_1))) (kSmOf (W (Proc.devRef .tc main_v2_0))) := by
  unfold chain2
  rw [after_keep hostOps2_6_writes main_v24, after_keep hostOps2_5_writes main_v24, after_keep hostOps2_4_writes main_v24, protos_at]

theorem after2_v26 : chain2 W (Proc.devRef .tc main_v26) = kPadBf (kProtosOf (W (Proc.devRef .tc main_arg2)) (kCntOf (W (Proc.devRef .tc main_v2_1))) (kSmOf (W (Proc.devRef .tc main_v2_0)))) := by
  unfold chain2
  rw [s26_v26, s25_v25, s24_c, after_keep hostOps2_4_writes main_v24, protos_at]
  rfl

theorem after2_v31 : chain2 W (Proc.devRef .tc main_v31) = kP2Of (kProtosOf (W (Proc.devRef .tc main_arg2)) (kCntOf (W (Proc.devRef .tc main_v2_1))) (kSmOf (W (Proc.devRef .tc main_v2_0)))) := by
  unfold chain2
  rw [s26_v31, after_keep hostOps2_5_writes main_v24, after_keep hostOps2_4_writes main_v24, protos_at]

end Chain

end Cert.KernelIdeal.Hand

end
-- ==== Proof.KI.HostC.lean ====
import proofs.«408336_j75806172774555_3_alg».proof.Proof.KI.HostA

noncomputable section

namespace Cert.KernelIdeal.Hand

open Cert.KernelIdeal Cert.KernelIdeal.Gen
open Idealize.ShloMosaic Idealize.ShloMosaic.TcCoe

variable {F : FTy → Type} [FloatOps F]

def kRowOf (o : FVec F S4096x1 .f32) : FVec F S4096 .f32 :=
  shapeCast S4096 o shapeCasts_S4096x1_S4096

/-- Each label as a start row, counted from the end when negative, laid out as a column. -/
def ownIdx (a3 : IVec S4096 32) : IVec S4096x1 32 :=
  broadcastInDim S4096x1 ![0] bcast_S4096_S4096x1_0
    (select (cmpi .slt a3 (broadcastInDim S4096 ![] bcast_S_S4096 (constantI S_ 32 0#32)))
      (addi a3 (broadcastInDim S4096 ![] bcast_S_S4096 (constantI S_ 32 10000#32))) a3)

/-- The bit of each start row that says it lies in 0 … 9999. -/
def ownMask (v5 : IVec S4096x1 32) : IVec S4096 1 :=
  Host.reduce IntOp.andi
    (andi (cmpi .sge v5 (broadcastInDim S4096x1 ![] bcast_S_S4096x1 (constantI S_ 32 0#32)))
      (cmpi .sle v5 (broadcastInDim S4096x1 ![0, 1] bcast_S1x1_S4096x1_0_1 (broadcastInDim S1x1 ![1] bcast_S1_S1x1_1 (constantI S1 32 9999#32)))))
    (constantI S_ 1 1#1) reducesTo_S4096x1_S4096_d1 h_S_

/-- Row `a3 i` of the table for every sample `i`, and a row of not-a-number where the start row is out of range. -/
def kTakeOf (a3 : IVec S4096 32) (pr : FVec F S10000x128 .f32) : FVec F S4096x128 .f32 :=
  select (broadcastInDim S4096x128 ![0] bcast_S4096_S4096x128_0 (ownMask (ownIdx a3)))
    (Host.gather gather_S10000x128_S4096x1_S4096x128_1_0_n_n_0_1_1128 pr (ownIdx a3))
    (broadcastInDim S4096x128 ![] bcast_S_S4096x128 (constant S_ .f32 0x7FC00000#32))

/-- The inner products of matching rows of two tables. -/
def kRowDot (x y : FVec F S4096x128 .f32) : FVec F S4096 .f32 :=
  Host.reduceAdd (mulf x y) (constant S_ .f32 0x00000000#32) reducesTo_S4096x128_S4096_d1 h_S_

/-- A table rounded to bfloat16 and widened back. -/
def kRound (x : FVec F S4096x128 .f32) : FVec F S4096x128 .f32 :=
  extf .f32 (truncf .bf16 x bitsLt_bf16_f32) bitsLt_bf16_f32

/-- The distance between matching rows, expanded, the inner product taken over the rounded rows. -/
def kDistOf (gn tk : FVec F S4096x128 .f32) : FVec F S4096 .f32 :=
  Host.sqrt (maximumf
    (subf (addf (kRowDot gn gn) (kRowDot tk tk))
      (mulf (broadcastInDim S4096 ![] bcast_S_S4096 (constant S_ .f32 0x40000000#32)) (kRowDot (kRound gn) (kRound tk))))
    (broadcastInDim S4096 ![] bcast_S_S4096 (constant S_ .f32 0x00000000#32)))

def kOwnOf (a3 : IVec S4096 32) (gn : FVec F S4096x128 .f32) (pr : FVec F S10000x128 .f32) : FVec F S4096 .f32 :=
  kDistOf gn (kTakeOf a3 pr)

def kSumOf (x : FVec F S4096 .f32) : FVec F S_ .f32 :=
  have cst_13 : FVec F S_ .f32 := constant S_ .f32 0x00000000#32
  Host.reduceAdd x cst_13 reducesTo_S4096_S_d0 h_S_

def kMeanOf (x : FVec F S4096 .f32) : FVec F S_ .f32 :=
  Host.divf (kSumOf x) (constant S_ .f32 0x45800000#32)

def kTwoLess (x : FVec F S4096 .f32) : FVec F S4096 .f32 :=
  have cst_14 : FVec F S_ .f32 := constant S_ .f32 0x40000000#32
  have v55 : FVec F S4096 .f32 := broadcastInDim S4096 ![] bcast_S_S4096 cst_14
  subf v55 x

def kRelu (x : FVec F S4096 .f32) : FVec F S4096 .f32 :=
  have cst : FVec F S_ .f32 := constant S_ .f32 0x00000000#32
  have v0 : FVec F S4096 .f32 := broadcastInDim S4096 ![] bcast_S_S4096 cst
  maximumf x v0

def kMargin (s : FVec F S_ .f32) (p : FVec F S4096 .f32) : FVec F S_ .f32 :=
  Host.divf (subf s (kSumOf p)) (constant S_ .f32 0x4C1C3C00#32)

def kStdAt (a1 : FVec F S4096 .f32) (k : IVec S_ 32) : FVec F S_ .f32 :=
  have cst : FVec F S_ .f32 := constant S_ .f32 0x00000000#32
  have v0 : FVec F S_ .f32 := Host.reduceAdd a1 cst reducesTo_S4096_S_d0 h_S_
  have v1 : FVec F S1 .f32 := broadcastInDim S1 ![] bcast_S_S1 v0
  have cst_0 : FVec F S_ .f32 := constant S_ .f32 0x45800000#32
  have v2 : FVec F S1 .f32 := broadcastInDim S1 ![] bcast_S_S1 cst_0
  have v3 : FVec F S1 .f32 := Host.divf v1 v2
  have v4 : FVec F S4096 .f32 := broadcastInDim S4096 ![0] bcast_S1_S4096_0 v3
  have v5 : FVec F S4096 .f32 := subf a1 v4
  have v6 : FVec F S4096 .f32 := mulf v5 v5
  have v7 : FVec F S_ .f32 := sitofp .f32 k
  have cst_1 : FVec F S_ .f32 := constant S_ .f32 0x45800000#32
  have v8 : FVec F S_ .f32 := subf cst_1 v7
  have cst_2 : FVec F S_ .f32 := constant S_ .f32 0x00000000#32
  have v9 : FVec F S_ .f32 := Host.reduceAdd v6 cst_2 reducesTo_S4096_S_d0 h_S_
  have v10 : FVec F S_ .f32 := Host.divf v9 v8
  have cst_3 : FVec F S_ .f32 := constant S_ .f32 0x00000000#32
  have v11 : IVec S_ 1 := cmpf .ogt v8 cst_3
  have cst_4 : FVec F S_ .f32 := constant S_ .f32 0x7FC00000#32
  have w0 : FVec F S_ .f32 := id cst_4
  have w1 : FVec F S_ .f32 := select v11 v10 w0
  Host.sqrt w1

def kStdOf (a1 : FVec F S4096 .f32) : FVec F S_ .f32 :=
  kStdAt a1 (constantI S_ 32 1#32)

def kNegMean (a1 : FVec F S4096 .f32) : FVec F S_ .f32 :=
  Host.negf (kMeanOf a1)

def kTotal (d g s u : FVec F S_ .f32) : FVec F S_ .f32 :=
  have cst_20 : FVec F S_ .f32 := constant S_ .f32 0x3F800000#32
  have v66 : FVec F S_ .f32 := mulf cst_20 d
  have cst_21 : FVec F S_ .f32 := constant S_ .f32 0x40000000#32
  have v67 : FVec F S_ .f32 := mulf cst_21 g
  have v68 : FVec F S_ .f32 := addf v66 v67
  have cst_22 : FVec F S_ .f32 := constant S_ .f32 0x3F000000#32
  have v69 : FVec F S_ .f32 := mulf cst_22 s
  have v70 : FVec F S_ .f32 := addf v68 v69
  have cst_23 : FVec F S_ .f32 := constant S_ .f32 0x3DCCCCCD#32
  have v71 : FVec F S_ .f32 := mulf cst_23 u
  addf v70 v71

def kTailOf (a1 : FVec F S4096 .f32) (own : FVec F S4096 .f32) (row : FVec F S4096 .f32) :
    FVec F S_ .f32 × FVec F S_ .f32 × FVec F S_ .f32 × FVec F S_ .f32 × FVec F S_ .f32 × FVec F S_ .f32 :=
  have v53 : FVec F S_ .f32 := kMeanOf own
  have v60 : FVec F S_ .f32 := kMargin (kSumOf row) (kRelu (kTwoLess own))
  have v62 : FVec F S_ .f32 := Host.negf (kStdOf a1)
  have v65 : FVec F S_ .f32 := kNegMean a1
  (kTotal v53 v60 v62 v65, v53, v60, v62, v65, kMeanOf own)

section Stretches

variable (W : Valuation τ sig (Elt F))

theorem s3_v33 : StableHlo.after hostOps3 W (Proc.devRef .tc main_v33) = kRowOf (W (Proc.devRef .tc main_v32)) := by
  after_results
  rfl

theorem s31_v34 : StableHlo.after hostOps3_1 W (Proc.devRef .tc main_v34) = kTakeOf (W (Proc.devRef .tc main_arg3)) (W (Proc.devRef .tc main_v24)) := by
  after_results_simp
  rfl

theorem s32_v51 : StableHlo.after hostOps3_2 W (Proc.devRef .tc main_v51) = kDistOf (W (Proc.devRef .tc main_v0)) (W (Proc.devRef .tc main_v34)) := by
  after_results_simp
  rfl

theorem s32_v53 : StableHlo.after hostOps3_2 W (Proc.devRef .tc main_v53) = kMeanOf (kDistOf (W (Proc.devRef .tc main_v0)) (W (Proc.devRef .tc main_v34))) := by
  after_results_simp
  rfl

theorem s32_v54 : StableHlo.after hostOps3_2 W (Proc.devRef .tc main_v54) = kSumOf (W (Proc.devRef .tc main_v33)) := by
  after_results_simp
  rfl

theorem s32_v56 : StableHlo.after hostOps3_2 W (Proc.devRef .tc main_v56) = kTwoLess (kDistOf (W (Proc.devRef .tc main_v0)) (W (Proc.devRef .tc main_v34))) := by
  after_results_simp
  rfl

theorem s33_v57 : StableHlo.after hostOps3_3 W (Proc.devRef .tc main_v57) = kRelu (W (Proc.devRef .tc main_v56)) := by
  after_results
  rfl

theorem s34_v60 : StableHlo.after hostOps3_4 W (Proc.devRef .tc main_v60) = kMargin (W (Proc.devRef .tc main_v54)) (W (Proc.devRef .tc main_v57)) := by
  after_results
  rfl

theorem s34_c17 : StableHlo.after hostOps3_4 W (Proc.devRef .tc main_c_17) = (constantI S_ 32 1#32 : IVec S_ 32) := by
  after_results

theorem s35_v61 : StableHlo.after hostOps3_5 W (Proc.devRef .tc main_v61) = kStdAt (W (Proc.devRef .tc main_arg1)) (W (Proc.devRef .tc main_c_17)) := by
  after_results
  rfl

theorem s36_v62 : StableHlo.after hostOps3_6 W (Proc.devRef .tc main_v62) = (Host.negf (W (Proc.devRef .tc main_v61) : FVec F S_ .f32) : FVec F S_ .f32) := by
  after_results

theorem s36_v65 : StableHlo.after hostOps3_6 W (Proc.devRef .tc main_v65) = kNegMean (W (Proc.devRef .tc main_arg1)) := by
  after_results
  rfl

theorem s36_v72 : StableHlo.after hostOps3_6 W (Proc.devRef .tc main_v72)
    = kTotal (W (Proc.devRef .tc main_v53)) (W (Proc.devRef .tc main_v60)) (Host.negf (W (Proc.devRef .tc main_v61) : FVec F S_ .f32)) (kNegMean (W (Proc.devRef .tc main_arg1))) := by
  after_results
  rfl

theorem s36_v74 : StableHlo.after hostOps3_6 W (Proc.devRef .tc main_v74) = kMeanOf (W (Proc.devRef .tc main_v51)) := by
  after_results
  rfl

end Stretches

abbrev chain3 (W : Valuation τ sig (Elt F)) : Valuation τ sig (Elt F) :=
  StableHlo.after hostOps3_6 (StableHlo.after hostOps3_5 (StableHlo.after hostOps3_4 (StableHlo.after hostOps3_3
    (StableHlo.after hostOps3_2 (StableHlo.after hostOps3_1 (StableHlo.after hostOps3 W))))))

/-- Each result is read back through the seven stretches, last to first: a stretch computes a buffer or leaves it alone. -/
theorem after3_results (W : Valuation τ sig (Elt F)) :
    chain3 W (Proc.devRef .tc main_v72) = (kTailOf (W (Proc.devRef .tc main_arg1)) (kOwnOf (W (Proc.devRef .tc main_arg3)) (W (Proc.devRef .tc main_v0)) (W (Proc.devRef .tc main_v24))) (kRowOf (W (Proc.devRef .tc main_v32)))).1
    ∧ chain3 W (Proc.devRef .tc main_v53) = (kTailOf (W (Proc.devRef .tc main_arg1)) (kOwnOf (W (Proc.devRef .tc main_arg3)) (W (Proc.devRef .tc main_v0)) (W (Proc.devRef .tc main_v24))) (kRowOf (W (Proc.devRef .tc main_v32)))).2.1
    ∧ chain3 W (Proc.devRef .tc main_v60) = (kTailOf (W (Proc.devRef .tc main_arg1)) (kOwnOf (W (Proc.devRef .tc main_arg3)) (W (Proc.devRef .tc main_v0)) (W (Proc.devRef .tc main_v24))) (kRowOf (W (Proc.devRef .tc main_v32)))).2.2.1
    ∧ chain3 W (Proc.devRef .tc main_v62) = (kTailOf (W (Proc.devRef .tc main_arg1)) (kOwnOf (W (Proc.devRef .tc main_arg3)) (W (Proc.devRef .tc main_v0)) (W (Proc.devRef .tc main_v24))) (kRowOf (W (Proc.devRef .tc main_v32)))).2.2.2.1
    ∧ chain3 W (Proc.devRef .tc main_v65) = (kTailOf (W (Proc.devRef .tc main_arg1)) (kOwnOf (W (Proc.devRef .tc main_arg3)) (W (Proc.devRef .tc main_v0)) (W (Proc.devRef .tc main_v24))) (kRowOf (W (Proc.devRef .tc main_v32)))).2.2.2.2.1
    ∧ chain3 W (Proc.devRef .tc main_v74) = (kTailOf (W (Proc.devRef .tc main_arg1)) (kOwnOf (W (Proc.devRef .tc main_arg3)) (W (Proc.devRef .tc main_v0)) (W (Proc.devRef .tc main_v24))) (kRowOf (W (Proc.devRef .tc main_v32)))).2.2.2.2.2 := by
  unfold chain3
  rw [s36_v72, s36_v74, s36_v62, s36_v65, after_keep hostOps3_6_writes main_v53, after_keep hostOps3_6_writes main_v60,
    s35_v61, after_keep hostOps3_5_writes main_v53, after_keep hostOps3_5_writes main_v60, after_keep hostOps3_5_writes main_arg1, after_keep hostOps3_5_writes main_v51,
    s34_v60, s34_c17, after_keep hostOps3_4_writes main_v53, after_keep hostOps3_4_writes main_arg1, after_keep hostOps3_4_writes main_v51,
    s33_v57, after_keep hostOps3_3_writes main_v54, after_keep hostOps3_3_writes main_v53, after_keep hostOps3_3_writes main_arg1, after_keep hostOps3_3_writes main_v51,
    s32_v56, s32_v54, s32_v53, s32_v51, after_keep hostOps3_2_writes main_arg1,
    s31_v34, after_keep hostOps3_1_writes main_v0, after_keep hostOps3_1_writes main_v33, after_keep hostOps3_1_writes main_arg1,
    s3_v33, after_keep hostOps3_writes main_arg3, after_keep hostOps3_writes main_v24, after_keep hostOps3_writes main_v0, after_keep hostOps3_writes main_arg1]
  exact ⟨rfl, rfl, rfl, rfl, rfl, rfl⟩

end Cert.KernelIdeal.Hand

end
-- ==== Proof.KI.Results.lean ====
import proofs.«408336_j75806172774555_3_alg».proof.Proof.KI.Main
import proofs.«408336_j75806172774555_3_alg».proof.Proof.KI.HostA
import proofs.«408336_j75806172774555_3_alg».proof.Proof.KI.HostB
import proofs.«408336_j75806172774555_3_alg».proof.Proof.KI.HostC
import Idealize.ShloMosaic.PureOps.Ideal

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.StableHlo (after_of_writes_sub)

variable (m : (ℓ : Loc nD τ sig) → Buf (Elt Ideal) ℓ) (ρ : Dev nD → PrngReg)

-- What the three regions leave in their result arrays: the scaled pooled rows; the per-class sums and counts; the row sums.
def gnK (c : Dev nD) : FVec Ideal S4096x128 .f32 := (dat0 (F := Ideal) (VE0 m ρ) c).arrAt 1 cfg0.N
def o2K (c : Dev nD) : FVec Ideal S10240x128 .f32 := (dat1 (F := Ideal) (VE1 m ρ) c).arrAt 2 cfg1.N
def o3K (c : Dev nD) : FVec Ideal S10240x1 .f32 := (dat1 (F := Ideal) (VE1 m ρ) c).arrAt 3 cfg1.N
def o32K (c : Dev nD) : FVec Ideal S4096x1 .f32 := (dat2 (F := Ideal) (VE2 m ρ) c).arrAt 3 cfg2.N
-- The new class rows: the host stage between the second and third region, of the third argument and the sums and counts.
def prK (c : Dev nD) : FVec Ideal S10000x128 .f32 :=
  kProtosOf (m ((c.tc : Thread nD τ).loc main_arg2)) (kCntOf (o3K m ρ c)) (kSmOf (o2K m ρ c))

section
variable (c : Dev nD)

-- A buffer that nothing up to a boundary touches is there as launched.
theorem W3_arg (r : Ref sig .tc) (h3 : Kept3 r) (h0 : ∀ w, Pipeline.arrRef spec0 w ≠ r) :
    W3 m ρ c (Proc.devRef .tc r) = m ((c.tc : Thread nD τ).loc r) :=
  (keep3 m ρ c r h3).trans (exitW_of_ne _ _ c r h0)
theorem W11_arg (r : Ref sig .tc) (h11 : Kept11 r) (h3 : Kept3 r) (h0 : ∀ w, Pipeline.arrRef spec0 w ≠ r) :
    W11 m ρ c (Proc.devRef .tc r) = m ((c.tc : Thread nD τ).loc r) :=
  (keep11 m ρ c r h11).trans (W3_arg m ρ c r h3 h0)

theorem VE0_arg0 : VE0 m ρ c main_arg0 = m ((c.tc : Thread nD τ).loc main_arg0) := rfl

-- The second region is entered with the labels as one row and the first region's result, which it leaves as entered.
theorem VE1_v1 : VE1 m ρ c main_v1 = kLabRow (m ((c.tc : Thread nD τ).loc main_arg3)) :=
  (after1_v1 (W1 m ρ c)).trans (congrArg kLabRow (exitW_of_ne _ _ c main_arg3 (by decide)))
theorem VE1_v0 : VE1 m ρ c main_v0 = gnK m ρ c :=
  (after_of_writes_sub _ _ hostOps1_writes (by decide)).trans (exitW_arr _ _ c launch0.win.arr_inj 1)
theorem W3_v0 : W3 m ρ c (Proc.devRef .tc main_v0) = gnK m ρ c :=
  (exitW_arr _ _ c launch1.win.arr_inj 1).trans ((((dat1 (VE1 m ρ) c).arrAt_in 1 rfl _).trans (A_eq1 (VE1 m ρ) c 1)).trans (VE1_v0 m ρ c))

-- The new class rows, as the stretches compute them from what they find at the second region's exit.
theorem protos_W3 : kProtosOf (W3 m ρ c (Proc.devRef .tc main_arg2)) (kCntOf (W3 m ρ c (Proc.devRef .tc main_v2_1)))
    (kSmOf (W3 m ρ c (Proc.devRef .tc main_v2_0))) = prK m ρ c := by
  have h1 : W3 m ρ c (Proc.devRef .tc main_v2_1) = o3K m ρ c := exitW_arr _ _ c launch1.win.arr_inj 3
  have h0 : W3 m ρ c (Proc.devRef .tc main_v2_0) = o2K m ρ c := exitW_arr _ _ c launch1.win.arr_inj 2
  rw [W3_arg m ρ c main_arg2 (by decide) (by decide), h1, h0]; rfl

-- The third region is entered with the first region's result, the new class rows cast and padded, and their squared norms.
theorem VE2_v0 : VE2 m ρ c main_v0 = gnK m ρ c := (after2_v0 (W3 m ρ c)).trans (W3_v0 m ρ c)
theorem VE2_v26 : VE2 m ρ c main_v26 = kPadBf (prK m ρ c) := (after2_v26 (W3 m ρ c)).trans (congrArg kPadBf (protos_W3 m ρ c))
theorem VE2_v31 : VE2 m ρ c main_v31 = kP2Of (prK m ρ c) := (after2_v31 (W3 m ρ c)).trans (congrArg kP2Of (protos_W3 m ρ c))

theorem W11_v32 : W11 m ρ c (Proc.devRef .tc main_v32) = o32K m ρ c := exitW_arr _ _ c launch2.win.arr_inj 3
theorem W11_v0 : W11 m ρ c (Proc.devRef .tc main_v0) = gnK m ρ c :=
  (exitW_arr _ _ c launch2.win.arr_inj 0).trans ((((dat2 (VE2 m ρ) c).arrAt_in 0 rfl _).trans (A_eq2 (VE2 m ρ) c 0)).trans (VE2_v0 m ρ c))
theorem W11_v24 : W11 m ρ c (Proc.devRef .tc main_v24) = prK m ρ c :=
  (exitW_of_ne _ _ c main_v24 (by decide)).trans ((after2_v24 (W3 m ρ c)).trans (protos_W3 m ρ c))
end

-- The run ends with the six results the components of the last stage function of the regions' results, the arguments as launched.
theorem run_values : θ_run defs (onTc (τ := τ) (main (F := Ideal))) ⟨m, fun _ => 0, ρ⟩ (fun r => ∀ c : Dev nD,
      let T := kTailOf (m ((c.tc : Thread nD τ).loc main_arg1))
        (kOwnOf (m ((c.tc : Thread nD τ).loc main_arg3)) (gnK m ρ c) (prK m ρ c)) (kRowOf (o32K m ρ c))
      r.2.mem ((c.tc : Thread nD τ).loc main_v72) = T.1
      ∧ r.2.mem ((c.tc : Thread nD τ).loc main_v53) = T.2.1
      ∧ r.2.mem ((c.tc : Thread nD τ).loc main_v60) = T.2.2.1
      ∧ r.2.mem ((c.tc : Thread nD τ).loc main_v62) = T.2.2.2.1
      ∧ r.2.mem ((c.tc : Thread nD τ).loc main_v65) = T.2.2.2.2.1
      ∧ r.2.mem ((c.tc : Thread nD τ).loc main_v74) = T.2.2.2.2.2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
      obtain ⟨h72, h53, h60, h62, h65, h74⟩ := after3_results (W11 m ρ c)
      rw [W11_arg m ρ c main_arg1 (by decide) (by decide) (by decide), W11_arg m ρ c main_arg3 (by decide) (by decide) (by decide),
        W11_v0, W11_v24, W11_v32] at h72 h53 h60 h62 h65 h74
      exact ⟨(h c _ (mem_uc main_v72 (by decide))).trans h72,
        (h c _ (mem_uc main_v53 (by decide))).trans h53,
        (h c _ (mem_uc main_v60 (by decide))).trans h60,
        (h c _ (mem_uc main_v62 (by decide))).trans h62,
        (h c _ (mem_uc main_v65 (by decide))).trans h65,
        (h c _ (mem_uc main_v74 (by decide))).trans h74,
        (h c _ (mem_uc main_arg0 (by decide))).trans (W18_main_arg0 m ρ c),
        (h c _ (mem_uc main_arg1 (by decide))).trans (W18_main_arg1 m ρ c),
        (h c _ (mem_uc main_arg2 (by decide))).trans (W18_main_arg2 m ρ c),
        (h c _ (mem_uc main_arg3 (by decide))).trans (W18_main_arg3 m ρ c)⟩)
    (run_all m ρ)

end Cert.KernelIdeal.Hand

end
-- ==== Proof.Ref.Ops.lean ====
import proofs.«408336_j75806172774555_3_alg».proof.Proof.Gen.ReferenceIdeal
import Idealize.ShloMosaic.Lib.StableHlo.Run
import Idealize.ShloMosaic.Lib.Pipeline.Frame

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- @main's operations in order, a callee's operations in place of its call, as sixteen consecutive lists
abbrev sGn : List (HloOp τ sig (Elt F)) :=
  [ StableHlo.nullary main_cst (constant S_ .f32 0x00000000#32),
    StableHlo.binary main_arg0 main_cst main_v0 (fun x v => Host.reduceAdd x v reducesTo_S4096x64x128_S4096x128_d1 h_S_),
    StableHlo.nullary main_cst_0 (constant S_ .f32 0x42800000#32),
    StableHlo.unary main_cst_0 main_v1 (broadcastInDim S4096x128 ![] bcast_S_S4096x128),
    StableHlo.binary main_v0 main_v1 main_v2 Host.divf,
    StableHlo.TRef.binary (.of main_v2) (.of main_v2) main_call0.v0 mulf,
    StableHlo.TRef.nullary main_call0.cst (constant S_ .f32 0x00000000#32),
    StableHlo.TRef.binary main_call0.v0 main_call0.cst main_call0.v1 (fun x v => Host.reduceAdd x v reducesTo_S4096x128_S4096_d1 h_S_),
    StableHlo.TRef.unary main_call0.v1 main_call0.v2 (broadcastInDim S4096x1 ![0] bcast_S4096_S4096x1_0),
    StableHlo.TRef.unary main_call0.v2 main_call0.v3 Host.sqrt,
    StableHlo.nullary main_cst_1 (constant S_ .f32 0x2B8CBCCC#32),
    StableHlo.unary main_cst_1 main_v4 (broadcastInDim S4096x1 ![] bcast_S_S4096x1),
    StableHlo.binary main_v3 main_v4 main_v5 maximumf,
    StableHlo.unary main_v5 main_v6 (broadcastInDim S4096x128 ![0, 1] bcast_S4096x1_S4096x128_0_1),
    StableHlo.binary main_v2 main_v6 main_v7 Host.divf ]

abbrev sCnt : List (HloOp τ sig (Elt F)) :=
  [ StableHlo.nullary main_cst_2 (constant S_ .f32 0x3F800000#32),
    StableHlo.unary main_cst_2 main_v8 (broadcastInDim S4096 ![] bcast_S_S4096),
    StableHlo.nullary main_cst_3 (constant S_ .f32 0x00000000#32),
    StableHlo.unary main_cst_3 main_v9 (broadcastInDim S10000 ![] bcast_S_S10000),
    StableHlo.unary main_arg3 main_v10 (broadcastInDim S4096x1 ![0] bcast_S4096_S4096x1_0),
    StableHlo.ternary main_v9 main_v10 main_v8 main_v11 (fun x i u => Host.scatterAdd scatter_S10000_S4096x1_S4096_n_0_0_1 x i u) ]

abbrev sSm : List (HloOp τ sig (Elt F)) :=
  [ StableHlo.nullary main_cst_4 (constant S_ .f32 0x00000000#32),
    StableHlo.unary main_cst_4 main_v12 (broadcastInDim S10000x128 ![] bcast_S_S10000x128),
    StableHlo.unary main_arg3 main_v13 (broadcastInDim S4096x1 ![0] bcast_S4096_S4096x1_0),
    StableHlo.ternary main_v12 main_v13 main_v7 main_v14 (fun x i u => Host.scatterAdd scatter_S10000x128_S4096x1_S4096x128_1_0_0_1 x i u) ]

abbrev sPr : List (HloOp τ sig (Elt F)) :=
  [ StableHlo.nullary main_cst_5 (constant S_ .f32 0x3F800000#32),
    StableHlo.unary main_cst_5 main_v15 (broadcastInDim S10000 ![] bcast_S_S10000),
    StableHlo.binary main_v11 main_v15 main_v16 maximumf,
    StableHlo.unary main_v16 main_v17 (broadcastInDim S10000x1 ![0] bcast_S10000_S10000x1_0),
    StableHlo.unary main_v17 main_v18 (broadcastInDim S10000x128 ![0, 1] bcast_S10000x1_S10000x128_0_1),
    StableHlo.binary main_v14 main_v18 main_v19 Host.divf,
    StableHlo.nullary main_cst_6 (constant S_ .f32 0x3F666666#32),
    StableHlo.unary main_cst_6 main_v20 (broadcastInDim S10000x128 ![] bcast_S_S10000x128),
    StableHlo.binary main_v20 main_arg2 main_v21 mulf,
    StableHlo.nullary main_cst_7 (constant S_ .f32 0x3DCCCCCD#32),
    StableHlo.unary main_cst_7 main_v22 (broadcastInDim S10000x128 ![] bcast_S_S10000x128),
    StableHlo.binary main_v22 main_v19 main_v23 mulf,
    StableHlo.binary main_v21 main_v23 main_v24 addf,
    StableHlo.TRef.binary (.of main_v24) (.of main_v24) main_call1.v0 mulf,
    StableHlo.TRef.nullary main_call1.cst (constant S_ .f32 0x00000000#32),
    StableHlo.TRef.binary main_call1.v0 main_call1.cst main_call1.v1 (fun x v => Host.reduceAdd x v reducesTo_S10000x128_S10000_d1 h_S_),
    StableHlo.TRef.unary main_call1.v1 main_call1.v2 (broadcastInDim S10000x1 ![0] bcast_S10000_S10000x1_0),
    StableHlo.TRef.unary main_call1.v2 main_call1.v3 Host.sqrt,
    StableHlo.nullary main_cst_8 (constant S_ .f32 0x2B8CBCCC#32),
    StableHlo.unary main_cst_8 main_v26 (broadcastInDim S10000x1 ![] bcast_S_S10000x1),
    StableHlo.binary main_v25 main_v26 main_v27 maximumf,
    StableHlo.unary main_v27 main_v28 (broadcastInDim S10000x128 ![0, 1] bcast_S10000x1_S10000x128_0_1),
    StableHlo.binary main_v24 main_v28 main_v29 Host.divf,
    StableHlo.nullary main_cst_9 (constant S_ .f32 0x00000000#32),
    StableHlo.unary main_cst_9 main_v30 (broadcastInDim S10000 ![] bcast_S_S10000),
    StableHlo.binary main_v11 main_v30 main_v31 (cmpf .ogt),
    StableHlo.unary main_v31 main_v32 (broadcastInDim S10000x1 ![0] bcast_S10000_S10000x1_0),
    StableHlo.TRef.unary (.of main_v32 : StableHlo.TRef sig ⟨S10000x1, .i1⟩) main_call2.v0 (broadcastInDim S10000x128 ![0, 1] bcast_S10000x1_S10000x128_0_1),
    StableHlo.TRef.ternary main_call2.v0 (.of main_v29) (.of main_arg2) main_call2.v1 select ]

abbrev sDa : List (HloOp τ sig (Elt F)) :=
  [ StableHlo.binary main_v7 main_v7 main_v34 mulf,
    StableHlo.nullary main_cst_10 (constant S_ .f32 0x00000000#32),
    StableHlo.binary main_v34 main_cst_10 main_v35 (fun x v => Host.reduceAdd x v reducesTo_S4096x128_S4096_d1 h_S_),
    StableHlo.unary main_v35 main_v36 (broadcastInDim S4096x1 ![0] bcast_S4096_S4096x1_0),
    StableHlo.binary main_v33 main_v33 main_v37 mulf,
    StableHlo.nullary main_cst_11 (constant S_ .f32 0x00000000#32),
    StableHlo.binary main_v37 main_cst_11 main_v38 (fun x v => Host.reduceAdd x v reducesTo_S10000x128_S10000_d1 h_S_),
    StableHlo.unary main_v38 main_v39 (broadcastInDim S1x10000 ![1] bcast_S10000_S1x10000_1),
    StableHlo.unary main_v36 main_v40 (broadcastInDim S4096x10000 ![0, 1] bcast_S4096x1_S4096x10000_0_1),
    StableHlo.unary main_v39 main_v41 (broadcastInDim S4096x10000 ![0, 1] bcast_S1x10000_S4096x10000_0_1),
    StableHlo.binary main_v40 main_v41 main_v42 addf,
    StableHlo.nullary main_cst_12 (constant S_ .f32 0x40000000#32),
    StableHlo.unary main_cst_12 main_v43 (broadcastInDim S4096x128 ![] bcast_S_S4096x128),
    StableHlo.binary main_v43 main_v7 main_v44 mulf,
    StableHlo.unary main_v33 main_v45 (transpose S128x10000 [1, 0] · transposes_S10000x128_S128x10000_1_0) ]

abbrev sDb : List (HloOp τ sig (Elt F)) :=
  [ StableHlo.binary main_v44 main_v45 main_v46 (fun l r => Host.dotGeneral dot_S4096x128_S128x10000_S4096x10000_1_0_0_1_n_n none l r),
    StableHlo.binary main_v42 main_v46 main_v47 subf,
    StableHlo.nullary main_cst_13 (constant S_ .f32 0x00000000#32),
    StableHlo.unary main_cst_13 main_v48 (broadcastInDim S4096x10000 ![] bcast_S_S4096x10000),
    StableHlo.binary main_v47 main_v48 main_v49 maximumf,
    StableHlo.unary main_v49 main_v50 Host.sqrt ]

abbrev sIdx : List (HloOp τ sig (Elt F)) :=
  [ StableHlo.nullary main_v51 (iotaInDim S4096 32 0),
    StableHlo.nullary main_c (constantI S_ 32 0#32),
    StableHlo.unary main_c main_v52 (broadcastInDim S4096 ![] bcast_S_S4096),
    StableHlo.binary main_v51 main_v52 main_v53 (cmpi .slt),
    StableHlo.nullary main_c_14 (constantI S_ 32 4096#32),
    StableHlo.unary main_c_14 main_v54 (broadcastInDim S4096 ![] bcast_S_S4096),
    StableHlo.binary main_v51 main_v54 main_v55 addi,
    StableHlo.ternary main_v53 main_v55 main_v51 main_v56 select,
    StableHlo.nullary main_c_15 (constantI S_ 32 0#32),
    StableHlo.unary main_c_15 main_v57 (broadcastInDim S4096 ![] bcast_S_S4096),
    StableHlo.binary main_arg3 main_v57 main_v58 (cmpi .slt),
    StableHlo.nullary main_c_16 (constantI S_ 32 10000#32),
    StableHlo.unary main_c_16 main_v59 (broadcastInDim S4096 ![] bcast_S_S4096),
    StableHlo.binary main_arg3 main_v59 main_v60 addi,
    StableHlo.ternary main_v58 main_v60 main_arg3 main_v61 select,
    StableHlo.unary main_v56 main_v62 (broadcastInDim S4096x1 ![0] bcast_S4096_S4096x1_0),
    StableHlo.unary main_v61 main_v63 (broadcastInDim S4096x1 ![0] bcast_S4096_S4096x1_0) ]

abbrev sCat : List (HloOp τ sig (Elt F)) :=
  [ StableHlo.binary main_v62 main_v63 main_v64 (fun a b => concatenate S4096x2 1 [⟨S4096x1, a⟩, ⟨S4096x1, b⟩] concatenates_S4096x1_S4096x1_S4096x2_d1) ]

abbrev sGa : List (HloOp τ sig (Elt F)) :=
  [ StableHlo.binary main_v50 main_v64 main_v65 (fun x i => Host.gather gather_S4096x10000_S4096x2_S4096_n_01_n_n_01_1_11 x i) ]

abbrev sMo : List (HloOp τ sig (Elt F)) :=
  [ StableHlo.nullary main_cst_17 (constant S_ .f32 0x00000000#32),
    StableHlo.binary main_v65 main_cst_17 main_v66 (fun x v => Host.reduceAdd x v reducesTo_S4096_S_d0 h_S_),
    StableHlo.nullary main_cst_18 (constant S_ .f32 0x45800000#32),
    StableHlo.binary main_v66 main_cst_18 main_v67 Host.divf ]

abbrev sAr : List (HloOp τ sig (Elt F)) :=
  [ StableHlo.nullary main_cst_19 (constant S_ .f32 0x40000000#32),
    StableHlo.unary main_cst_19 main_v68 (broadcastInDim S4096x10000 ![] bcast_S_S4096x10000),
    StableHlo.binary main_v68 main_v50 main_v69 subf,
    StableHlo.TRef.nullary main_call3.cst (constant S_ .f32 0x00000000#32),
    StableHlo.TRef.unary main_call3.cst main_call3.v0 (broadcastInDim S4096x10000 ![] bcast_S_S4096x10000),
    StableHlo.TRef.binary (.of main_v69) main_call3.v0 main_call3.v1 maximumf,
    StableHlo.nullary main_cst_20 (constant S_ .f32 0x00000000#32),
    StableHlo.binary main_v70 main_cst_20 main_v71 (fun x v => Host.reduceAdd x v reducesTo_S4096x10000_S_d0_1 h_S_) ]

abbrev sTa : List (HloOp τ sig (Elt F)) :=
  [ StableHlo.nullary main_cst_21 (constant S_ .f32 0x40000000#32),
    StableHlo.unary main_cst_21 main_v72 (broadcastInDim S4096 ![] bcast_S_S4096),
    StableHlo.binary main_v72 main_v65 main_v73 subf,
    StableHlo.TRef.nullary main_call4.cst (constant S_ .f32 0x00000000#32),
    StableHlo.TRef.unary main_call4.cst main_call4.v0 (broadcastInDim S4096 ![] bcast_S_S4096),
    StableHlo.TRef.binary (.of main_v73) main_call4.v0 main_call4.v1 maximumf,
    StableHlo.nullary main_cst_22 (constant S_ .f32 0x00000000#32),
    StableHlo.binary main_v74 main_cst_22 main_v75 (fun x v => Host.reduceAdd x v reducesTo_S4096_S_d0 h_S_),
    StableHlo.binary main_v71 main_v75 main_v76 subf,
    StableHlo.nullary main_cst_23 (constant S_ .f32 0x4C1C3C00#32),
    StableHlo.binary main_v76 main_cst_23 main_v77 Host.divf ]

abbrev sStd : List (HloOp τ sig (Elt F)) :=
  [ StableHlo.nullary main_c_24 (constantI S_ 32 1#32),
    StableHlo.TRef.nullary main_call5.call0.cst (constant S_ .f32 0x00000000#32),
    StableHlo.TRef.binary (.of main_arg1) main_call5.call0.cst main_call5.call0.v0 (fun x v => Host.reduceAdd x v reducesTo_S4096_S_d0 h_S_),
    StableHlo.TRef.unary main_call5.call0.v0 main_call5.call0.v1 (broadcastInDim S1 ![] bcast_S_S1),
    StableHlo.TRef.nullary main_call5.call0.cst_0 (constant S_ .f32 0x45800000#32),
    StableHlo.TRef.unary main_call5.call0.cst_0 main_call5.call0.v2 (broadcastInDim S1 ![] bcast_S_S1),
    StableHlo.TRef.binary main_call5.call0.v1 main_call5.call0.v2 main_call5.call0.v3 Host.divf,
    StableHlo.TRef.unary main_call5.call0.v3 main_call5.call0.v4 (broadcastInDim S4096 ![0] bcast_S1_S4096_0),
    StableHlo.TRef.binary (.of main_arg1) main_call5.call0.v4 main_call5.call0.v5 subf,
    StableHlo.TRef.binary main_call5.call0.v5 main_call5.call0.v5 main_call5.call0.v6 mulf,
    StableHlo.TRef.unary (.of main_c_24) main_call5.call0.v7 (sitofp .f32),
    StableHlo.TRef.nullary main_call5.call0.cst_1 (constant S_ .f32 0x45800000#32),
    StableHlo.TRef.binary main_call5.call0.cst_1 main_call5.call0.v7 main_call5.call0.v8 subf,
    StableHlo.TRef.nullary main_call5.call0.cst_2 (constant S_ .f32 0x00000000#32),
    StableHlo.TRef.binary main_call5.call0.v6 main_call5.call0.cst_2 main_call5.call0.v9 (fun x v => Host.reduceAdd x v reducesTo_S4096_S_d0 h_S_),
    StableHlo.TRef.binary main_call5.call0.v9 main_call5.call0.v8 main_call5.call0.v10 Host.divf,
    StableHlo.TRef.nullary main_call5.call0.cst_3 (constant S_ .f32 0x00000000#32),
    StableHlo.TRef.binary main_call5.call0.v8 main_call5.call0.cst_3 main_call5.call0.v11 (cmpf .ogt),
    StableHlo.TRef.nullary main_call5.call0.cst_4 (constant S_ .f32 0x7FC00000#32),
    StableHlo.TRef.unary main_call5.call0.cst_4 main_call5.call0.call0.v0 id,
    StableHlo.TRef.ternary main_call5.call0.v11 main_call5.call0.v10 main_call5.call0.call0.v0 main_call5.call0.call0.v1 select,
    StableHlo.TRef.unary main_call5.call0.call0.v1 main_call5.v1 Host.sqrt ]

abbrev sTb : List (HloOp τ sig (Elt F)) :=
  [ StableHlo.unary main_v78 main_v79 Host.negf,
    StableHlo.nullary main_cst_25 (constant S_ .f32 0x00000000#32),
    StableHlo.binary main_arg1 main_cst_25 main_v80 (fun x v => Host.reduceAdd x v reducesTo_S4096_S_d0 h_S_),
    StableHlo.nullary main_cst_26 (constant S_ .f32 0x45800000#32),
    StableHlo.binary main_v80 main_cst_26 main_v81 Host.divf,
    StableHlo.unary main_v81 main_v82 Host.negf ]

abbrev sTc : List (HloOp τ sig (Elt F)) :=
  [ StableHlo.nullary main_cst_27 (constant S_ .f32 0x3F800000#32),
    StableHlo.binary main_cst_27 main_v67 main_v83 mulf,
    StableHlo.nullary main_cst_28 (constant S_ .f32 0x40000000#32),
    StableHlo.binary main_cst_28 main_v77 main_v84 mulf,
    StableHlo.binary main_v83 main_v84 main_v85 addf,
    StableHlo.nullary main_cst_29 (constant S_ .f32 0x3F000000#32),
    StableHlo.binary main_cst_29 main_v79 main_v86 mulf,
    StableHlo.binary main_v85 main_v86 main_v87 addf ]

abbrev sTd : List (HloOp τ sig (Elt F)) :=
  [ StableHlo.nullary main_cst_30 (constant S_ .f32 0x3DCCCCCD#32),
    StableHlo.binary main_cst_30 main_v82 main_v88 mulf,
    StableHlo.binary main_v87 main_v88 main_v89 addf,
    StableHlo.nullary main_cst_31 (constant S_ .f32 0x00000000#32),
    StableHlo.binary main_v65 main_cst_31 main_v90 (fun x v => Host.reduceAdd x v reducesTo_S4096_S_d0 h_S_),
    StableHlo.nullary main_cst_32 (constant S_ .f32 0x45800000#32),
    StableHlo.binary main_v90 main_cst_32 main_v91 Host.divf ]

-- `W` lists, in order, the reference each operation of `l` writes
abbrev Writes (l : List (HloOp τ sig (Elt F))) (W : List (Ref sig .tc)) : Prop :=
  List.Forall₂ (fun op y => op.writes = {Proc.devRef (τ := τ) .tc y}) l W

-- a reference outside `W` keeps its contents through `l`
theorem Writes.keep {l : List (HloOp τ sig (Elt F))} {W : List (Ref sig .tc)} (h : Writes l W)
    (V : Valuation τ sig (Elt F)) (r : Ref sig .tc) (hr : r ∉ W) :
    after l V (no_index (Proc.devRef .tc r)) = V (Proc.devRef .tc r) := by
  induction h generalizing V with
  | nil => rfl
  | @cons op y _ _ e _ ih =>
    exact (ih _ fun hm => hr (List.mem_cons_of_mem _ hm)).trans (op.result_of_not_mem V (by
      rw [e, Finset.mem_singleton]; exact devRef_ne_of_ne fun e' => hr (e' ▸ List.mem_cons_self)))

theorem sGn_writes : Writes (F := F) sGn [main_cst, main_v0, main_cst_0, main_v1, main_v2, main_call0_v0, main_call0_cst, main_call0_v1, main_call0_v2, main_v3, main_cst_1, main_v4, main_v5, main_v6, main_v7] := by repeat' constructor
theorem sCnt_writes : Writes (F := F) sCnt [main_cst_2, main_v8, main_cst_3, main_v9, main_v10, main_v11] := by repeat' constructor
theorem sSm_writes : Writes (F := F) sSm [main_cst_4, main_v12, main_v13, main_v14] := by repeat' constructor
theorem sPr_writes : Writes (F := F) sPr [main_cst_5, main_v15, main_v16, main_v17, main_v18, main_v19, main_cst_6, main_v20, main_v21, main_cst_7, main_v22, main_v23, main_v24, main_call1_v0, main_call1_cst, main_call1_v1, main_call1_v2, main_v25, main_cst_8, main_v26, main_v27, main_v28, main_v29, main_cst_9, main_v30, main_v31, main_v32, main_call2_v0, main_v33] := by repeat' constructor
theorem sDa_writes : Writes (F := F) sDa [main_v34, main_cst_10, main_v35, main_v36, main_v37, main_cst_11, main_v38, main_v39, main_v40, main_v41, main_v42, main_cst_12, main_v43, main_v44, main_v45] := by repeat' constructor
theorem sDb_writes : Writes (F := F) sDb [main_v46, main_v47, main_cst_13, main_v48, main_v49, main_v50] := by repeat' constructor
theorem sIdx_writes : Writes (F := F) sIdx [main_v51, main_c, main_v52, main_v53, main_c_14, main_v54, main_v55, main_v56, main_c_15, main_v57, main_v58, main_c_16, main_v59, main_v60, main_v61, main_v62, main_v63] := by repeat' constructor
theorem sCat_writes : Writes (F := F) sCat [main_v64] := by repeat' constructor
theorem sGa_writes : Writes (F := F) sGa [main_v65] := by repeat' constructor
theorem sMo_writes : Writes (F := F) sMo [main_cst_17, main_v66, main_cst_18, main_v67] := by repeat' constructor
theorem sAr_writes : Writes (F := F) sAr [main_cst_19, main_v68, main_v69, main_call3_cst, main_call3_v0, main_v70, main_cst_20, main_v71] := by repeat' constructor
theorem sTa_writes : Writes (F := F) sTa [main_cst_21, main_v72, main_v73, main_call4_cst, main_call4_v0, main_v74, main_cst_22, main_v75, main_v76, main_cst_23, main_v77] := by repeat' constructor
theorem sStd_writes : Writes (F := F) sStd [main_c_24, main_call5_call0_cst, main_call5_call0_v0, main_call5_call0_v1, main_call5_call0_cst_0, main_call5_call0_v2, main_call5_call0_v3, main_call5_call0_v4, main_call5_call0_v5, main_call5_call0_v6, main_call5_call0_v7, main_call5_call0_cst_1, main_call5_call0_v8, main_call5_call0_cst_2, main_call5_call0_v9, main_call5_call0_v10, main_call5_call0_cst_3, main_call5_call0_v11, main_call5_call0_cst_4, main_call5_call0_call0_v0, main_call5_v0, main_v78] := by repeat' constructor
theorem sTb_writes : Writes (F := F) sTb [main_v79, main_cst_25, main_v80, main_cst_26, main_v81, main_v82] := by repeat' constructor
theorem sTc_writes : Writes (F := F) sTc [main_cst_27, main_v83, main_cst_28, main_v84, main_v85, main_cst_29, main_v86, main_v87] := by repeat' constructor
theorem sTd_writes : Writes (F := F) sTd [main_cst_30, main_v88, main_v89, main_cst_31, main_v90, main_cst_32, main_v91] := by repeat' constructor

def ops_part0 : List (HloOp τ sig (Elt F)) := sGn ++ (sCnt ++ (sSm ++ (sPr ++ sDa)))
def ops_part1 : List (HloOp τ sig (Elt F)) := sDb ++ (sIdx ++ (sCat ++ (sGa ++ (sMo ++ (sAr ++ (sTa ++ (sStd ++ (sTb ++ sTc))))))))
def ops_part2 : List (HloOp τ sig (Elt F)) := sTd
def ops : List (HloOp τ sig (Elt F)) := ops_part0 ++ (ops_part1 ++ ops_part2)

-- each window of @main is its straight line, by computation: a call runs its callee's operations, and sequencing reassociates
theorem main_part0_eq (c : Dev nD) : main_part0 (F := F) c = seq ops_part0 := rfl

theorem main_part1_eq (c : Dev nD) : main_part1 (F := F) c = seq ops_part1 := rfl

theorem main_part2_eq (c : Dev nD) : main_part2 (F := F) c = seq ops_part2 := rfl

theorem main_eq (c : Dev nD) : main (F := F) c = seq ops := by
  simp only [main]
  rw [main_part0_eq c, main_part1_eq c, main_part2_eq c, ← seq_append, ← seq_append]
  rfl

theorem ops_sub : (ops : List (HloOp τ sig (Elt F))).Forall fun op => op.bufs ⊆ tcRefs τ sig := by
  simp only [ops, ops_part0, ops_part1, ops_part2, List.forall_append, List.Forall, nullary_bufs_sub, unary_bufs_sub, binary_bufs_sub, ternary_bufs_sub, and_self]

theorem ops_fresh : (ops : List (HloOp τ sig (Elt F))).Forall fun op => op.fresh = ∅ := by
  simp only [ops, ops_part0, ops_part1, ops_part2, List.forall_append, List.Forall]
  and_intros <;> rfl

theorem after_ops (V : Valuation τ sig (Elt F)) :
    after ops V = after sTd (after sTc (after sTb (after sStd (after sTa (after sAr (after sMo (after sGa (after sCat (after sIdx (after sDb (after sDa (after sPr (after sSm (after sCnt (after sGn (V)))))))))))))))) := by
  simp only [ops, ops_part0, ops_part1, ops_part2, after_append]

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq (by decide) (by decide) defs main (fun _ => ops) main_eq (fun _ => ops_sub) m ρ
    fun _ => List.forall_iff_forall_mem.mp ops_fresh

end Cert.ReferenceIdeal.Hand

end
-- ==== Proof.Ref.Run.lean ====
import proofs.«408336_j75806172774555_3_alg».proof.Proof.Ref.Ops

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- the mean over the middle axis (sum / 64), each row divided by max(its norm, 1e-12)
def gnOf (a0 : FVec F S4096x64x128 .f32) : FVec F S4096x128 .f32 :=
  let v2 : FVec F S4096x128 .f32 := Host.divf (Host.reduceAdd a0 (constant (F := F) S_ .f32 0x00000000#32) reducesTo_S4096x64x128_S4096x128_d1 h_S_) (broadcastInDim S4096x128 ![] bcast_S_S4096x128 (constant (F := F) S_ .f32 0x42800000#32))
  let v3 : FVec F S4096x1 .f32 := Host.sqrt (broadcastInDim S4096x1 ![0] bcast_S4096_S4096x1_0 (Host.reduceAdd (mulf v2 v2) (constant (F := F) S_ .f32 0x00000000#32) reducesTo_S4096x128_S4096_d1 h_S_))
  let v5 : FVec F S4096x1 .f32 := maximumf v3 (broadcastInDim S4096x1 ![] bcast_S_S4096x1 (constant (F := F) S_ .f32 0x2B8CBCCC#32))
  Host.divf v2 (broadcastInDim S4096x128 ![0, 1] bcast_S4096x1_S4096x128_0_1 v5)

-- ones scatter-added at the class indices: the class counts
def cntOf (a3 : IVec S4096 32) : FVec F S10000 .f32 :=
  Host.scatterAdd scatter_S10000_S4096x1_S4096_n_0_0_1
    (broadcastInDim S10000 ![] bcast_S_S10000 (constant (F := F) S_ .f32 0x00000000#32))
    (broadcastInDim S4096x1 ![0] bcast_S4096_S4096x1_0 a3)
    (broadcastInDim S4096 ![] bcast_S_S4096 (constant (F := F) S_ .f32 0x3F800000#32))

-- the rows scatter-added at the class indices: the class sums
def smOf (a3 : IVec S4096 32) (gn : FVec F S4096x128 .f32) : FVec F S10000x128 .f32 :=
  Host.scatterAdd scatter_S10000x128_S4096x1_S4096x128_1_0_0_1
    (broadcastInDim S10000x128 ![] bcast_S_S10000x128 (constant (F := F) S_ .f32 0x00000000#32))
    (broadcastInDim S4096x1 ![0] bcast_S4096_S4096x1_0 a3)
    gn

-- 0.9 · old + 0.1 · (sum / max(count, 1)), each row divided by max(its norm, 1e-12), kept where count > 0, else the old row
def protosOf (a2 : FVec F S10000x128 .f32) (cnt : FVec F S10000 .f32) (sm : FVec F S10000x128 .f32) : FVec F S10000x128 .f32 :=
  let v19 : FVec F S10000x128 .f32 := Host.divf sm (broadcastInDim S10000x128 ![0, 1] bcast_S10000x1_S10000x128_0_1 (broadcastInDim S10000x1 ![0] bcast_S10000_S10000x1_0 (maximumf cnt (broadcastInDim S10000 ![] bcast_S_S10000 (constant (F := F) S_ .f32 0x3F800000#32)))))
  let v24 : FVec F S10000x128 .f32 := addf (mulf (broadcastInDim S10000x128 ![] bcast_S_S10000x128 (constant (F := F) S_ .f32 0x3F666666#32)) a2) (mulf (broadcastInDim S10000x128 ![] bcast_S_S10000x128 (constant (F := F) S_ .f32 0x3DCCCCCD#32)) v19)
  let v25 : FVec F S10000x1 .f32 := Host.sqrt (broadcastInDim S10000x1 ![0] bcast_S10000_S10000x1_0 (Host.reduceAdd (mulf v24 v24) (constant (F := F) S_ .f32 0x00000000#32) reducesTo_S10000x128_S10000_d1 h_S_))
  let v29 : FVec F S10000x128 .f32 := Host.divf v24 (broadcastInDim S10000x128 ![0, 1] bcast_S10000x1_S10000x128_0_1 (maximumf v25 (broadcastInDim S10000x1 ![] bcast_S_S10000x1 (constant (F := F) S_ .f32 0x2B8CBCCC#32))))
  select (broadcastInDim S10000x128 ![0, 1] bcast_S10000x1_S10000x128_0_1 (broadcastInDim S10000x1 ![0] bcast_S10000_S10000x1_0 (cmpf .ogt cnt (broadcastInDim S10000 ![] bcast_S_S10000 (constant (F := F) S_ .f32 0x00000000#32))))) v29 a2

-- sqrt(max(|g|² + |p|² - (2 g) · pᵀ, 0))
def distOf (gn : FVec F S4096x128 .f32) (pr : FVec F S10000x128 .f32) : FVec F S4096x10000 .f32 :=
  let v42 : FVec F S4096x10000 .f32 := addf
    (broadcastInDim S4096x10000 ![0, 1] bcast_S4096x1_S4096x10000_0_1 (broadcastInDim S4096x1 ![0] bcast_S4096_S4096x1_0 (Host.reduceAdd (mulf gn gn) (constant (F := F) S_ .f32 0x00000000#32) reducesTo_S4096x128_S4096_d1 h_S_)))
    (broadcastInDim S4096x10000 ![0, 1] bcast_S1x10000_S4096x10000_0_1 (broadcastInDim S1x10000 ![1] bcast_S10000_S1x10000_1 (Host.reduceAdd (mulf pr pr) (constant (F := F) S_ .f32 0x00000000#32) reducesTo_S10000x128_S10000_d1 h_S_)))
  let v46 : FVec F S4096x10000 .f32 := Host.dotGeneral dot_S4096x128_S128x10000_S4096x10000_1_0_0_1_n_n none
    (mulf (broadcastInDim S4096x128 ![] bcast_S_S4096x128 (constant (F := F) S_ .f32 0x40000000#32)) gn)
    (transpose S128x10000 [1, 0] pr transposes_S10000x128_S128x10000_1_0)
  Host.sqrt (maximumf (subf v42 v46) (broadcastInDim S4096x10000 ![] bcast_S_S4096x10000 (constant (F := F) S_ .f32 0x00000000#32)))

-- the row counter 0 … 4095, plus 4096 where negative, as a column
def rowIdx : IVec S4096x1 32 :=
  let io : IVec S4096 32 := iotaInDim S4096 32 0
  broadcastInDim S4096x1 ![0] bcast_S4096_S4096x1_0 (select (cmpi .slt io (broadcastInDim S4096 ![] bcast_S_S4096 (constantI S_ 32 0#32))) (addi io (broadcastInDim S4096 ![] bcast_S_S4096 (constantI S_ 32 4096#32))) io)

-- the class index, plus 10000 where negative, as a column
def colIdx (a3 : IVec S4096 32) : IVec S4096x1 32 :=
  broadcastInDim S4096x1 ![0] bcast_S4096_S4096x1_0 (select (cmpi .slt a3 (broadcastInDim S4096 ![] bcast_S_S4096 (constantI S_ 32 0#32))) (addi a3 (broadcastInDim S4096 ![] bcast_S_S4096 (constantI S_ 32 10000#32))) a3)

-- the (row, class) pairs
def idxOf (a3 : IVec S4096 32) : IVec S4096x2 32 :=
  concatenate S4096x2 1 [⟨S4096x1, rowIdx⟩, ⟨S4096x1, colIdx a3⟩] concatenates_S4096x1_S4096x1_S4096x2_d1

-- each row's distance to its own class
def ownOf (a3 : IVec S4096 32) (dist : FVec F S4096x10000 .f32) : FVec F S4096 .f32 :=
  Host.gather gather_S4096x10000_S4096x2_S4096_n_01_n_n_01_1_11 dist (idxOf a3)

-- max(2 - distance, 0) summed over all pairs
def allReluOf (dist : FVec F S4096x10000 .f32) : FVec F S_ .f32 :=
  Host.reduceAdd (maximumf (subf (broadcastInDim S4096x10000 ![] bcast_S_S4096x10000 (constant (F := F) S_ .f32 0x40000000#32)) dist) (broadcastInDim S4096x10000 ![] bcast_S_S4096x10000 (constant (F := F) S_ .f32 0x00000000#32))) (constant (F := F) S_ .f32 0x00000000#32) reducesTo_S4096x10000_S_d0_1 h_S_

-- the sum of 4096 values, over 4096
def meanOf (x : FVec F S4096 .f32) : FVec F S_ .f32 :=
  Host.divf (Host.reduceAdd x (constant (F := F) S_ .f32 0x00000000#32) reducesTo_S4096_S_d0 h_S_) (constant (F := F) S_ .f32 0x45800000#32)

-- (the sum over all pairs less that of max(2 - own, 0)) / (4096 · 9999)
def hingeOf (own : FVec F S4096 .f32) (allrelu : FVec F S_ .f32) : FVec F S_ .f32 :=
  Host.divf (subf allrelu (Host.reduceAdd (maximumf (subf (broadcastInDim S4096 ![] bcast_S_S4096 (constant (F := F) S_ .f32 0x40000000#32)) own) (broadcastInDim S4096 ![] bcast_S_S4096 (constant (F := F) S_ .f32 0x00000000#32))) (constant (F := F) S_ .f32 0x00000000#32) reducesTo_S4096_S_d0 h_S_)) (constant (F := F) S_ .f32 0x4C1C3C00#32)

-- the square root of the sample variance (divisor 4096 - 1, kept where that is positive)
def stdOf (a1 : FVec F S4096 .f32) : FVec F S_ .f32 :=
  let mu : FVec F S4096 .f32 := broadcastInDim S4096 ![0] bcast_S1_S4096_0 (Host.divf (broadcastInDim S1 ![] bcast_S_S1 (Host.reduceAdd a1 (constant (F := F) S_ .f32 0x00000000#32) reducesTo_S4096_S_d0 h_S_)) (broadcastInDim S1 ![] bcast_S_S1 (constant (F := F) S_ .f32 0x45800000#32)))
  let dv : FVec F S4096 .f32 := subf a1 mu
  let n1 : FVec F S_ .f32 := subf (constant (F := F) S_ .f32 0x45800000#32) (sitofp .f32 (constantI S_ 32 1#32))
  Host.sqrt (select (cmpf .ogt n1 (constant (F := F) S_ .f32 0x00000000#32)) (Host.divf (Host.reduceAdd (mulf dv dv) (constant (F := F) S_ .f32 0x00000000#32) reducesTo_S4096_S_d0 h_S_) n1) (id (constant (F := F) S_ .f32 0x7FC00000#32)))

-- 1 · x + 2 · y + 0.5 · z + 0.1 · w
def totalOf (x y z w : FVec F S_ .f32) : FVec F S_ .f32 :=
  addf (addf (addf (mulf (constant (F := F) S_ .f32 0x3F800000#32) x) (mulf (constant (F := F) S_ .f32 0x40000000#32) y)) (mulf (constant (F := F) S_ .f32 0x3F000000#32) z)) (mulf (constant (F := F) S_ .f32 0x3DCCCCCD#32) w)

-- the six results in return order
def tailOf (a1 : FVec F S4096 .f32) (own : FVec F S4096 .f32) (allrelu : FVec F S_ .f32) :
    FVec F S_ .f32 × FVec F S_ .f32 × FVec F S_ .f32 × FVec F S_ .f32 × FVec F S_ .f32 × FVec F S_ .f32 :=
  (totalOf (meanOf own) (hingeOf own allrelu) (Host.negf (stdOf a1)) (Host.negf (meanOf a1)),
   meanOf own, hingeOf own allrelu, Host.negf (stdOf a1), Host.negf (meanOf a1), meanOf own)

-- each list's result, from any contents
section Lists
variable (V : Valuation τ sig (Elt F))

theorem sGn_res : after sGn V (no_index (Proc.devRef .tc main_v7)) = gnOf (V (Proc.devRef .tc main_arg0)) := by
  simp only [sGn]; after_results_simp; rfl
theorem sCnt_res : after sCnt V (no_index (Proc.devRef .tc main_v11)) = cntOf (V (Proc.devRef .tc main_arg3)) := by
  simp only [sCnt]; after_results_simp; rfl
theorem sSm_res : after sSm V (no_index (Proc.devRef .tc main_v14)) = smOf (V (Proc.devRef .tc main_arg3)) (V (Proc.devRef .tc main_v7)) := by
  simp only [sSm]; after_results_simp; rfl
theorem sPr_res : after sPr V (no_index (Proc.devRef .tc main_v33)) = protosOf (V (Proc.devRef .tc main_arg2)) (V (Proc.devRef .tc main_v11)) (V (Proc.devRef .tc main_v14)) := by
  simp only [sPr]; after_results_simp; rfl
theorem sD_res : after sDb (after sDa V) (no_index (Proc.devRef .tc main_v50)) = distOf (V (Proc.devRef .tc main_v7)) (V (Proc.devRef .tc main_v33)) := by
  simp only [sDa, sDb]; after_results_simp; rfl
theorem sCat_res : after sCat (after sIdx V) (no_index (Proc.devRef .tc main_v64)) = idxOf (V (Proc.devRef .tc main_arg3)) := by
  simp only [sIdx, sCat]; after_results_simp; rfl
theorem sGa_res : after sGa V (no_index (Proc.devRef .tc main_v65)) = Host.gather gather_S4096x10000_S4096x2_S4096_n_01_n_n_01_1_11 (V (Proc.devRef .tc main_v50)) (V (Proc.devRef .tc main_v64)) := by
  simp only [sGa]; after_results_simp
theorem sMo_res : after sMo V (no_index (Proc.devRef .tc main_v67)) = meanOf (V (Proc.devRef .tc main_v65)) := by
  simp only [sMo]; after_results_simp; rfl
theorem sAr_res : after sAr V (no_index (Proc.devRef .tc main_v71)) = allReluOf (V (Proc.devRef .tc main_v50)) := by
  simp only [sAr]; after_results_simp; rfl
theorem sTa_res : after sTa V (no_index (Proc.devRef .tc main_v77)) = hingeOf (V (Proc.devRef .tc main_v65)) (V (Proc.devRef .tc main_v71)) := by
  simp only [sTa]; after_results_simp; rfl
theorem sStd_res : after sStd V (no_index (Proc.devRef .tc main_v78)) = stdOf (V (Proc.devRef .tc main_arg1)) := by
  simp only [sStd]; after_results_simp; rfl
theorem sTb_res79 : after sTb V (no_index (Proc.devRef .tc main_v79)) = Host.negf (V (Proc.devRef .tc main_v78)) := by
  simp only [sTb]; after_results_simp
theorem sTb_res82 : after sTb V (no_index (Proc.devRef .tc main_v82)) = Host.negf (meanOf (V (Proc.devRef .tc main_arg1))) := by
  simp only [sTb]; after_results_simp; rfl
theorem sTc_res : after sTc V (no_index (Proc.devRef .tc main_v87)) = addf (addf (mulf (constant (F := F) S_ .f32 0x3F800000#32) (V (Proc.devRef .tc main_v67))) (mulf (constant (F := F) S_ .f32 0x40000000#32) (V (Proc.devRef .tc main_v77)))) (mulf (constant (F := F) S_ .f32 0x3F000000#32) (V (Proc.devRef .tc main_v79))) := by
  simp only [sTc]; after_results_simp
theorem sTd_res89 : after sTd V (no_index (Proc.devRef .tc main_v89)) = addf (V (Proc.devRef .tc main_v87)) (mulf (constant (F := F) S_ .f32 0x3DCCCCCD#32) (V (Proc.devRef .tc main_v82))) := by
  simp only [sTd]; after_results_simp
theorem sTd_res91 : after sTd V (no_index (Proc.devRef .tc main_v91)) = meanOf (V (Proc.devRef .tc main_v65)) := by
  simp only [sTd]; after_results_simp; rfl

end Lists

theorem run (m : (ℓ : Loc nD τ sig) → Buf (Elt F) ℓ) (ρ : Dev nD → PrngReg) :
    θ_run defs (onTc (τ := τ) (main (F := F))) ⟨m, fun _ => 0, ρ⟩ (fun r => ∀ c : Dev nD,
      let a0 := m ((c.tc : Thread nD τ).loc main_arg0)
      let a1 := m ((c.tc : Thread nD τ).loc main_arg1)
      let a2 := m ((c.tc : Thread nD τ).loc main_arg2)
      let a3 := m ((c.tc : Thread nD τ).loc main_arg3)
      let gn := gnOf a0
      let pr := protosOf a2 (cntOf a3) (smOf a3 gn)
      let dist := distOf gn pr
      let T := tailOf a1 (ownOf a3 dist) (allReluOf dist)
      r.2.mem ((c.tc : Thread nD τ).loc main_v89) = T.1
      ∧ r.2.mem ((c.tc : Thread nD τ).loc main_v67) = T.2.1
      ∧ r.2.mem ((c.tc : Thread nD τ).loc main_v77) = T.2.2.1
      ∧ r.2.mem ((c.tc : Thread nD τ).loc main_v79) = T.2.2.2.1
      ∧ r.2.mem ((c.tc : Thread nD τ).loc main_v82) = T.2.2.2.2.1
      ∧ r.2.mem ((c.tc : Thread nD τ).loc main_v91) = T.2.2.2.2.2
      ∧ r.2.mem ((c.tc : Thread nD τ).loc main_arg0) = a0
      ∧ r.2.mem ((c.tc : Thread nD τ).loc main_arg1) = a1
      ∧ r.2.mem ((c.tc : Thread nD τ).loc main_arg2) = a2
      ∧ r.2.mem ((c.tc : Thread nD τ).loc main_arg3) = a3) :=
  (θ_run defs _ _).mono (fun _ h c => by
      intro a0 a1 a2 a3 gn pr dist T
      simp only [h c, after_ops]
      and_intros <;> simp (disch := decide) only [sGn_res, sCnt_res, sSm_res, sPr_res, sD_res, sCat_res, sGa_res, sMo_res, sAr_res, sTa_res, sStd_res, sTb_res79, sTb_res82, sTc_res, sTd_res89, sTd_res91, sGn_writes.keep, sCnt_writes.keep, sSm_writes.keep, sPr_writes.keep, sDa_writes.keep, sDb_writes.keep, sIdx_writes.keep, sCat_writes.keep, sGa_writes.keep, sMo_writes.keep, sAr_writes.keep, sTa_writes.keep, sStd_writes.keep, sTb_writes.keep, sTc_writes.keep, sTd_writes.keep] <;> rfl)
    (run_main m ρ)

end Cert.ReferenceIdeal.Hand

end
-- ==== Proof.PreLabels.lean ====
import proofs.«408336_j75806172774555_3_alg».proof.Pre_finite_inputs
import proofs.«408336_j75806172774555_3_alg».proof.Proof.Gen.Pre_finite_inputs
import Idealize.ShloMosaic.Lib.ReduceAll
import Idealize.ShloMosaic.Lib.StableHlo.Predicate
import Idealize.ShloMosaic.Lib.ValueIdx

noncomputable section

namespace Cert.PreLabels

open Idealize.ShloMosaic Idealize.ShloMosaic.ValueIdx

/-- The precondition's last conjunct conjoins, over all labels, a signed comparison with 0 and one with 10000. -/
theorem labels_in_range [Cert.Pre_finite_inputs.Facts] {F : FTy → Type} [FloatOps F]
    (a0 : FVec F Cert.Pre_finite_inputs.S4096x64x128 .f32) (a1 : FVec F Cert.Pre_finite_inputs.S4096 .f32)
    (a2 : FVec F Cert.Pre_finite_inputs.S10000x128 .f32) (a3 : IVec Cert.Pre_finite_inputs.S4096 32)
    (h : Cert.Pre_finite_inputs.fn (F := F) a0 a1 a2 a3 = (fun _ => 1#1)) (b : Fin 4096) :
    0 ≤ (a3 (ValueIdx.ix1 b)).toInt ∧ (a3 (ValueIdx.ix1 b)).toInt < 10000 := by
  have e := congrFun h ValueIdx.ix0
  dsimp only [Cert.Pre_finite_inputs.fn, Cert.Pre_finite_inputs.fn_part1] at e
  obtain ⟨h0, h1⟩ := IntOp.andi_eq_one.1 (Host.reduce_andi_all _ _ _ _ _ (IntOp.andi_eq_one.1 e).2 (ValueIdx.ix1 b))
  exact ⟨IntOp.cmpi_sge.1 h0, IntOp.cmpi_slt.1 h1⟩

end Cert.PreLabels

end
-- ==== Proof.Spec.lean ====
import Idealize.ShloMosaic.PureOps.Ideal
import Idealize.ShloMosaic.Lib.ValueIdx

noncomputable section

namespace Cert.Spec

open Idealize.ShloMosaic Idealize.ShloMosaic.ValueIdx

/-- The guard under the norm, the binary32 word nearest 1e-12; the number of pooled positions; the margin. -/
def eps : EReal := Ideal.ofBits .f32 0x2B8CBCCC#32
def c64 : EReal := Ideal.ofBits .f32 0x42800000#32
def two : EReal := Ideal.ofBits .f32 0x40000000#32

/-- The mean over the 64 positions of item `b`, feature `d`. -/
def pooled (x : (⟨3, ![4096, 64, 128]⟩ : Shape).Idx → EReal) (b : Fin 4096) (d : Fin 128) : EReal :=
  Ideal.div (∑ s : Fin 64, x (ix3 b s d)) c64

def sqn {K : Nat} (v : Fin K → EReal) : EReal := ∑ k : Fin K, v k * v k

/-- The pooled row divided by the larger of its norm and the guard. -/
def gn (x : (⟨3, ![4096, 64, 128]⟩ : Shape).Idx → EReal) (b : Fin 4096) (d : Fin 128) : EReal :=
  Ideal.div (pooled x b d) (max (Ideal.sqrt (sqn (fun k => pooled x b k))) eps)

/-- The sum of `v` over the positions whose label word reads, signed, as the class `n`. -/
def segSum {E : Nat} (lab : Fin E → BitVec 32) (v : Fin E → EReal) (n : Nat) : EReal :=
  ∑ e ∈ Finset.univ.filter (fun e : Fin E => (lab e).toInt = (n : ℤ)), v e

def segCnt {E : Nat} (lab : Fin E → BitVec 32) (n : Nat) : EReal := segSum lab (fun _ => 1) n

/-- The squared distance |g|² + |p|² - 2⟨g, p⟩, the cross term doubled after the sum (`dist2k`) or factor by factor (`dist2r`). -/
def dist2k {K : Nat} (g p : Fin K → EReal) (p2 : EReal) : EReal := (sqn g + p2) - two * ∑ k : Fin K, g k * p k

def dist2r {K : Nat} (g p : Fin K → EReal) (p2 : EReal) : EReal := (sqn g + p2) - ∑ k : Fin K, (two * g k) * p k

def dist (d2 : EReal) : EReal := Ideal.sqrt (max d2 0)

def marg (d2 : EReal) : EReal := max (two - dist d2) 0

/-- One item's margin terms summed over `C` classes. -/
def rowRelu {C K : Nat} (g : Fin K → EReal) (P : Fin C → Fin K → EReal) (p2 : Fin C → EReal) : EReal :=
  ∑ c : Fin C, marg (dist2k g (P c) (p2 c))

end Cert.Spec

end
-- ==== Proof.KI.Value1Pay.lean ====
import proofs.«408336_j75806172774555_3_alg».proof.Proof.Gen.KernelIdeal.Skeleton
import proofs.«408336_j75806172774555_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    have := p.isLt
    split <;> omega
  | ⟨1, _⟩ => rfl

/-- The sums of the rows of an [a, b] array, kept as a column: at row r, the sum of row r. -/
theorem colSum_apply {a b : ℕ} {φ : FTy} (src : FVec Ideal ⟨2, ![a, b]⟩ φ)
    (h : (⟨2, ![a, b]⟩ : Shape).Reduces [1] ⟨1, ![a]⟩) (hφ : FKind.Formats φ) (acc : BitVec φ.bits)
    (hacc : acc = FKind.add.neutral φ hφ) (hc : (⟨1, ![a]⟩ : Shape).ShapeCasts ⟨2, ![a, 1]⟩) (r : Fin a) (u : Fin 1) :
    shapeCast ⟨2, ![a, 1]⟩ (multiReduction .add [1] ⟨1, ![a]⟩ src acc h hφ hacc) hc (ix2 r u)
      = ∑ k : Fin b, src (ix2 r k) := by
  refine (shapeCast_apply _ hc _ (ix1 r) ?_).trans ((Ideal.multiReduction_add_single src acc h hφ hacc (ix1 r)).trans
    (Finset.sum_congr rfl fun k _ => congrArg src (Shape.idx_ext₂ rfl rfl)))
  rw [Shape.rowMajor_val_two, Shape.rowMajor_val_one]
  show r.val = r.val * 1 + u.val
  omega

/-- A product contracting one axis of extent n, from zero: at an index, the sum over that axis of the operands' products. -/
theorem matmul1_apply {sl sr so : Shape} {φ₁ φ₂ : FTy} (D : DotDims sl sr so) (n : ℕ) (hr : D.contr.rank = 1)
    (hs : D.contr.size ⟨0, by omega⟩ = n) (A : FVec Ideal sl φ₁) (B : FVec Ideal sr φ₂) (j : so.Idx)
    (a : Fin n → sl.Idx) (b : Fin n → sr.Idx)
    (ha : ∀ k, D.lhsIdx j ((contrEquiv1 D n hr hs).symm k) = a k)
    (hb : ∀ k, D.rhsIdx j ((contrEquiv1 D n hr hs).symm k) = b k) :
    matmul D none A B (constant (F := Ideal) so .f32 0x00000000#32) j = ∑ k : Fin n, A (a k) * B (b k) := by
  refine (Ideal.matmul_constant_zero_apply D none A B j).trans ?_
  rw [← Equiv.sum_comp (contrEquiv1 D n hr hs).symm]
  exact Finset.sum_congr rfl fun k _ => by rw [ha, hb]

/-- The class id 2048 * c + r, formed in 32-bit words, reads signed as that number: it is far below 2^31. -/
theorem classWord_toInt (c r : ℕ) (hc : c < 5) (hr : r < 2048) :
    (BitVec.ofNat 32 c * 2048#32 + BitVec.ofNat 32 r).toInt = ((2048 * c + r : ℕ) : ℤ) := by
  have h : (BitVec.ofNat 32 c * 2048#32 + BitVec.ofNat 32 r).toNat = 2048 * c + r := by
    simp only [BitVec.toNat_add, BitVec.toNat_mul, BitVec.toNat_ofNat]
    omega
  rw [BitVec.toInt_eq_toNat_cond, h]
  split <;> omega

/-- A word comparison widened and converted is 1 when the words are equal, that is when their signed readings are. -/
theorem onehot_word (x y : BitVec 32) :
    FloatOps.sitofp (F := Ideal) .f32 ((IntOp.cmpi .eq x y).setWidth 32)
      = if y.toInt = x.toInt then (1 : EReal) else 0 := by
  show (((BitVec.setWidth 32 (BitVec.ofBool (x == y))).toInt : ℝ) : EReal) = _
  by_cases h : x = y
  · rw [if_pos (h ▸ rfl), beq_iff_eq.mpr h]
    simp
  · rw [if_neg fun e => h (BitVec.toInt_inj.mp e.symm), beq_eq_false_iff_ne.mpr h]
    simp

theorem k1_pay3_apply (i : grid1.Coords) (lab : Vec Ideal S1x1024 .i32) (r : Fin 2048) (k : Fin 1024) :
    k1_pay3 (F := Ideal) i lab (ix2 r k)
      = if (lab (ix2 (0 : Fin 1) k)).toInt = ((2048 * (i 0).val + r.val : ℕ) : ℤ) then (1 : EReal) else 0 := by
  unfold k1_pay3
  dsimp only
  refine (onehot_word _ _).trans ?_
  rw [broadcastTo_a1_ab_apply, broadcastTo_1b_ab_apply, shapeCast_self]
  show (if _ = (BitVec.ofNat 32 (i 0).val * 2048#32
    + iota Kind.tc S2048x1 32 [0] iota_S2048x1_d0_w32 (ix2 r (0 : Fin 1))).toInt then _ else _) = _
  rw [iota_single_apply]
  exact if_congr (Eq.congr_right (classWord_toInt _ _ (i 0).isLt r.isLt)) rfl rfl

theorem k1_matmul_apply (A : FVec Ideal S2048x1024 .bf16) (B : FVec Ideal S1024x128 .bf16) (r : Fin 2048) (d : Fin 128) :
    matmul dot_S2048x1024_S1024x128_S2048x128_1_0_0_1_n_n none A B (constant (F := Ideal) S2048x128 .f32 0x00000000#32) (ix2 r d)
      = ∑ k : Fin 1024, A (ix2 r k) * B (ix2 k d) :=
  matmul1_apply _ 1024 rfl rfl A B _ _ _
    (fun k => Shape.idx_ext₂ (by simp [DotDims.lhsIdx, dot_S2048x1024_S1024x128_S2048x128_1_0_0_1_n_n] <;> rfl)
      ((DotDims.lhsIdx_val_of_single _ rfl _ _).trans (contrEquiv1_symm_val _ 1024 rfl rfl k)))
    (fun k => Shape.idx_ext₂ ((DotDims.rhsIdx_val_of_single _ rfl _ _).trans (contrEquiv1_symm_val _ 1024 rfl rfl k))
      (by simp [DotDims.rhsIdx, dot_S2048x1024_S1024x128_S2048x128_1_0_0_1_n_n] <;> rfl))

theorem k1_pay1_apply (r : Fin 2048) (d : Fin 128) : k1_pay1 (F := Ideal) (ix2 r d) = 0 := by
  unfold k1_pay1
  rw [shapeCast_self]
  exact Ideal.ofBits_zero_f32

theorem k1_pay2_apply (r : Fin 2048) : k1_pay2 (F := Ideal) (ix2 r (0 : Fin 1)) = 0 := by
  unfold k1_pay2
  rw [shapeCast_self]
  exact Ideal.ofBits_zero_f32

/-- The first accumulator gains, at (r, d), feature d summed over the tile's positions labelled 2048 * (i 0) + r. -/
theorem k1_pay4_apply (i : grid1.Coords) (lab : Vec Ideal S1x1024 .i32) (g : Vec Ideal S1024x128 .f32)
    (acc : Vec Ideal S2048x128 .f32) (r : Fin 2048) (d : Fin 128) :
    k1_pay4 (F := Ideal) i lab g acc (ix2 r d)
      = acc (ix2 r d) + ∑ k : Fin 1024,
          (if (lab (ix2 (0 : Fin 1) k)).toInt = ((2048 * (i 0).val + r.val : ℕ) : ℤ) then g (ix2 k d) else 0) := by
  unfold k1_pay4
  dsimp only
  rw [shapeCast_self, shapeCast_self]
  refine congrArg (acc (ix2 r d) + ·) ((k1_matmul_apply _ _ r d).trans (Finset.sum_congr rfl fun k _ => ?_))
  show k1_pay3 (F := Ideal) i lab (ix2 r k) * g (ix2 k d) = _
  rw [k1_pay3_apply]
  split
  · exact one_mul _
  · exact zero_mul _

/-- The second accumulator gains, at row r, the number of those positions. -/
theorem k1_pay5_apply (i : grid1.Coords) (lab : Vec Ideal S1x1024 .i32) (acc1 : Vec Ideal S2048x1 .f32) (r : Fin 2048) :
    k1_pay5 (F := Ideal) i lab acc1 (ix2 r (0 : Fin 1))
      = acc1 (ix2 r (0 : Fin 1)) + ∑ k : Fin 1024,
          (if (lab (ix2 (0 : Fin 1) k)).toInt = ((2048 * (i 0).val + r.val : ℕ) : ℤ) then (1 : EReal) else 0) := by
  unfold k1_pay5
  dsimp only
  rw [shapeCast_self]
  exact congrArg (acc1 (ix2 r (0 : Fin 1)) + ·)
    ((colSum_apply _ _ _ _ _ _ r 0).trans (Finset.sum_congr rfl fun k _ => k1_pay3_apply i lab r k))

end Cert.KernelIdeal.Hand

end
-- ==== Proof.KI.Value0.lean ====
import proofs.«408336_j75806172774555_3_alg».proof.Proof.KI.Region0
import proofs.«408336_j75806172774555_3_alg».proof.Proof.KI.Value1Pay

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The mean over the 64 positions of row r, feature d, of one block. -/
def blkPooled (x0 : FVec Ideal S512x64x128 .f32) (r : Fin 512) (d : Fin 128) : EReal :=
  Ideal.div (∑ s : Fin 64, x0 (ix3 r s d)) Cert.Spec.c64

theorem pool_apply (x0 : FVec Ideal S512x64x128 .f32) (r : Fin 512) (d : Fin 128) :
    divf (multiReduction (F := Ideal) .add [1] S512x128 x0 0x00000000#32 reduces_S512x64x128_S512x128 (.inl rfl) rfl)
        (broadcast S512x128 (Scalar.ofBits (F := Ideal) .f32 0x42800000#32)) (ix2 r d)
      = blkPooled x0 r d := by
  refine congrArg (fun z => Ideal.div z Cert.Spec.c64) ((Ideal.multiReduction_add_single x0 0x00000000#32
    reduces_S512x64x128_S512x128 (.inl rfl) rfl (ix2 r d)).trans (Finset.sum_congr rfl fun s _ => congrArg x0 ?_))
  funext c; refine Fin.ext ?_
  match c with
  | ⟨0, _⟩ => rfl
  | ⟨1, _⟩ => rfl
  | ⟨2, _⟩ => rfl

/-- The block's payload at (r, d): the pooled row's feature d over the larger of the row's norm and the guard. -/
theorem k0_pay1_apply (x0 : Vec Ideal S512x64x128 .f32) (r : Fin 512) (d : Fin 128) :
    k0_pay1 (F := Ideal) x0 (ix2 r d)
      = Ideal.div (blkPooled x0 r d)
          (max (Ideal.sqrt (∑ k : Fin 128, blkPooled x0 r k * blkPooled x0 r k)) Cert.Spec.eps) := by
  unfold k0_pay1
  refine congrArg₂ Ideal.div (pool_apply x0 r d) ((broadcastTo_a1_ab_apply _ _ r d).trans ?_)
  refine congrArg₂ max (congrArg Ideal.sqrt ((colSum_apply _ _ _ _ _ _ r 0).trans ?_)) rfl
  exact Finset.sum_congr rfl fun k _ => congrArg₂ (· * ·) (pool_apply x0 r k) (pool_apply x0 r k)

/-- What the result array ends holding: the scaled pooled rows of the argument array. -/
def G0 (A : S4096x64x128.Idx → EReal) : S4096x128.Idx → EReal := fun i => Cert.Spec.gn A (i 0) (i 1)

/-- A block holding rows T * 512 … T * 512 + 511 of A pays, at j, the scaled pooled row T * 512 + j 0 of A at feature j 1. -/
theorem blk_pay (A : S4096x64x128.Idx → EReal) (x0 : Vec Ideal S512x64x128 .f32) (T : Nat) (hT : T < 8)
    (hx : ∀ (r : Fin 512) (s : Fin 64) (k : Fin 128), x0 (ix3 r s k) = A (ix3 (⟨T * 512 + r.val, by omega⟩ : Fin 4096) s k))
    (j : S512x128.Idx) :
    k0_pay1 (F := Ideal) x0 j = Cert.Spec.gn A (⟨T * 512 + (j 0).val, by have h : (j 0).val < 512 := (j 0).isLt; omega⟩ : Fin 4096) (j 1) := by
  obtain ⟨r, d, rfl⟩ : ∃ (r : Fin 512) (d : Fin 128), j = ix2 r d := ⟨j 0, j 1, eq_ix2 j⟩
  have hp : ∀ k : Fin 128, blkPooled x0 r k = Cert.Spec.pooled A (⟨T * 512 + r.val, by omega⟩ : Fin 4096) k := fun k =>
    congrArg (fun z => Ideal.div z Cert.Spec.c64) (Finset.sum_congr rfl fun s _ => hx r s k)
  rw [k0_pay1_apply]
  show _ = Cert.Spec.gn A (⟨T * 512 + r.val, _⟩ : Fin 4096) d
  unfold Cert.Spec.gn Cert.Spec.sqn
  simp only [hp]

/-- Point t's blocks are block t along the rows and block 0 along the other axes. -/
theorem idx_facts0 : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

theorem flushed0_eq (c : Dev nD) (t : Fin cfg0.N) :
    (dat0 (F := Ideal) V c).flushed 1 t = ((cfg0.win 1).blk t).view.read (Elt Ideal) (G0 (V c main_arg0)) := by
  show (cfg0.win 1).cut (grid0.coords t) ((dat0 V c).after 1 t) = _
  rw [after0_1, out0_1_eq]
  obtain ⟨e0, e1, e2, e3, e4⟩ := idx_facts0 t
  have ht : t.val < 8 := N_0 ▸ t.isLt
  funext j
  refine (blk_pay (V c main_arg0) (iblk0 V c 0 t) t.val ht (fun r s k => ?_) j).trans ?_
  · show V c main_arg0 (((cfg0.win 0).blk t).view.emb (ix3 r s k)) = V c main_arg0 (ix3 (⟨t.val * 512 + r.val, _⟩ : Fin 4096) s k)
    refine congrArg (V c main_arg0) (funext fun a => Fin.ext ?_)
    match a with
    | ⟨0, _⟩ => show win0_0.index t (0 : Fin 3) * 512 + 1 * r.val = t.val * 512 + r.val; omega
    | ⟨1, _⟩ => show win0_0.index t (1 : Fin 3) * 64 + 1 * s.val = s.val; omega
    | ⟨2, _⟩ => show win0_0.index t (2 : Fin 3) * 128 + 1 * k.val = k.val; omega
  · show _ = Cert.Spec.gn (V c main_arg0) ((((cfg0.win 1).blk t).view.emb j) 0) ((((cfg0.win 1).blk t).view.emb j) 1)
    refine congrArg₂ (Cert.Spec.gn (V c main_arg0)) (Fin.ext ?_) (Fin.ext ?_)
    · show t.val * 512 + (j 0).val = win0_1.index t (0 : Fin 2) * 512 + 1 * (j 0).val; omega
    · show (j 1).val = win0_1.index t (1 : Fin 2) * 128 + 1 * (j 1).val; omega

/-- Row b of the result array lies in the block of point b / 512. -/
theorem cover0 (i : S4096x128.Idx) :
    ∃ t : Fin cfg0.N, (cfg0.win 1).flush t = true ∧ i ∈ ((cfg0.win 1).blk t).view.set := by
  have hi0 : (i 0).val < 4096 := (i 0).isLt
  have hi1 : (i 1).val < 128 := (i 1).isLt
  have hN : cfg0.N = 8 := N_0
  obtain ⟨t, ht⟩ : ∃ t : Fin cfg0.N, t.val = (i 0).val / 512 := ⟨⟨(i 0).val / 512, by omega⟩, rfl⟩
  obtain ⟨-, -, -, e3, e4⟩ := idx_facts0 t
  refine ⟨t, flush0_1 _, ?_⟩
  show i ∈ ((View.whole main_v0).slice (win0_1.rect t)).set
  rw [View.set_slice_whole, Rect.mem_set_unit]
  refine Fin.forall_fin_two.mpr ?_
  show (win0_1.index t (0 : Fin 2) * 512 ≤ (i 0).val ∧ (i 0).val < win0_1.index t (0 : Fin 2) * 512 + 512)
    ∧ (win0_1.index t (1 : Fin 2) * 128 ≤ (i 1).val ∧ (i 1).val < win0_1.index t (1 : Fin 2) * 128 + 128)
  omega

theorem region0_value (c : Dev nD) (b : Fin 4096) (d : Fin 128) :
    ((dat0 (F := Ideal) V c).arrAt 1 cfg0.N : S4096x128.Idx → EReal) (ix2 b d)
      = Cert.Spec.gn (V c main_arg0 : S4096x64x128.Idx → EReal) b d :=
  congrFun ((dat0 (F := Ideal) V c).arrAt_eq_of_cover 1 (G0 (V c main_arg0)) (fun t _ => flushed0_eq V c t) cover0) (ix2 b d)

end Cert.KernelIdeal.Hand

end
-- ==== Proof.KI.Region1Value.lean ====
import proofs.«408336_j75806172774555_3_alg».proof.Proof.KI.Region1
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

variable (V : (c : Dev nD) → (b : Ref sig .tc) → Buf (Elt F) ((c : Thread nD τ).loc b))
variable (c : Dev nD) (t : Fin cfg1.N)

theorem hz1 : (![0, 0] : Fin 2 → Nat) = fun _ => 0 := funext fun a => by fin_cases a <;> rfl

-- Pieces that tile a buffer read back as their closed form, whatever they were written over.
theorem rd1_eq_canon {S : Shape} {e : EltTy} (v : View sig .tc .vmem S e) (L : List (View.Piece (Elt F) S e))
    (h : View.Piece.tiledL L S.size = true) : rd1 v L = View.canon L :=
  View.read_writes_eq_canon _ _ _ (View.cover_of_tiledL L _ h)

-- Every store of the body covers its buffer whole, so each buffer is left at its last store's value, a load between two stores reading the earlier one back.
theorem run1_vals :
    (∀ h0 h1, rd1 VS1_0 (run1A V c t h0 h1).1 = k1_pay4 (grid1.coords t) (iblk1 V c 0 t) (iblk1 V c 1 t) k1_pay1
      ∧ rd1 VS1_1 (run1A V c t h0 h1).2.1 = k1_pay5 (grid1.coords t) (iblk1 V c 0 t) k1_pay2)
    ∧ (∀ h0 h1 (p : Vec F S2048x128 .f32 × Vec F S2048x1 .f32), rd1 VS1_0 (run1B V c t h0 h1 p).1 = k1_pay4 (grid1.coords t) (iblk1 V c 0 t) (iblk1 V c 1 t) p.1
      ∧ rd1 VS1_1 (run1B V c t h0 h1 p).2.1 = k1_pay5 (grid1.coords t) (iblk1 V c 0 t) p.2)
    ∧ (∀ h0 h1 (p : Vec F S2048x128 .f32 × Vec F S2048x1 .f32), rd1 VS1_0 (run1C V c t h0 h1 p).2.2.1 = k1_pay4 (grid1.coords t) (iblk1 V c 0 t) (iblk1 V c 1 t) p.1
      ∧ rd1 VS1_1 (run1C V c t h0 h1 p).2.2.2.1 = k1_pay5 (grid1.coords t) (iblk1 V c 0 t) p.2
      ∧ rd1 VO1_2 (run1C V c t h0 h1 p).1 = k1_pay4 (grid1.coords t) (iblk1 V c 0 t) (iblk1 V c 1 t) p.1
      ∧ rd1 VO1_3 (run1C V c t h0 h1 p).2.1 = k1_pay5 (grid1.coords t) (iblk1 V c 0 t) p.2) := by
  refine ⟨fun h0 h1 => ⟨?_, ?_⟩, fun h0 h1 p => ⟨?_, ?_⟩, fun h0 h1 p => ⟨?_, ?_, ?_, ?_⟩⟩ <;>
    (rw [rd1_eq_canon _ _ (by sl_kernel_rfl)]
     first | unfold run1A kernelRun1_A | unfold run1B kernelRun1_B | unfold run1C kernelRun1_C
     dsimp only; sl_unfold_words
     simp only [View.canon_cons_unit_zero (S := S2048x128) hz1, View.canon_cons_unit_zero (S := S2048x1) hz1, View.readCov_unit_zero (S := S2048x128) _ hz1, View.readCov_unit_zero (S := S2048x1) _ hz1, View.readAt_eq_ld, (hs1_0 t).read_unread, (hs1_1 t).read_unread, (Memref.isWhole_whole cc1_scratch0).read_unread, (Memref.isWhole_whole cc1_scratch1).read_unread, View.ld_unit_zero (S := S1x1024) hz1, View.ld_unit_zero (S := S1024x128) hz1, View.ld_unit_zero (S := S2048x128) hz1, View.ld_unit_zero (S := S2048x1) hz1])

theorem sAt1_reset (h : t.val % 4 = 0) :
    sAt1 V c t.val t.isLt = (k1_pay4 (grid1.coords t) (iblk1 V c 0 t) (iblk1 V c 1 t) k1_pay1, k1_pay5 (grid1.coords t) (iblk1 V c 0 t) k1_pay2) := by
  rw [sAt1_A V c t h (by omega), ((run1_vals V c t).1 h _).1, ((run1_vals V c t).1 h _).2]

theorem sAt1_step (h : ¬t.val % 4 = 0) :
    sAt1 V c t.val t.isLt = (k1_pay4 (grid1.coords t) (iblk1 V c 0 t) (iblk1 V c 1 t) (sAt1 V c (t.val - 1) (Nat.lt_of_le_of_lt (Nat.sub_le _ _) t.isLt)).1, k1_pay5 (grid1.coords t) (iblk1 V c 0 t) (sAt1 V c (t.val - 1) (Nat.lt_of_le_of_lt (Nat.sub_le _ _) t.isLt)).2) := by
  by_cases h1 : t.val % 4 = 3
  · rw [sAt1_C V c t h h1, ((run1_vals V c t).2.2 h h1 _).1, ((run1_vals V c t).2.2 h h1 _).2.1]
  · rw [sAt1_B V c t h h1, ((run1_vals V c t).2.1 h h1 _).1, ((run1_vals V c t).2.1 h h1 _).2]

theorem after1_2_last (h : t.val % 4 = 3) : (dat1 V c).after 2 t = (sAt1 V c t.val t.isLt).1 := by
  have h0 : ¬t.val % 4 = 0 := by omega
  rw [after1_2, show outAt1 V c t = _ from dif_pos h, sAt1_C V c t h0 h]
  dsimp only
  rw [((run1_vals V c t).2.2 h0 h _).2.2.1, ((run1_vals V c t).2.2 h0 h _).1]

theorem after1_3_last (h : t.val % 4 = 3) : (dat1 V c).after 3 t = (sAt1 V c t.val t.isLt).2 := by
  have h0 : ¬t.val % 4 = 0 := by omega
  rw [after1_3, show outAt1 V c t = _ from dif_pos h, sAt1_C V c t h0 h]
  dsimp only
  rw [((run1_vals V c t).2.2 h0 h _).2.2.2, ((run1_vals V c t).2.2 h0 h _).2.1]

end Cert.KernelIdeal.Hand

end
-- ==== Proof.KI.Value1.lean ====
import proofs.«408336_j75806172774555_3_alg».proof.Proof.KI.Region1Value
import proofs.«408336_j75806172774555_3_alg».proof.Proof.KI.Value1Pay
import Mathlib.Algebra.BigOperators.Fin
import Mathlib.Logic.Equiv.Fin.Basic

noncomputable section

namespace Cert.KernelIdeal.Hand

open Cert.KernelIdeal Cert.KernelIdeal.Gen Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-- The label words of the batch, by position. -/
abbrev labFn (c : Dev nD) : Fin 4096 → BitVec 32 := fun b => (V c main_v1 : S1x4096.Idx → BitVec 32) (ix2 (0 : Fin 1) b)
/-- Feature d of the batch, by position. -/
abbrev featFn (c : Dev nD) (d : Fin 128) : Fin 4096 → EReal := fun b => (V c main_v0 : S4096x128.Idx → EReal) (ix2 b d)

/-- Point t is class tile t / 4 and batch tile t % 4: the inputs' blocks follow the batch tile, the outputs' the class tile. -/
theorem idx_facts1 : ∀ t : Fin cfg1.N,
    win1_0.index t (0 : Fin 2) = 0 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0
    ∧ win1_3.index t (0 : Fin 2) = t.val / 4 ∧ win1_3.index t (1 : Fin 2) = 0
    ∧ ((grid1.coords t) 0).val = t.val / 4 :=
  (by decide +kernel : ∀ t : Fin grid1.N, _)

/-- Position k of batch tile q: 1024 * q + k for q below 4. -/
def tilePos (q : ℕ) (k : Fin 1024) : Fin 4096 := ⟨(1024 * q + k.val) % 4096, Nat.mod_lt _ (by decide)⟩

theorem labBlk_apply (c : Dev nD) (t : Fin cfg1.N) (k : Fin 1024) :
    (iblk1 V c 0 t : S1x1024.Idx → BitVec 32) (ix2 (0 : Fin 1) k) = labFn V c (tilePos (t.val % 4) k) := by
  obtain ⟨e0, e1, -⟩ := idx_facts1 t
  show V c main_v1 (((cfg1.win 0).blk t).view.emb (ix2 (0 : Fin 1) k)) = V c main_v1 _
  refine congrArg (V c main_v1) (Shape.idx_ext₂ ?_ ?_)
  · show win1_0.index t (0 : Fin 2) * 1 + 1 * 0 = 0; omega
  · show win1_0.index t (1 : Fin 2) * 1024 + 1 * k.val = (1024 * (t.val % 4) + k.val) % 4096; omega

theorem featBlk_apply (c : Dev nD) (t : Fin cfg1.N) (d : Fin 128) (k : Fin 1024) :
    (iblk1 V c 1 t : S1024x128.Idx → EReal) (ix2 k d) = featFn V c d (tilePos (t.val % 4) k) := by
  obtain ⟨-, -, e0, e1, -⟩ := idx_facts1 t
  show V c main_v0 (((cfg1.win 1).blk t).view.emb (ix2 k d)) = V c main_v0 _
  refine congrArg (V c main_v0) (Shape.idx_ext₂ ?_ ?_)
  · show win1_1.index t (0 : Fin 2) * 1024 + 1 * k.val = (1024 * (t.val % 4) + k.val) % 4096; omega
  · show win1_1.index t (1 : Fin 2) * 128 + 1 * d.val = d.val; omega

/-- What batch tile q adds to the sum of class cls: the values at the tile's positions labelled cls. -/
def tileSum (lab : Fin 4096 → BitVec 32) (v : Fin 4096 → EReal) (cls : ℕ) (q : ℕ) : EReal :=
  ∑ k : Fin 1024, if (lab (tilePos q k)).toInt = (cls : ℤ) then v (tilePos q k) else 0

/-- The batch is four tiles of 1024 positions, b = 1024 * q + k, so a class's sum is the sum of the tiles' shares. -/
theorem segSum_eq_tiles (lab : Fin 4096 → BitVec 32) (v : Fin 4096 → EReal) (cls : ℕ) :
    Cert.Spec.segSum lab v cls = ∑ q ∈ Finset.range 4, tileSum lab v cls q := by
  unfold Cert.Spec.segSum
  rw [Finset.sum_filter, ← Fin.sum_univ_eq_sum_range (fun q => tileSum lab v cls q) 4]
  rw [← Equiv.sum_comp (finProdFinEquiv : Fin 4 × Fin 1024 ≃ Fin (4 * 1024))
    (fun e : Fin 4096 => if (lab e).toInt = (cls : ℤ) then v e else 0), Fintype.sum_prod_type]
  refine Finset.sum_congr rfl fun q _ => Finset.sum_congr rfl fun k _ => ?_
  have e : (finProdFinEquiv (q, k) : Fin (4 * 1024)) = tilePos q.val k := Fin.ext (by
    show k.val + 1024 * q.val = (1024 * q.val + k.val) % 4096
    have := q.isLt; have := k.isLt; omega)
  rw [e]

/-- Point t's addend at row r, for block values w that are the batch values v on the tile, is the tile's share of class 2048 * (t / 4) + r. -/
theorem tile_of_blocks (c : Dev nD) (t : Fin cfg1.N) (r : Fin 2048) (w : Fin 1024 → EReal) (v : Fin 4096 → EReal)
    (hw : ∀ k, w k = v (tilePos (t.val % 4) k)) :
    (∑ k : Fin 1024, (if ((iblk1 V c 0 t : S1x1024.Idx → BitVec 32) (ix2 (0 : Fin 1) k)).toInt
        = ((2048 * ((grid1.coords t) 0).val + r.val : ℕ) : ℤ) then w k else 0))
      = tileSum (labFn V c) v (2048 * (t.val / 4) + r.val) (t.val % 4) := by
  obtain ⟨-, -, -, -, -, -, -, -, e⟩ := idx_facts1 t
  refine Finset.sum_congr rfl fun k _ => ?_
  rw [labBlk_apply, hw, e]

/-- After point n the accumulators hold, at row r, the shares of batch tiles 0 … n % 4 in class 2048 * (n / 4) + r: by induction on n. -/
theorem sAt1_apply (c : Dev nD) (n : ℕ) : ∀ (hn : n < cfg1.N) (r : Fin 2048),
    (∀ d : Fin 128, (sAt1 V c n hn).1 (ix2 r d)
      = ∑ q ∈ Finset.range (n % 4 + 1), tileSum (labFn V c) (featFn V c d) (2048 * (n / 4) + r.val) q)
    ∧ (sAt1 V c n hn).2 (ix2 r (0 : Fin 1))
      = ∑ q ∈ Finset.range (n % 4 + 1), tileSum (labFn V c) (fun _ => 1) (2048 * (n / 4) + r.val) q := by
  induction n using Nat.strong_induction_on with
  | _ n ih =>
    intro hn r
    by_cases h0 : n % 4 = 0
    · have hs := sAt1_reset V c ⟨n, hn⟩ h0
      refine ⟨fun d => ?_, ?_⟩
      · refine (congrFun (congrArg Prod.fst hs) _).trans ((k1_pay4_apply _ _ _ _ r d).trans ?_)
        rw [k1_pay1_apply, zero_add]
        refine (tile_of_blocks V c ⟨n, hn⟩ r _ (featFn V c d) (featBlk_apply V c ⟨n, hn⟩ d)).trans ?_
        show tileSum _ _ _ (n % 4) = _
        rw [h0, Finset.sum_range_one]
      · refine (congrFun (congrArg Prod.snd hs) _).trans ((k1_pay5_apply _ _ _ r).trans ?_)
        rw [k1_pay2_apply, zero_add]
        refine (tile_of_blocks V c ⟨n, hn⟩ r (fun _ => 1) (fun _ => 1) fun _ => rfl).trans ?_
        show tileSum _ _ _ (n % 4) = _
        rw [h0, Finset.sum_range_one]
    · have hs := sAt1_step V c ⟨n, hn⟩ h0
      have e1 : (n - 1) / 4 = n / 4 := by omega
      have e2 : n % 4 = (n - 1) % 4 + 1 := by omega
      have ih' := ih (n - 1) (by omega) (Nat.lt_of_le_of_lt (Nat.sub_le _ _) hn) r
      rw [e1] at ih'
      refine ⟨fun d => ?_, ?_⟩
      · refine (congrFun (congrArg Prod.fst hs) _).trans ((k1_pay4_apply _ _ _ _ r d).trans ?_)
        refine (congrArg₂ (· + ·) (ih'.1 d) (tile_of_blocks V c ⟨n, hn⟩ r _ (featFn V c d) (featBlk_apply V c ⟨n, hn⟩ d))).trans ?_
        show _ + tileSum _ _ (2048 * (n / 4) + r.val) (n % 4) = _
        rw [e2]
        exact (Finset.sum_range_succ _ _).symm
      · refine (congrFun (congrArg Prod.snd hs) _).trans ((k1_pay5_apply _ _ _ r).trans ?_)
        refine (congrArg₂ (· + ·) ih'.2 (tile_of_blocks V c ⟨n, hn⟩ r (fun _ => 1) (fun _ => 1) fun _ => rfl)).trans ?_
        show _ + tileSum _ _ (2048 * (n / 4) + r.val) (n % 4) = _
        rw [e2]
        exact (Finset.sum_range_succ _ _).symm

/-- What the sums array ends holding: at (n, d), feature d summed over the batch positions labelled n. -/
def sumsArr (c : Dev nD) : S10240x128.Idx → EReal :=
  fun i => Cert.Spec.segSum (labFn V c) (featFn V c (i 1)) (i 0).val

/-- What the counts array ends holding: at (n, 0), the number of batch positions labelled n. -/
def cntArr (c : Dev nD) : S10240x1.Idx → EReal :=
  fun i => Cert.Spec.segSum (labFn V c) (fun _ => 1) (i 0).val

/-- At a row's last point the accumulator holds, for each of the row's 2048 classes, the sum over all four batch tiles. -/
theorem flushed1_2_eq (c : Dev nD) (t : Fin cfg1.N) (hf : (cfg1.win 2).flush t = true) :
    (dat1 V c).flushed 2 t = ((cfg1.win 2).blk t).view.read (Elt Ideal) (sumsArr V c) := by
  have h3 : t.val % 4 = 3 := (flush1_2 t).mp hf
  obtain ⟨-, -, -, -, e0, e1, -⟩ := idx_facts1 t
  show (cfg1.win 2).cut (grid1.coords t) ((dat1 V c).after 2 t) = _
  rw [after1_2_last V c t h3]
  funext j
  obtain ⟨r, d, rfl⟩ : ∃ (r : Fin 2048) (d : Fin 128), j = ix2 r d := ⟨j 0, j 1, eq_ix2 j⟩
  have hd : ((((cfg1.win 2).blk t).view.emb (ix2 r d)) 1 : Fin 128) = d :=
    Fin.ext (by show win1_2.index t (1 : Fin 2) * 128 + 1 * d.val = d.val; omega)
  have hr : ((((cfg1.win 2).blk t).view.emb (ix2 r d)) 0).val = 2048 * (t.val / 4) + r.val := by
    show win1_2.index t (0 : Fin 2) * 2048 + 1 * r.val = _; omega
  show (sAt1 V c t.val t.isLt).1 (ix2 r d) = Cert.Spec.segSum (labFn V c) (featFn V c _) _
  rw [hd, hr, (sAt1_apply V c t.val t.isLt r).1 d, segSum_eq_tiles, h3]

theorem flushed1_3_eq (c : Dev nD) (t : Fin cfg1.N) (hf : (cfg1.win 3).flush t = true) :
    (dat1 V c).flushed 3 t = ((cfg1.win 3).blk t).view.read (Elt Ideal) (cntArr V c) := by
  have h3 : t.val % 4 = 3 := (flush1_3 t).mp hf
  obtain ⟨-, -, -, -, -, -, e0, e1, -⟩ := idx_facts1 t
  show (cfg1.win 3).cut (grid1.coords t) ((dat1 V c).after 3 t) = _
  rw [after1_3_last V c t h3]
  funext j
  obtain ⟨r, u, rfl⟩ : ∃ (r : Fin 2048) (u : Fin 1), j = ix2 r u := ⟨j 0, j 1, eq_ix2 j⟩
  obtain rfl : u = 0 := Subsingleton.elim _ _
  have hr : ((((cfg1.win 3).blk t).view.emb (ix2 r (0 : Fin 1))) 0).val = 2048 * (t.val / 4) + r.val := by
    show win1_3.index t (0 : Fin 2) * 2048 + 1 * r.val = _; omega
  show (sAt1 V c t.val t.isLt).2 (ix2 r (0 : Fin 1)) = Cert.Spec.segSum (labFn V c) (fun _ => 1) _
  rw [hr, (sAt1_apply V c t.val t.isLt r).2, segSum_eq_tiles, h3]

/-- Row n of the sums array lies in the block of point 4 * (n / 2048) + 3, the last of its class tile's row. -/
theorem cover1_2 (i : S10240x128.Idx) :
    ∃ t : Fin cfg1.N, (cfg1.win 2).flush t = true ∧ i ∈ ((cfg1.win 2).blk t).view.set := by
  have hi0 : (i 0).val < 10240 := (i 0).isLt
  have hi1 : (i 1).val < 128 := (i 1).isLt
  have hN : cfg1.N = 20 := N_1
  obtain ⟨t, ht⟩ : ∃ t : Fin cfg1.N, t.val = 4 * ((i 0).val / 2048) + 3 := ⟨⟨4 * ((i 0).val / 2048) + 3, by omega⟩, rfl⟩
  obtain ⟨-, -, -, -, e0, e1, -⟩ := idx_facts1 t
  refine ⟨t, (flush1_2 t).mpr (by omega), ?_⟩
  show i ∈ ((View.whole main_v2_0).slice (win1_2.rect t)).set
  rw [View.set_slice_whole, Rect.mem_set_unit]
  refine Fin.forall_fin_two.mpr ?_
  show (win1_2.index t (0 : Fin 2) * 2048 ≤ (i 0).val ∧ (i 0).val < win1_2.index t (0 : Fin 2) * 2048 + 2048)
    ∧ (win1_2.index t (1 : Fin 2) * 128 ≤ (i 1).val ∧ (i 1).val < win1_2.index t (1 : Fin 2) * 128 + 128)
  omega

theorem cover1_3 (i : S10240x1.Idx) :
    ∃ t : Fin cfg1.N, (cfg1.win 3).flush t = true ∧ i ∈ ((cfg1.win 3).blk t).view.set := by
  have hi0 : (i 0).val < 10240 := (i 0).isLt
  have hi1 : (i 1).val < 1 := (i 1).isLt
  have hN : cfg1.N = 20 := N_1
  obtain ⟨t, ht⟩ : ∃ t : Fin cfg1.N, t.val = 4 * ((i 0).val / 2048) + 3 := ⟨⟨4 * ((i 0).val / 2048) + 3, by omega⟩, rfl⟩
  obtain ⟨-, -, -, -, -, -, e0, e1, -⟩ := idx_facts1 t
  refine ⟨t, (flush1_3 t).mpr (by omega), ?_⟩
  show i ∈ ((View.whole main_v2_1).slice (win1_3.rect t)).set
  rw [View.set_slice_whole, Rect.mem_set_unit]
  refine Fin.forall_fin_two.mpr ?_
  show (win1_3.index t (0 : Fin 2) * 2048 ≤ (i 0).val ∧ (i 0).val < win1_3.index t (0 : Fin 2) * 2048 + 2048)
    ∧ (win1_3.index t (1 : Fin 2) * 1 ≤ (i 1).val ∧ (i 1).val < win1_3.index t (1 : Fin 2) * 1 + 1)
  omega

theorem region1_sums (c : Dev nD) (n : Fin 10240) (d : Fin 128) :
    ((dat1 (F := Ideal) V c).arrAt 2 cfg1.N : S10240x128.Idx → EReal) (ix2 n d)
      = Cert.Spec.segSum (fun b : Fin 4096 => (V c main_v1 : S1x4096.Idx → BitVec 32) (ix2 (0 : Fin 1) b))
          (fun b : Fin 4096 => (V c main_v0 : S4096x128.Idx → EReal) (ix2 b d)) n.val :=
  congrFun ((dat1 V c).arrAt_eq_of_cover 2 (sumsArr V c) (flushed1_2_eq V c) cover1_2) (ix2 n d)

theorem region1_counts (c : Dev nD) (n : Fin 10240) :
    ((dat1 (F := Ideal) V c).arrAt 3 cfg1.N : S10240x1.Idx → EReal) (ix2 n (0 : Fin 1))
      = Cert.Spec.segCnt (fun b : Fin 4096 => (V c main_v1 : S1x4096.Idx → BitVec 32) (ix2 (0 : Fin 1) b)) n.val :=
  congrFun ((dat1 V c).arrAt_eq_of_cover 3 (cntArr V c) (flushed1_3_eq V c) cover1_3) (ix2 n (0 : Fin 1))

end Cert.KernelIdeal.Hand

end
-- ==== Proof.KI.Region2Value.lean ====
import proofs.«408336_j75806172774555_3_alg».proof.Proof.KI.Region2
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem zeroOffsets_region2 : (![0, 0] : Fin 2 → Nat) = fun _ => 0 := funext fun a => by fin_cases a <;> rfl

-- Pieces that tile a buffer read back as their closed form, whatever they were written over.
theorem rd2_eq_canon (v : View sig .tc .vmem S1024x1 .f32) (L : List (View.Piece (Elt F) S1024x1 .f32))
    (h : View.Piece.tiledL L S1024x1.size = true) : rd2 v L = View.canon L :=
  View.read_writes_eq_canon _ _ _ (View.cover_of_tiledL L _ h)

-- Every store of the body covers its buffer whole, so a buffer is left at its last store's value, a load between two stores reading the earlier one back.
theorem run2_vals (c : Dev nD) (t : Fin cfg2.N) :
    (∀ h0 h1, rd2 VS2_0 (runA2 V c t h0 h1).2.1 = k2_pay2 (iblk2 V c 0 t) (iblk2 V c 1 t) (iblk2 V c 2 t) (k2_pay1 (F := F)))
    ∧ (∀ h0 h1 (p : Vec F S1024x1 .f32), rd2 VS2_0 (runB2 V c t h0 h1 p).2.1 = k2_pay2 (iblk2 V c 0 t) (iblk2 V c 1 t) (iblk2 V c 2 t) p)
    ∧ (∀ h0 h1 (p : Vec F S1024x1 .f32), rd2 VS2_0 (runC2 V c t h0 h1 p).2.1 = k2_pay2 (iblk2 V c 0 t) (iblk2 V c 1 t) (iblk2 V c 2 t) p
      ∧ rd2 VO2_3 (runC2 V c t h0 h1 p).1 = k2_pay2 (iblk2 V c 0 t) (iblk2 V c 1 t) (iblk2 V c 2 t) p) := by
  refine ⟨fun h0 h1 => ?_, fun h0 h1 p => ?_, fun h0 h1 p => ⟨?_, ?_⟩⟩ <;>
    (rw [rd2_eq_canon _ _ (by sl_kernel_rfl)]
     first | unfold runA2 kernelRun2_A | unfold runB2 kernelRun2_B | unfold runC2 kernelRun2_C
     dsimp only; sl_unfold_words
     simp only [View.canon_cons_unit_zero (S := S1024x1) zeroOffsets_region2, View.readCov_unit_zero (S := S1024x1) _ zeroOffsets_region2, View.readAt_eq_ld, (hs2_0 t).read_unread, (hs2_1 t).read_unread, (hs2_2 t).read_unread, (Memref.isWhole_whole cc2_scratch0).read_unread, View.ld_unit_zero (S := S1024x128) zeroOffsets_region2, View.ld_unit_zero (S := S2048x128) zeroOffsets_region2, View.ld_unit_zero (S := S1x2048) zeroOffsets_region2, View.ld_unit_zero (S := S1024x1) zeroOffsets_region2])

-- A row of the grid starts from the zero fill.
theorem sAt2_reset (c : Dev nD) (t : Fin cfg2.N) (h : t.val % 5 = 0) :
    sAt2 V c t.val t.isLt = k2_pay2 (iblk2 V c 0 t) (iblk2 V c 1 t) (iblk2 V c 2 t) k2_pay1 := by
  rw [sAt2_eq]; unfold acc2; rw [dif_pos h]
  exact (run2_vals V c t).1 h _

-- Within a row each point updates what the point before left.
theorem sAt2_step (c : Dev nD) (t : Fin cfg2.N) (h : ¬t.val % 5 = 0) :
    sAt2 V c t.val t.isLt = k2_pay2 (iblk2 V c 0 t) (iblk2 V c 1 t) (iblk2 V c 2 t) (sAt2 V c (t.val - 1) (Nat.lt_of_le_of_lt (Nat.sub_le _ _) t.isLt)) := by
  rw [sAt2_eq, ← pre2_pos V c t (by omega)]; unfold acc2; rw [dif_neg h]
  by_cases h1 : t.val % 5 = 4
  · rw [dif_pos h1]; exact ((run2_vals V c t).2.2 h h1 _).1
  · rw [dif_neg h1]; exact (run2_vals V c t).2.1 h h1 _

-- The block stored at the end of a row is the accumulator.
theorem after2_3_last (c : Dev nD) (t : Fin cfg2.N) (h : t.val % 5 = 4) :
    (dat2 V c).after 3 t = sAt2 V c t.val t.isLt := by
  have h0 : ¬t.val % 5 = 0 := by omega
  rw [after2_3, sAt2_eq]; unfold out2 acc2; rw [dif_pos h, dif_neg h0, dif_pos h]
  exact ((run2_vals V c t).2.2 h0 h _).2.trans ((run2_vals V c t).2.2 h0 h _).1.symm

end Cert.KernelIdeal.Hand

end
-- ==== Proof.KI.Value2Pay.lean ====
import proofs.«408336_j75806172774555_3_alg».proof.Proof.KI.Value1Pay

noncomputable section

namespace Cert.KernelIdeal.Hand

open Cert.KernelIdeal Cert.KernelIdeal.Gen Idealize.ShloMosaic Idealize.ShloMosaic.ValueIdx

/-- At item r and class c the product is the inner product of the item's row with the class's row over the 128 features. -/
theorem matmul_k2_apply (x : FVec Ideal S1024x128 .bf16) (y : FVec Ideal S2048x128 .bf16) (r : Fin 1024) (c : Fin 2048) :
    matmul dot_S1024x128_S2048x128_S1024x2048_1_1_0_0_n_n none x y (constant (F := Ideal) S1024x2048 .f32 0x00000000#32) (ix2 r c)
      = ∑ k : Fin 128, x (ix2 r k) * y (ix2 c k) :=
  matmul1_apply _ 128 rfl rfl x y _ _ _
    (fun k => Shape.idx_ext₂ (by simp [DotDims.lhsIdx, dot_S1024x128_S2048x128_S1024x2048_1_1_0_0_n_n] <;> rfl)
      ((DotDims.lhsIdx_val_of_single _ rfl _ _).trans (contrEquiv1_symm_val _ 128 rfl rfl k)))
    (fun k => Shape.idx_ext₂ (by simp [DotDims.rhsIdx, dot_S1024x128_S2048x128_S1024x2048_1_1_0_0_n_n] <;> rfl)
      ((DotDims.rhsIdx_val_of_single _ rfl _ _).trans (contrEquiv1_symm_val _ 128 rfl rfl k)))

/-- A margin term assembled from its parts: the two squared norms, the inner product, and the zero. -/
theorem marg_of_parts {a b s z a' b' s' : EReal} (ha : a = a') (hb : b = b') (hs : s = s') (hz : z = 0) :
    max (Cert.Spec.two - Ideal.sqrt (max ((a + b) - Cert.Spec.two * s) z)) z
      = Cert.Spec.marg ((a' + b') - Cert.Spec.two * s') := by
  subst ha hb hs hz
  rfl

theorem k2_pay1_apply (r : Fin 1024) : k2_pay1 (F := Ideal) (ix2 r (0 : Fin 1)) = 0 := by
  unfold k2_pay1
  rw [shapeCast_self]
  exact Ideal.ofBits_zero_f32

/-- The running column gains, at item r, the item's margin terms over the class tile. -/
theorem k2_pay2_apply (g : Vec Ideal S1024x128 .f32) (p : Vec Ideal S2048x128 .bf16) (p2 : Vec Ideal S1x2048 .f32)
    (acc : Vec Ideal S1024x1 .f32) (r : Fin 1024) :
    k2_pay2 (F := Ideal) g p p2 acc (ix2 r (0 : Fin 1))
      = acc (ix2 r (0 : Fin 1)) + Cert.Spec.rowRelu (fun k : Fin 128 => g (ix2 r k))
          (fun (c : Fin 2048) (k : Fin 128) => p (ix2 c k)) (fun c : Fin 2048 => p2 (ix2 (0 : Fin 1) c)) := by
  unfold k2_pay2
  simp only [shapeCast_self]
  refine congrArg (acc (ix2 r (0 : Fin 1)) + ·) ((colSum_apply _ _ _ _ _ _ r 0).trans ?_)
  refine Finset.sum_congr rfl fun c _ => ?_
  exact marg_of_parts ((broadcastTo_a1_ab_apply _ _ r c).trans (colSum_apply _ _ _ _ _ _ r 0))
    (broadcastTo_1b_ab_apply _ _ r c) (matmul_k2_apply _ _ r c) Ideal.ofBits_zero_f32

end Cert.KernelIdeal.Hand

end
-- ==== Proof.KI.Value2.lean ====
import proofs.«408336_j75806172774555_3_alg».proof.Proof.KI.Region2Value
import proofs.«408336_j75806172774555_3_alg».proof.Proof.KI.Value2Pay
import Mathlib.Algebra.BigOperators.Fin
import Mathlib.Logic.Equiv.Fin.Basic

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- Item b's features, the class rows and the classes' squared norms, as the region finds them. -/
abbrev gRow (c : Dev nD) (b : Fin 4096) : Fin 128 → EReal := fun k => (V c main_v0 : S4096x128.Idx → EReal) (ix2 b k)
abbrev pRow (c : Dev nD) : Fin 10240 → Fin 128 → EReal := fun n k => (V c main_v26 : S10240x128.Idx → EReal) (ix2 n k)
abbrev p2Fn (c : Dev nD) : Fin 10240 → EReal := fun n => (V c main_v31 : S1x10240.Idx → EReal) (ix2 (0 : Fin 1) n)

/-- Point t is batch tile t / 5 and class tile t % 5. -/
theorem idx_facts_region2 : ∀ t : Fin cfg2.N,
    win2_0.index t (0 : Fin 2) = t.val / 5 ∧ win2_0.index t (1 : Fin 2) = 0
    ∧ win2_1.index t (0 : Fin 2) = t.val % 5 ∧ win2_1.index t (1 : Fin 2) = 0
    ∧ win2_2.index t (0 : Fin 2) = 0 ∧ win2_2.index t (1 : Fin 2) = t.val % 5
    ∧ win2_3.index t (0 : Fin 2) = t.val / 5 ∧ win2_3.index t (1 : Fin 2) = 0 :=
  (by decide +kernel : ∀ t : Fin grid2.N, _)

/-- Class n of class tile j: 2048 * j + n for j below 5. -/
def clsPos (j : ℕ) (n : Fin 2048) : Fin 10240 := ⟨(2048 * j + n.val) % 10240, Nat.mod_lt _ (by decide)⟩

theorem iblk2_0_apply (c : Dev nD) (t : Fin cfg2.N) (r : Fin 1024) (k : Fin 128) (b : Fin 4096)
    (hb : b.val = 1024 * (t.val / 5) + r.val) :
    (iblk2 V c 0 t : S1024x128.Idx → EReal) (ix2 r k) = gRow V c b k := by
  obtain ⟨e0, e1, -⟩ := idx_facts_region2 t
  show V c main_v0 (((cfg2.win 0).blk t).view.emb (ix2 r k)) = V c main_v0 (ix2 b k)
  refine congrArg (V c main_v0) (Shape.idx_ext₂ ?_ ?_)
  · show win2_0.index t (0 : Fin 2) * 1024 + 1 * r.val = b.val; omega
  · show win2_0.index t (1 : Fin 2) * 128 + 1 * k.val = k.val; omega

theorem iblk2_1_apply (c : Dev nD) (t : Fin cfg2.N) (n : Fin 2048) (k : Fin 128) :
    (iblk2 V c 1 t : S2048x128.Idx → EReal) (ix2 n k) = pRow V c (clsPos (t.val % 5) n) k := by
  obtain ⟨-, -, e0, e1, -⟩ := idx_facts_region2 t
  show V c main_v26 (((cfg2.win 1).blk t).view.emb (ix2 n k)) = V c main_v26 _
  refine congrArg (V c main_v26) (Shape.idx_ext₂ ?_ ?_)
  · show win2_1.index t (0 : Fin 2) * 2048 + 1 * n.val = (2048 * (t.val % 5) + n.val) % 10240; omega
  · show win2_1.index t (1 : Fin 2) * 128 + 1 * k.val = k.val; omega

theorem iblk2_2_apply (c : Dev nD) (t : Fin cfg2.N) (n : Fin 2048) :
    (iblk2 V c 2 t : S1x2048.Idx → EReal) (ix2 (0 : Fin 1) n) = p2Fn V c (clsPos (t.val % 5) n) := by
  obtain ⟨-, -, -, -, e0, e1, -⟩ := idx_facts_region2 t
  show V c main_v31 (((cfg2.win 2).blk t).view.emb (ix2 (0 : Fin 1) n)) = V c main_v31 _
  refine congrArg (V c main_v31) (Shape.idx_ext₂ ?_ ?_)
  · show win2_2.index t (0 : Fin 2) * 1 + 1 * 0 = 0; omega
  · show win2_2.index t (1 : Fin 2) * 2048 + 1 * n.val = (2048 * (t.val % 5) + n.val) % 10240; omega

/-- Item b's margin terms summed over the 2048 classes of class tile j. -/
def tileRelu (c : Dev nD) (b : Fin 4096) (j : ℕ) : EReal :=
  Cert.Spec.rowRelu (gRow V c b) (fun n : Fin 2048 => pRow V c (clsPos j n)) (fun n : Fin 2048 => p2Fn V c (clsPos j n))

/-- What a point adds to row r of the running column: item 1024 (t / 5) + r's margin terms over class tile t % 5. -/
theorem point_relu (c : Dev nD) (t : Fin cfg2.N) (r : Fin 1024) (b : Fin 4096)
    (hb : b.val = 1024 * (t.val / 5) + r.val) :
    Cert.Spec.rowRelu (fun k : Fin 128 => (iblk2 V c 0 t : S1024x128.Idx → EReal) (ix2 r k))
      (fun (n : Fin 2048) (k : Fin 128) => (iblk2 V c 1 t : S2048x128.Idx → EReal) (ix2 n k))
      (fun n : Fin 2048 => (iblk2 V c 2 t : S1x2048.Idx → EReal) (ix2 (0 : Fin 1) n))
      = tileRelu V c b (t.val % 5) := by
  rw [funext fun k => iblk2_0_apply V c t r k b hb, funext fun n => funext fun k => iblk2_1_apply V c t n k,
    funext fun n => iblk2_2_apply V c t n]
  rfl

/-- The 10240 classes are five tiles of 2048, q = 2048 * j + n. -/
theorem tiles_sum (c : Dev nD) (b : Fin 4096) :
    ∑ j ∈ Finset.range 5, tileRelu V c b j = Cert.Spec.rowRelu (gRow V c b) (pRow V c) (p2Fn V c) := by
  unfold tileRelu Cert.Spec.rowRelu
  rw [Finset.sum_range, ← Equiv.sum_comp (finProdFinEquiv (m := 5) (n := 2048))
    (fun q : Fin 10240 => Cert.Spec.marg (Cert.Spec.dist2k (gRow V c b) (pRow V c q) (p2Fn V c q))), Fintype.sum_prod_type]
  refine Finset.sum_congr rfl fun j _ => Finset.sum_congr rfl fun n _ => ?_
  have e : (finProdFinEquiv (j, n) : Fin (5 * 2048)) = clsPos j.val n := Fin.ext (by
    show n.val + 2048 * j.val = (2048 * j.val + n.val) % 10240
    have := j.isLt; have := n.isLt; omega)
  rw [e]

/-- After point n, row r of the running column holds item 1024 (n / 5) + r's margin terms over class tiles 0 … n % 5. -/
theorem sAt2_apply (c : Dev nD) : ∀ (n : ℕ) (hn : n < cfg2.N) (r : Fin 1024) (b : Fin 4096)
    (hb : b.val = 1024 * (n / 5) + r.val),
    (sAt2 V c n hn : S1024x1.Idx → EReal) (ix2 r (0 : Fin 1)) = ∑ j ∈ Finset.range (n % 5 + 1), tileRelu V c b j := by
  intro n
  induction n using Nat.strong_induction_on with
  | _ n ih =>
    intro hn r b hb
    by_cases h0 : n % 5 = 0
    · refine (congrFun (sAt2_reset V c ⟨n, hn⟩ h0) _).trans ((k2_pay2_apply _ _ _ _ r).trans ?_)
      rw [k2_pay1_apply, zero_add, point_relu V c ⟨n, hn⟩ r b hb, h0, Finset.sum_range_one]
    · refine (congrFun (sAt2_step V c ⟨n, hn⟩ h0) _).trans ((k2_pay2_apply _ _ _ _ r).trans ?_)
      have e : (n - 1) % 5 + 1 = n % 5 := by omega
      refine (congrArg₂ (· + ·) (ih (n - 1) (by omega) _ r b (by omega)) (point_relu V c ⟨n, hn⟩ r b hb)).trans ?_
      rw [e]
      exact (Finset.sum_range_succ _ _).symm

/-- The output column: row b holds item b's margin terms over all the classes. -/
def rowsOut (c : Dev nD) : S4096x1.Idx → EReal := fun i => Cert.Spec.rowRelu (gRow V c (i 0)) (pRow V c) (p2Fn V c)

/-- At a batch tile's last point the column holds, for each of its 1024 items, the sum over all five class tiles. -/
theorem flushed2_3_eq (c : Dev nD) (t : Fin cfg2.N) (hf : (cfg2.win 3).flush t = true) :
    (dat2 V c).flushed 3 t = ((cfg2.win 3).blk t).view.read (Elt Ideal) (rowsOut V c) := by
  have h4 : t.val % 5 = 4 := (flush2_3 t).mp hf
  have ht : t.val < 20 := N_2 ▸ t.isLt
  obtain ⟨-, -, -, -, -, -, e0, e1⟩ := idx_facts_region2 t
  show (cfg2.win 3).cut (grid2.coords t) ((dat2 V c).after 3 t) = _
  rw [after2_3_last V c t h4]
  funext j
  obtain ⟨r, u, rfl⟩ : ∃ (r : Fin 1024) (u : Fin 1), j = (ix2 r u : S1024x1.Idx) :=
    ⟨j 0, j 1, eq_ix2 (n0 := 1024) (n1 := 1) j⟩
  obtain rfl : u = 0 := Subsingleton.elim _ _
  have hr := r.isLt
  show (sAt2 V c t.val t.isLt : S1024x1.Idx → EReal) (ix2 r (0 : Fin 1))
    = Cert.Spec.rowRelu (gRow V c ((((cfg2.win 3).blk t).view.emb (ix2 r (0 : Fin 1))) 0)) _ _
  rw [sAt2_apply V c t.val t.isLt r ⟨1024 * (t.val / 5) + r.val, by omega⟩ rfl, h4, tiles_sum]
  refine congrArg (fun b => Cert.Spec.rowRelu (gRow V c b) _ _) (Fin.ext ?_)
  show 1024 * (t.val / 5) + r.val = win2_3.index t (0 : Fin 2) * 1024 + 1 * r.val
  omega

/-- Row b of the output lies in the block of point 5 * (b / 1024) + 4, the last of its batch tile. -/
theorem cover2_3 (i : S4096x1.Idx) :
    ∃ t : Fin cfg2.N, (cfg2.win 3).flush t = true ∧ i ∈ ((cfg2.win 3).blk t).view.set := by
  have hi0 : (i 0).val < 4096 := (i 0).isLt
  have hi1 : (i 1).val < 1 := (i 1).isLt
  have hN : cfg2.N = 20 := N_2
  obtain ⟨t, ht⟩ : ∃ t : Fin cfg2.N, t.val = 5 * ((i 0).val / 1024) + 4 := ⟨⟨5 * ((i 0).val / 1024) + 4, by omega⟩, rfl⟩
  obtain ⟨-, -, -, -, -, -, e0, e1⟩ := idx_facts_region2 t
  refine ⟨t, (flush2_3 t).mpr (by omega), ?_⟩
  show i ∈ ((View.whole main_v32).slice (win2_3.rect t)).set
  rw [View.set_slice_whole, Rect.mem_set_unit]
  refine Fin.forall_fin_two.mpr ?_
  show (win2_3.index t (0 : Fin 2) * 1024 ≤ (i 0).val ∧ (i 0).val < win2_3.index t (0 : Fin 2) * 1024 + 1024)
    ∧ (win2_3.index t (1 : Fin 2) * 1 ≤ (i 1).val ∧ (i 1).val < win2_3.index t (1 : Fin 2) * 1 + 1)
  omega

theorem region2_rows (c : Dev nD) (b : Fin 4096) :
    ((dat2 (F := Ideal) V c).arrAt 3 cfg2.N : S4096x1.Idx → EReal) (ix2 b (0 : Fin 1))
      = Cert.Spec.rowRelu (fun k : Fin 128 => (V c main_v0 : S4096x128.Idx → EReal) (ix2 b k))
          (fun (n : Fin 10240) (k : Fin 128) => (V c main_v26 : S10240x128.Idx → EReal) (ix2 n k))
          (fun n : Fin 10240 => (V c main_v31 : S1x10240.Idx → EReal) (ix2 (0 : Fin 1) n)) :=
  congrFun ((dat2 V c).arrAt_eq_of_cover 3 (rowsOut V c) (flushed2_3_eq V c) cover2_3) (ix2 b (0 : Fin 1))

end Cert.KernelIdeal.Hand

end
-- ==== Proof.SpecLaws.lean ====
import proofs.«408336_j75806172774555_3_alg».proof.Proof.Spec
import Mathlib.Data.EReal.Operations

noncomputable section

namespace Cert.Spec

open Idealize.ShloMosaic

theorem two_eq : two = ((2 : ℝ) : EReal) := by
  unfold two
  simp [Ideal.ofBits, Ideal.ieee]
  rw [← EReal.coe_mul]
  norm_num

/-- The squared norm given to the padding rows: the binary32 word of 10^6. -/
def sentinel : EReal := Ideal.ofBits .f32 0x49742400#32

theorem sentinel_eq : sentinel = ((1000000 : ℝ) : EReal) := by
  unfold sentinel
  simp [Ideal.ofBits, Ideal.ieee]
  rw [← EReal.coe_mul]
  norm_num

/-- Multiplication by a nonnegative real distributes over extended-real addition, hence over a finite sum. -/
theorem two_mul_sum {K : Nat} (f : Fin K → EReal) : two * ∑ k : Fin K, f k = ∑ k : Fin K, two * f k := by
  rw [two_eq]
  refine Finset.induction_on (Finset.univ : Finset (Fin K)) (by simp) fun a s ha ih => ?_
  rw [Finset.sum_insert ha, Finset.sum_insert ha,
    EReal.left_distrib_of_nonneg_of_ne_top (by exact_mod_cast (by norm_num : (0 : ℝ) ≤ 2)) (EReal.coe_ne_top _), ih]

theorem dist2k_eq_dist2r {K : Nat} (g p : Fin K → EReal) (p2 : EReal) : dist2k g p p2 = dist2r g p p2 := by
  unfold dist2k dist2r
  rw [two_mul_sum]
  exact congrArg _ (Finset.sum_congr rfl fun k _ => (mul_assoc _ _ _).symm)

theorem sqn_nonneg {K : Nat} (v : Fin K → EReal) : 0 ≤ sqn v :=
  Finset.sum_nonneg fun k _ => by
    rcases le_total 0 (v k) with h | h
    · exact EReal.mul_nonneg h h
    · have h' : 0 ≤ -v k := by simpa using EReal.neg_le_neg_iff.mpr h
      simpa using EReal.mul_nonneg h' h'

theorem two_le_sqrt {y : EReal} (hy : ((4 : ℝ) : EReal) ≤ y) : ((2 : ℝ) : EReal) ≤ Ideal.sqrt y := by
  induction y using EReal.rec with
  | bot => exact absurd hy (by simp)
  | top => exact le_top
  | coe r =>
    have hr : (4 : ℝ) ≤ r := by exact_mod_cast hy
    show ((2 : ℝ) : EReal) ≤ (if r < 0 then (⊥ : EReal) else ((Real.sqrt r : ℝ) : EReal))
    rw [if_neg (by linarith)]
    exact EReal.coe_le_coe_iff.mpr ((Real.le_sqrt (by norm_num) (by linarith)).mpr (by norm_num; linarith))

/-- A zero row of squared norm 10^6 is at squared distance at least 10^6, so at distance at least 2: its margin term is 0. -/
theorem marg_pad {K : Nat} (g : Fin K → EReal) : marg (dist2k g (fun _ => 0) sentinel) = 0 := by
  have hd : dist2k g (fun _ => (0 : EReal)) sentinel = sqn g + sentinel := by
    unfold dist2k
    simp
  have hs : ((4 : ℝ) : EReal) ≤ sqn g + sentinel :=
    le_trans (by rw [sentinel_eq]; exact_mod_cast (by norm_num : (4 : ℝ) ≤ 1000000)) (le_add_of_nonneg_left (sqn_nonneg g))
  have h0 : (0 : EReal) ≤ sqn g + sentinel := le_trans (by exact_mod_cast (by norm_num : (0 : ℝ) ≤ 4)) hs
  rw [hd]
  unfold marg dist
  rw [max_eq_left h0, two_eq]
  exact max_eq_right (EReal.sub_nonpos.mpr (two_le_sqrt hs))

end Cert.Spec

end
-- ==== Proof.KI.HostRead.lean ====
import proofs.«408336_j75806172774555_3_alg».proof.Proof.KI.HostB
import proofs.«408336_j75806172774555_3_alg».proof.Proof.SpecLaws
import Idealize.ShloMosaic.Lib.IdealHost
import Idealize.ShloMosaic.Lib.ValueLayout
import Idealize.ShloMosaic.Lib.KernelVsHost

noncomputable section

namespace Cert.KernelIdeal.Hand

open Cert.KernelIdeal Cert.KernelIdeal.Gen Idealize.ShloMosaic Idealize.ShloMosaic.ValueIdx

theorem kLabRow_apply (a3 : IVec S4096 32) (b : Fin 4096) : kLabRow a3 (ix2 (0 : Fin 1) b) = a3 (ix1 b) :=
  shapeCast_a_1a_apply a3 _ 0 b

theorem kSmOf_apply (o2 : FVec Ideal S10240x128 .f32) (n : Fin 10000) (d : Fin 128) :
    kSmOf o2 (ix2 n d) = o2 (ix2 (⟨n.val, by omega⟩ : Fin 10240) d) :=
  slice2_axis0_apply 0 o2 _ n d _ (Nat.zero_add _).symm

/-- Entry i of the vector and entry (i, 0) of the column have the same row-major position. -/
theorem shapeCast_a1_a_apply {α : Type} {a : ℕ} (x : (⟨2, ![a, 1]⟩ : Shape).Idx → α)
    (h : (⟨2, ![a, 1]⟩ : Shape).ShapeCasts ⟨1, ![a]⟩) (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

theorem kCntOf_apply (o3 : FVec Ideal S10240x1 .f32) (n : Fin 10000) :
    kCntOf o3 (ix1 n) = o3 (ix2 (⟨n.val, by omega⟩ : Fin 10240) (0 : Fin 1)) :=
  (shapeCast_a1_a_apply _ _ n).trans (slice2_axis0_apply 0 o3 _ n 0 _ (Nat.zero_add _).symm)

theorem kPadBf_apply (pr : FVec Ideal S10000x128 .f32) (N : Fin 10240) (k : Fin 128) :
    kPadBf pr (ix2 N k) = if h : N.val < 10000 then pr (ix2 (⟨N.val, h⟩ : Fin 10000) k) else 0 := by
  unfold kPadBf
  rw [truncf_apply]
  split
  · next h =>
    refine pad_apply_of_inside _ _ _ pr _ _ _ (ix2 N k) (ix2 (⟨N.val, h⟩ : Fin 10000) k) fun a => ?_
    match a with
    | ⟨0, _⟩ => show N.val = 0 + N.val * (0 + 1); omega
    | ⟨1, _⟩ => show k.val = 0 + k.val * (0 + 1); omega
  · next h =>
    refine (pad_apply_of_not_inside _ _ _ pr _ _ _ (ix2 N k) (0 : Fin 2) ?_).trans ?_
    · show ¬(0 ≤ N.val ∧ (N.val - 0) % (0 + 1) = 0 ∧ (N.val - 0) / (0 + 1) < 10000)
      omega
    · show (((0#32 : BitVec 32).toInt : ℝ) : EReal) = 0
      simp

/-- For opening a row's sum of squares, or two rows' inner product, as a finite sum. -/
theorem hostRowSum_apply {A B : ℕ} (x : FVec Ideal ⟨2, ![A, B]⟩ .f32)
    (h' : (⟨2, ![A, B]⟩ : Shape).ReducesTo [1] ⟨1, ![A]⟩) (h : (⟨2, ![A, B]⟩ : Shape).Reduces [1] ⟨1, ![A]⟩)
    (hu : 0 < S_.numel) (r : Fin A) :
    Host.reduceAdd x (constant (F := Ideal) S_ .f32 0x00000000#32) h' hu (ix1 r) = ∑ k : Fin B, x (ix2 r k) := by
  rw [hostReduceAdd_apply, Ideal.hostReduceAdd_single h' h, constant_apply, Ideal.ofBits_zero_f32, zero_add]
  refine Finset.sum_congr rfl fun k _ => congrArg x ?_
  funext c
  refine Fin.ext ?_
  match c with
  | ⟨0, _⟩ => rfl
  | ⟨1, _⟩ => rfl

theorem kP2Of_apply (pr : FVec Ideal S10000x128 .f32) (N : Fin 10240) :
    kP2Of pr (ix2 (0 : Fin 1) N)
      = if h : N.val < 10000 then Cert.Spec.sqn (fun k : Fin 128 => pr (ix2 (⟨N.val, h⟩ : Fin 10000) k))
        else Cert.Spec.sentinel := by
  unfold kP2Of
  refine (shapeCast_a_1a_apply _ _ 0 N).trans ?_
  split
  · next h =>
    refine (concatenate_pair_apply_left (t := S10240) (s₁ := S10000) (s₂ := S240) (0 : Fin 1) _ _ concatenates_S10000_S240_S10240_d0 (ix1 N) rfl
      (ix1 (⟨N.val, h⟩ : Fin 10000)) (fun b => ?_)).trans ?_
    · match b with
      | ⟨0, _⟩ => rfl
    · rw [hostRowSum_apply _ reducesTo_S10000x128_S10000_d1 (by decide) h_S_]
      rfl
  · next h =>
    refine (concatenate_pair_apply_right (t := S10240) (s₁ := S10000) (s₂ := S240) (0 : Fin 1) _ _ concatenates_S10000_S240_S10240_d0 (ix1 N) rfl rfl
      (ix1 (⟨N.val - 10000, by omega⟩ : Fin 240)) (fun b hb => ?_) ?_).trans ?_
    · match b with
      | ⟨0, _⟩ => exact absurd rfl hb
    · show N.val - 10000 + 10000 = N.val
      omega
    · rw [broadcastInDim_scalar_apply, constant_apply]
      rfl

end Cert.KernelIdeal.Hand

end
-- ==== Proof.KI.HostReadC.lean ====
import proofs.«408336_j75806172774555_3_alg».proof.Proof.KI.HostC
import proofs.«408336_j75806172774555_3_alg».proof.Proof.KI.HostRead

noncomputable section

namespace Cert.KernelIdeal.Hand

open Cert.KernelIdeal Cert.KernelIdeal.Gen Idealize.ShloMosaic Idealize.ShloMosaic.ValueIdx

theorem kRowOf_apply (o : FVec Ideal S4096x1 .f32) (b : Fin 4096) : kRowOf o (ix1 b) = o (ix2 b (0 : Fin 1)) :=
  shapeCast_a1_a_apply o _ b

end Cert.KernelIdeal.Hand

end
-- ==== Proof.LibRowOps.lean ====
import Idealize.ShloMosaic.PureOps.Ideal
import Idealize.ShloMosaic.Lib.ValueIdx

noncomputable section

namespace Idealize.ShloMosaic.RowOps

open Idealize.ShloMosaic Idealize.ShloMosaic.ValueIdx

section General

variable {s si t : Shape} {w : Nat}

/-- On a collapsed, non-batching axis named by the start index map a gather reads the operand at the clamped start word. -/
theorem gather_collapsed (d : GatherDims s si t) (j : t.Idx) (idx : IVec si w) (a : Fin s.rank)
    (hb : a ∉ d.operandBatchingDims) (hc : a ∈ d.collapsedSliceDims) (hm : a ∈ d.startIndexMap) (q : si.Idx)
    (hq : d.siIdx j ⟨d.startIndexMap.idxOf a, List.idxOf_lt_length_iff.2 hm⟩ = q) :
    d.start j idx a + d.batchCoord j a + d.offCoord j a = min (idx q).toInt.toNat (s.size a - d.sliceSizes a) := by
  rw [d.batchCoord_eq_zero j a hb, d.offCoord_eq_zero j a fun h => ((d.mem_sKept a).1 h).1 hc]
  unfold GatherDims.start
  rw [dif_pos hm, hq]
  rfl

/-- An update lands on `r` exactly when start plus window coordinate is `r`'s coordinate on every axis. -/
theorem resultIdx?_eq_some_iff (d : ScatterDims s si t) (j : t.Idx) (idx : IVec si w) (r : s.Idx) :
    d.resultIdx? j idx = some r ↔ ∀ a, d.start j idx a + (d.window j a : ℤ) = ((r a).val : ℤ) := by
  unfold ScatterDims.resultIdx?
  split
  · rename_i h
    rw [Option.some.injEq]
    refine ⟨?_, fun hr => funext fun a => Fin.ext ?_⟩
    · rintro rfl a
      exact (Int.toNat_of_nonneg (h a).1).symm
    · show Int.toNat _ = _
      have := hr a
      omega
  · rename_i h
    refine ⟨fun hf => absurd hf (by simp), fun hr => (h fun a => ?_).elim⟩
    have := hr a
    have := (r a).isLt
    omega

/-- On an inserted axis named by the index map the landing coordinate is the destination word read signed. -/
theorem land_inserted (d : ScatterDims s si t) (j : t.Idx) (idx : IVec si w) (a : Fin s.rank)
    (hm : a ∈ d.scatterDimsToOperandDims) (hi : a ∉ d.sKept) (q : si.Idx)
    (hq : d.siIdx j ⟨d.scatterDimsToOperandDims.idxOf a, List.idxOf_lt_length_iff.2 hm⟩ = q) :
    d.start j idx a + (d.window j a : ℤ) = (idx q).toInt := by
  unfold ScatterDims.start ScatterDims.window
  rw [dif_pos hm, dif_neg hi, hq]
  simp

end General

abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A row gather at (e, c): the table at the clamped start row of e, column c. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    exact gather_collapsed (rowGather N E C wf) (ix2 e c) idx 0 List.not_mem_nil (List.mem_singleton.mpr rfl)
      (List.mem_singleton.mpr rfl) (ix2 e (0 : Fin 1))
      (funext fun b => Fin.ext (match b with | ⟨0, _⟩ => rfl | ⟨1, _⟩ => rfl))
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    unfold GatherDims.start GatherDims.offCoord
    rw [dif_neg (show (1 : Fin 2) ∉ ([0] : List (Fin 2)) by decide),
      dif_pos ((GatherDims.mem_sKept _ _).mpr ⟨(show (1 : Fin 2) ∉ ([0] : List (Fin 2)) by decide), List.not_mem_nil⟩)]
    simp only [Nat.add_zero, Nat.zero_add]
    rfl

abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Scatter

variable {N E C w : Nat} (wfr : ScatterDims.WF ⟨2, ![N, C]⟩ ⟨2, ![E, 1]⟩ ⟨2, ![E, C]⟩ [1] [0] [0] 1)
  (wfv : ScatterDims.WF ⟨1, ![N]⟩ ⟨2, ![E, 1]⟩ ⟨1, ![E]⟩ [] [0] [0] 1) (idx : IVec ⟨2, ![E, 1]⟩ w)

/-- Update element (p, q) of a row scatter lands on (n, c) exactly when q = c and row p's destination word is n. -/
theorem rowScatter_lands (p : Fin E) (q : Fin C) (n : Fin N) (c : Fin C) :
    (rowScatter N E C wfr).resultIdx? (ix2 p q) idx = some (ix2 n c)
      ↔ (q = c ∧ (idx (ix2 p (0 : Fin 1))).toInt = (n.val : ℤ)) := by
  have h0 := land_inserted (rowScatter N E C wfr) (ix2 p q) idx 0 (List.mem_singleton.mpr rfl)
    (show (0 : Fin 2) ∉ Shape.kept (⟨2, ![N, C]⟩ : Shape) ([0] : List (Fin 2)) by simp [Shape.kept]) (ix2 p (0 : Fin 1))
    (funext fun b => Fin.ext (match b with | ⟨0, _⟩ => rfl | ⟨1, _⟩ => rfl))
  have h1 : (rowScatter N E C wfr).start (ix2 p q) idx 1 + ((rowScatter N E C wfr).window (ix2 p q) 1 : ℤ) = (q.val : ℤ) := by
    unfold ScatterDims.start ScatterDims.window
    rw [dif_neg (show (1 : Fin 2) ∉ ([0] : List (Fin 2)) by decide),
      dif_pos (show (1 : Fin 2) ∈ Shape.kept (⟨2, ![N, C]⟩ : Shape) ([0] : List (Fin 2)) by simp [Shape.kept, List.mem_finRange]),
      Int.zero_add]
    rfl
  refine (resultIdx?_eq_some_iff _ _ _ _).trans ⟨fun h => ?_, ?_⟩
  · have e : (q.val : ℤ) = (c.val : ℤ) := h1.symm.trans (h 1)
    exact ⟨Fin.ext (by omega), h0.symm.trans (h 0)⟩
  · rintro ⟨rfl, hn⟩ a
    match a with
    | ⟨0, _⟩ => exact h0.trans hn
    | ⟨1, _⟩ => exact h1

/-- Update position p of a vector scatter lands on n exactly when its destination word is n. -/
theorem vecScatter_lands (p : Fin E) (n : Fin N) :
    (vecScatter N E wfv).resultIdx? (ix1 p) idx = some (ix1 n) ↔ (idx (ix2 p (0 : Fin 1))).toInt = (n.val : ℤ) := by
  have h0 := land_inserted (vecScatter N E wfv) (ix1 p) idx 0 (List.mem_singleton.mpr rfl)
    (show (0 : Fin 1) ∉ Shape.kept (⟨1, ![N]⟩ : Shape) ([0] : List (Fin 1)) by simp [Shape.kept]) (ix2 p (0 : Fin 1))
    (funext fun b => Fin.ext (match b with | ⟨0, _⟩ => rfl | ⟨1, _⟩ => rfl))
  refine (resultIdx?_eq_some_iff _ _ _ _).trans ⟨fun h => h0.symm.trans (h 0), fun hn a => ?_⟩
  match a with
  | ⟨0, _⟩ => exact h0.trans hn

/-- A row scatter-add at (n, c): the operand plus the updates' column c summed over the rows sent to n. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c) + ∑ e ∈ Finset.univ.filter (fun e : Fin E => (idx (ix2 e (0 : Fin 1))).toInt = (n.val : ℤ)),
          upd (ix2 e c) := by
  unfold Ideal.hostScatterAdd
  congr 1
  rw [Finset.sum_filter, sum_idx2, Finset.sum_filter]
  refine Finset.sum_congr rfl fun p _ => ?_
  simp only [rowScatter_lands wf idx, ite_and, Finset.sum_ite_eq', Finset.mem_univ, if_true]

/-- A vector scatter-add at n: the operand plus the updates summed over the positions sent to n. -/
theorem vecScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (vecScatter N E wf) x idx upd (ix1 n)
      = x (ix1 n) + ∑ e ∈ Finset.univ.filter (fun e : Fin E => (idx (ix2 e (0 : Fin 1))).toInt = (n.val : ℤ)),
          upd (ix1 e) := by
  unfold Ideal.hostScatterAdd
  congr 1
  refine Finset.sum_nbij' (fun j => (j 0 : Fin E)) ix1 (fun j hj => ?_) (fun e he => ?_) (fun j _ => (eq_ix1 j).symm)
    (fun _ _ => rfl) (fun j _ => congrArg upd (eq_ix1 j))
  · rw [Finset.mem_filter, eq_ix1 j] at hj
    exact Finset.mem_filter.mpr ⟨Finset.mem_univ _, (vecScatter_lands wf idx _ n).mp hj.2⟩
  · rw [Finset.mem_filter] at he ⊢
    exact ⟨Finset.mem_univ _, (vecScatter_lands wf idx e n).mpr he.2⟩

end Scatter

end Idealize.ShloMosaic.RowOps

end
-- ==== Proof.Ref.Read.lean ====
import proofs.«408336_j75806172774555_3_alg».proof.Proof.Ref.Run
import proofs.«408336_j75806172774555_3_alg».proof.Proof.Spec
import proofs.«408336_j75806172774555_3_alg».proof.Proof.LibRowOps
import Idealize.ShloMosaic.PureOps.Ideal.Laws
import Idealize.ShloMosaic.Lib.IdealHost
import Idealize.ShloMosaic.Lib.ValueIdx
import Idealize.ShloMosaic.Lib.Pipeline.Value

set_option Elab.async false

noncomputable section

namespace Cert.ReferenceIdeal.Hand

open Cert.ReferenceIdeal Cert.ReferenceIdeal.Gen Idealize.ShloMosaic Idealize.ShloMosaic.ValueIdx

theorem bcast0_apply {t : Shape} (h : S_.BroadcastsInDim t (![] : Fin 0 → Fin t.rank)) (w : BitVec 32) (j : t.Idx) :
    broadcastInDim t ![] h (constant (F := Ideal) S_ .f32 w) j = Ideal.ofBits .f32 w := rfl

/-- A vector made a column, read at (e, 0). -/
theorem col_apply {α : Type} {n : Nat} (h : (⟨1, ![n]⟩ : Shape).BroadcastsInDim ⟨2, ![n, 1]⟩ (![0] : Fin 1 → Fin 2))
    (hn : n ≠ 1) (x : (⟨1, ![n]⟩ : Shape).Idx → α) (e : Fin n) :
    broadcastInDim (⟨2, ![n, 1]⟩ : Shape) ![0] h x (ix2 e (0 : Fin 1)) = x (ix1 e) :=
  broadcastInDim_apply _ h x _ (ix1 e) fun a => by
    match a with
    | ⟨0, _⟩ => exact (if_neg (show ¬ (n = 1) from hn)).symm

/-- A column spread along rows of any width, read at (e, c). -/
theorem colRow_apply {α : Type} {n m : Nat} (h : (⟨2, ![n, 1]⟩ : Shape).BroadcastsInDim ⟨2, ![n, m]⟩ (![0, 1] : Fin 2 → Fin 2))
    (hn : n ≠ 1) (x : (⟨2, ![n, 1]⟩ : Shape).Idx → α) (e : Fin n) (c : Fin m) :
    broadcastInDim (⟨2, ![n, m]⟩ : Shape) ![0, 1] h x (ix2 e c) = x (ix2 e (0 : Fin 1)) :=
  broadcastInDim_apply _ h x _ (ix2 e (0 : Fin 1)) fun a => by
    match a with
    | ⟨0, _⟩ => exact (if_neg (show ¬ (n = 1) from hn)).symm
    | ⟨1, _⟩ => exact (if_pos rfl).symm

/-- The sum of squares along the rows of a table, started from the zero word, read at a row. -/
theorem rowSq_apply {N K : Nat} (hr : (⟨2, ![N, K]⟩ : Shape).ReducesTo [1] ⟨1, ![N]⟩)
    (hR : (⟨2, ![N, K]⟩ : Shape).Reduces [1] ⟨1, ![N]⟩) (hu : 0 < S_.numel) (v : FVec Ideal ⟨2, ![N, K]⟩ .f32) (b : Fin N) :
    Host.reduceAdd (F := Ideal) (mulf v v) (constant (F := Ideal) S_ .f32 0x00000000#32) hr hu (ix1 b)
      = Cert.Spec.sqn (fun k : Fin K => v (ix2 b k)) := by
  unfold Cert.Spec.sqn
  show Ideal.hostReduceAdd hr (mulf v v) (Ideal.ofBits .f32 0x00000000#32) (ix1 b) = _
  rw [Ideal.hostReduceAdd_single _ hR, Ideal.ofBits_zero_f32, zero_add]
  refine Finset.sum_congr rfl fun k _ => ?_
  have hl : hR.lift (ix1 b) k = ix2 b k := funext fun a => Fin.ext (by
    match a with
    | ⟨0, _⟩ => rfl
    | ⟨1, _⟩ => rfl)
  rw [hl]
  rfl

def pooledV (a0 : FVec Ideal S4096x64x128 .f32) : FVec Ideal S4096x128 .f32 :=
  Host.divf (F := Ideal) (Host.reduceAdd (F := Ideal) a0 (constant (F := Ideal) S_ .f32 0x00000000#32) reducesTo_S4096x64x128_S4096x128_d1 h_S_) (broadcastInDim S4096x128 ![] bcast_S_S4096x128 (constant (F := Ideal) S_ .f32 0x42800000#32))

theorem pooledV_apply (a0 : FVec Ideal S4096x64x128 .f32) (b : Fin 4096) (d : Fin 128) :
    pooledV a0 (ix2 b d) = Cert.Spec.pooled a0 b d := by
  unfold pooledV Cert.Spec.pooled Cert.Spec.c64
  show Ideal.div (Ideal.hostReduceAdd reducesTo_S4096x64x128_S4096x128_d1 a0 (Ideal.ofBits .f32 0x00000000#32) (ix2 b d)) (Ideal.ofBits .f32 0x42800000#32) = _
  have hR : S4096x64x128.Reduces [1] S4096x128 := by decide
  rw [Ideal.hostReduceAdd_single _ hR, Ideal.ofBits_zero_f32, zero_add]
  congr 1
  refine Finset.sum_congr rfl fun k _ => congrArg a0 (funext fun a => Fin.ext ?_)
  match a with
  | ⟨0, _⟩ => rfl
  | ⟨1, _⟩ => rfl
  | ⟨2, _⟩ => rfl

theorem gnOf_eq (a0 : FVec Ideal S4096x64x128 .f32) :
    gnOf a0 = Host.divf (F := Ideal) (pooledV a0) (broadcastInDim S4096x128 ![0, 1] bcast_S4096x1_S4096x128_0_1
      (maximumf (Host.sqrt (F := Ideal) (broadcastInDim S4096x1 ![0] bcast_S4096_S4096x1_0 (Host.reduceAdd (F := Ideal) (mulf (pooledV a0) (pooledV a0)) (constant (F := Ideal) S_ .f32 0x00000000#32) reducesTo_S4096x128_S4096_d1 h_S_)))
        (broadcastInDim S4096x1 ![] bcast_S_S4096x1 (constant (F := Ideal) S_ .f32 0x2B8CBCCC#32)))) := rfl

theorem gnOf_apply (a0 : FVec Ideal S4096x64x128 .f32) (b : Fin 4096) (d : Fin 128) :
    gnOf a0 (ix2 b d) = Cert.Spec.gn a0 b d := by
  rw [gnOf_eq]
  unfold Cert.Spec.gn Cert.Spec.eps
  show Ideal.div (pooledV a0 (ix2 b d)) (broadcastInDim (s := S4096x1) S4096x128 ![0, 1] bcast_S4096x1_S4096x128_0_1 _ (ix2 b d)) = _
  rw [pooledV_apply, colRow_apply _ (by decide)]
  show Ideal.div _ (max (Ideal.sqrt (broadcastInDim (s := S4096) S4096x1 ![0] bcast_S4096_S4096x1_0 _ (ix2 b (0 : Fin 1)))) (Ideal.ofBits .f32 0x2B8CBCCC#32)) = _
  rw [col_apply _ (by decide), rowSq_apply (N := 4096) (K := 128) _ (by decide)]
  simp only [pooledV_apply]

theorem cntOf_apply (a3 : IVec S4096 32) (n : Fin 10000) :
    cntOf (F := Ideal) a3 (ix1 n) = Cert.Spec.segCnt (fun e : Fin 4096 => a3 (ix1 e)) n.val := by
  unfold cntOf Cert.Spec.segCnt Cert.Spec.segSum
  show Ideal.hostScatterAdd (RowOps.vecScatter 10000 4096 scatter_S10000_S4096x1_S4096_n_0_0_1_wf) _ _ _ (ix1 n) = _
  rw [RowOps.vecScatterAdd_apply, bcast0_apply, Ideal.ofBits_zero_f32, zero_add]
  simp only [col_apply _ (show (4096 : Nat) ≠ 1 by decide)]
  exact Finset.sum_congr rfl fun e _ => (bcast0_apply _ _ _).trans Ideal.ofBits_one_f32

theorem smOf_apply (a3 : IVec S4096 32) (gn : FVec Ideal S4096x128 .f32) (n : Fin 10000) (d : Fin 128) :
    smOf a3 gn (ix2 n d) = Cert.Spec.segSum (fun e : Fin 4096 => a3 (ix1 e)) (fun e : Fin 4096 => gn (ix2 e d)) n.val := by
  unfold smOf Cert.Spec.segSum
  show Ideal.hostScatterAdd (RowOps.rowScatter 10000 4096 128 scatter_S10000x128_S4096x1_S4096x128_1_0_0_1_wf) _ _ _ (ix2 n d) = _
  rw [RowOps.rowScatterAdd_apply, bcast0_apply, Ideal.ofBits_zero_f32, zero_add]
  simp only [col_apply _ (show (4096 : Nat) ≠ 1 by decide)]

end Cert.ReferenceIdeal.Hand

end
-- ==== Proof.Ref.ReadDist.lean ====
import proofs.«408336_j75806172774555_3_alg».proof.Proof.Ref.Read
import Idealize.ShloMosaic.Lib.StackMember
import Idealize.ShloMosaic.Lib.ValueLayout

noncomputable section

namespace Cert.ReferenceIdeal.Hand

open Cert.ReferenceIdeal Cert.ReferenceIdeal.Gen Idealize.ShloMosaic Idealize.ShloMosaic.ValueIdx

/-- A quantity per batch row, made a column and spread along the classes, reads its row's value. -/
theorem rd_colBcast (v : FVec Ideal S4096 .f32) (b : Fin 4096) (c : Fin 10000) :
    broadcastInDim S4096x10000 ![0, 1] bcast_S4096x1_S4096x10000_0_1 (broadcastInDim S4096x1 ![0] bcast_S4096_S4096x1_0 v) (ix2 b c) = v (ix1 b) :=
  (colRow_apply _ (by decide) _ b c).trans (col_apply _ (by decide) v b)

/-- A quantity per class row, made a row and spread along the batch, reads its class's value. -/
theorem rd_rowBcast (v : FVec Ideal S10000 .f32) (b : Fin 4096) (c : Fin 10000) :
    broadcastInDim S4096x10000 ![0, 1] bcast_S1x10000_S4096x10000_0_1 (broadcastInDim S1x10000 ![1] bcast_S10000_S1x10000_1 v) (ix2 b c) = v (ix1 c) :=
  (broadcastInDim_apply _ _ _ (ix2 b c) (ix2 (0 : Fin 1) c) (fun a => match a with | ⟨0, _⟩ => rfl | ⟨1, _⟩ => rfl)).trans
    (broadcastInDim_apply _ _ _ (ix2 (0 : Fin 1) c) (ix1 c) (fun a => match a with | ⟨0, _⟩ => rfl))

/-- The cross term at (b, c): the doubled batch row against the transposed class table, a plain matrix product. -/
theorem rd_cross (gn : FVec Ideal S4096x128 .f32) (pr : FVec Ideal S10000x128 .f32) (b : Fin 4096) (c : Fin 10000) :
    Host.dotGeneral dot_S4096x128_S128x10000_S4096x10000_1_0_0_1_n_n none
        (mulf (broadcastInDim S4096x128 ![] bcast_S_S4096x128 (constant (F := Ideal) S_ .f32 0x40000000#32)) gn)
        (transpose S128x10000 [1, 0] pr transposes_S10000x128_S128x10000_1_0) (ix2 b c)
      = ∑ k : Fin 128, (Cert.Spec.two * gn (ix2 b k)) * pr (ix2 c k) :=
  (StackMember.dotGeneral_plain_apply (m := 4096) (n := 10000) none _ _ b c).trans
    (Finset.sum_congr rfl fun k _ => by rw [mulf_apply, bcast0_apply, transpose_ix2_apply]; rfl)

/-- The reference's distance from batch row `b` to class row `c`. -/
theorem distOf_apply (gn : FVec Ideal S4096x128 .f32) (pr : FVec Ideal S10000x128 .f32) (b : Fin 4096) (c : Fin 10000) :
    distOf gn pr (ix2 b c) = Cert.Spec.dist (Cert.Spec.dist2r (fun k : Fin 128 => gn (ix2 b k)) (fun k : Fin 128 => pr (ix2 c k)) (Cert.Spec.sqn (fun k : Fin 128 => pr (ix2 c k)))) := by
  unfold distOf
  dsimp only
  rw [show ∀ (x : FVec Ideal S4096x10000 .f32) (j : S4096x10000.Idx), Host.sqrt x j = Ideal.sqrt (x j) from fun _ _ => rfl]
  rw [maximumf_apply, subf_apply, addf_apply, rd_colBcast, rd_rowBcast, rowSq_apply (N := 4096) (K := 128) _ (by decide),
    rowSq_apply (N := 10000) (K := 128) _ (by decide), bcast0_apply, Ideal.ofBits_zero_f32, rd_cross]
  rfl

/-- The reference's margin sum over all pairs. -/
theorem allReluOf_apply (dist : FVec Ideal S4096x10000 .f32) :
    allReluOf dist ix0 = ∑ b : Fin 4096, ∑ c : Fin 10000, max (Cert.Spec.two - dist (ix2 b c)) 0 := by
  unfold allReluOf
  rw [hostReduceAdd_apply]
  refine (Ideal.hostReduceAdd_total reducesTo_S4096x10000_S_d0_1 (fun b => b.elim0) _ _ _).trans ?_
  rw [show constant (F := Ideal) S_ .f32 0x00000000#32 (Shape.Idx.first h_S_) = (0 : EReal) from Ideal.ofBits_zero_f32, zero_add, sum_idx2]
  refine Finset.sum_congr rfl fun b _ => Finset.sum_congr rfl fun c _ => ?_
  rw [maximumf_apply, subf_apply, bcast0_apply, bcast0_apply, Ideal.ofBits_zero_f32]
  rfl

end Cert.ReferenceIdeal.Hand

end
-- ==== Proof.SpecPad.lean ====
import proofs.«408336_j75806172774555_3_alg».proof.Proof.SpecLaws
import Mathlib.Algebra.BigOperators.Fin

noncomputable section

namespace Cert.Spec

open Idealize.ShloMosaic

/-- Each of the 240 padding rows after the 10000 class rows contributes 0 to an item's margin sum. -/
theorem rowRelu_padded {K : Nat} (g : Fin K → EReal) (P : Fin 10000 → Fin K → EReal) :
    rowRelu (C := 10240) g (fun N k => if h : N.val < 10000 then P ⟨N.val, h⟩ k else 0)
      (fun N => if h : N.val < 10000 then sqn (P ⟨N.val, h⟩) else sentinel)
    = ∑ c : Fin 10000, marg (dist2r g (P c) (sqn (P c))) := by
  unfold rowRelu
  refine (Fin.sum_univ_add (a := 10000) (b := 240) _).trans ?_
  have e1 : ∀ i : Fin 10000, (Fin.castAdd 240 i : Fin (10000 + 240)).val < 10000 := fun i => by simp
  have e2 : ∀ j : Fin 240, ¬ (Fin.natAdd 10000 j : Fin (10000 + 240)).val < 10000 := fun j => by simp
  simp only [dif_pos (e1 _), dif_neg (e2 _), marg_pad, Finset.sum_const_zero, add_zero]
  simp only [dist2k_eq_dist2r]
  rfl

end Cert.Spec

end
-- ==== Proof.Bridge.Stages.lean ====
import proofs.«408336_j75806172774555_3_alg».proof.Proof.KI.HostRead
import proofs.«408336_j75806172774555_3_alg».proof.Proof.KI.HostReadC
import proofs.«408336_j75806172774555_3_alg».proof.Proof.Ref.ReadDist
import proofs.«408336_j75806172774555_3_alg».proof.Proof.SpecPad
import Idealize.ShloMosaic.Lib.ValueIdxRank1

noncomputable section

namespace Cert.Bridge

open Idealize.ShloMosaic Idealize.ShloMosaic.ValueIdx Cert.KernelIdeal.Hand Cert.ReferenceIdeal.Hand

variable [Cert.KernelIdeal.Facts] [Cert.ReferenceIdeal.Facts]

/-- The host's sum of a vector into a scalar, started from the zero word, is the sum of the entries. -/
theorem hostSum_apply {A : ℕ} (x : FVec Ideal ⟨1, ![A]⟩ .f32)
    (h' : (⟨1, ![A]⟩ : Shape).ReducesTo [0] Cert.KernelIdeal.S_) (hu : 0 < Cert.KernelIdeal.S_.numel) :
    Host.reduceAdd x (constant (F := Ideal) Cert.KernelIdeal.S_ .f32 0x00000000#32) h' hu ix0 = ∑ b : Fin A, x (ix1 b) := by
  refine (Ideal.hostReduceAdd_total h' (fun b => b.elim0) x _ ix0).trans ?_
  show Ideal.ofBits .f32 0x00000000#32 + _ = _
  rw [Ideal.ofBits_zero_f32, zero_add]
  exact (Equiv.sum_comp (idxEquiv1 (n := A)).symm x).symm

/-- The first 10000 entries of a padded column holding each class's item count are the reference's counts. -/
theorem cnt_bridge (a3 : IVec Cert.KernelIdeal.S4096 32) (o3 : FVec Ideal Cert.KernelIdeal.S10240x1 .f32)
    (h3 : ∀ n : Fin 10240, o3 (ix2 n (0 : Fin 1))
      = Cert.Spec.segCnt (fun b : Fin 4096 => kLabRow a3 (ix2 (0 : Fin 1) b)) n.val) :
    kCntOf o3 = cntOf (F := Ideal) a3 := by
  funext j
  obtain ⟨n, rfl⟩ : ∃ n : Fin 10000, j = ix1 n := ⟨j 0, eq_ix1 j⟩
  refine (kCntOf_apply o3 n).trans ((h3 _).trans ((cntOf_apply a3 n).symm ▸ ?_))
  simp only [kLabRow_apply]

/-- The first 10000 rows of a padded table holding each class's feature sums are the reference's sums. -/
theorem sm_bridge (a3 : IVec Cert.KernelIdeal.S4096 32) (gn : FVec Ideal Cert.KernelIdeal.S4096x128 .f32)
    (o2 : FVec Ideal Cert.KernelIdeal.S10240x128 .f32)
    (h2 : ∀ (n : Fin 10240) (d : Fin 128), o2 (ix2 n d)
      = Cert.Spec.segSum (fun b : Fin 4096 => kLabRow a3 (ix2 (0 : Fin 1) b)) (fun b : Fin 4096 => gn (ix2 b d)) n.val) :
    kSmOf o2 = smOf a3 gn := by
  funext j
  obtain ⟨n, d, rfl⟩ : ∃ (n : Fin 10000) (d : Fin 128), j = ix2 n d := ⟨j 0, j 1, eq_ix2 j⟩
  refine (kSmOf_apply o2 n d).trans ((h2 _ d).trans ((smOf_apply a3 gn n d).symm ▸ ?_))
  simp only [kLabRow_apply]

/-- The items' margin sums over the padded class table add up to the sum over all (item, class) pairs: padding rows contribute 0. -/
theorem sum_bridge (gn : FVec Ideal Cert.KernelIdeal.S4096x128 .f32) (pr : FVec Ideal Cert.KernelIdeal.S10000x128 .f32)
    (o32 : FVec Ideal Cert.KernelIdeal.S4096x1 .f32)
    (h32 : ∀ b : Fin 4096, o32 (ix2 b (0 : Fin 1))
      = Cert.Spec.rowRelu (fun k : Fin 128 => gn (ix2 b k)) (fun (N : Fin 10240) (k : Fin 128) => kPadBf pr (ix2 N k))
          (fun N : Fin 10240 => kP2Of pr (ix2 (0 : Fin 1) N))) :
    kSumOf (kRowOf o32) = allReluOf (distOf gn pr) := by
  funext j
  obtain rfl : j = ix0 := eq_ix0 j
  rw [allReluOf_apply]
  unfold kSumOf
  refine (hostSum_apply _ _ _).trans (Finset.sum_congr rfl fun b _ => ?_)
  rw [kRowOf_apply, h32 b, show (fun (N : Fin 10240) (k : Fin 128) => kPadBf pr (ix2 N k)) = _ from
      funext fun N => funext fun k => kPadBf_apply pr N k,
    show (fun N : Fin 10240 => kP2Of pr (ix2 (0 : Fin 1) N)) = _ from funext fun N => kP2Of_apply pr N]
  refine (Cert.Spec.rowRelu_padded (fun k : Fin 128 => gn (ix2 b k))
    (fun (c : Fin 10000) (k : Fin 128) => pr (ix2 c k))).trans (Finset.sum_congr rfl fun c _ => ?_)
  rw [distOf_apply]
  rfl

end Cert.Bridge

end
-- ==== Proof.KI.HostReadOwn.lean ====
import proofs.«408336_j75806172774555_3_alg».proof.Proof.KI.HostC
import proofs.«408336_j75806172774555_3_alg».proof.Proof.KI.HostRead
import proofs.«408336_j75806172774555_3_alg».proof.Proof.LibRowOps
import Idealize.ShloMosaic.Lib.Affine

noncomputable section

namespace Cert.KernelIdeal.Hand

open Cert.KernelIdeal Cert.KernelIdeal.Gen Idealize.ShloMosaic Idealize.ShloMosaic.ValueIdx

theorem own_foldl_andi_of_all {ι : Type} (f : ι → BitVec 1) :
    ∀ (l : List ι), (∀ n ∈ l, f n = 1#1) → l.foldl (fun r n => IntOp.andi r (f n)) 1#1 = 1#1
  | [], _ => rfl
  | a :: l, h => by
    have e : IntOp.andi 1#1 1#1 = 1#1 := by decide
    rw [List.foldl_cons, h a List.mem_cons_self, e]
    exact own_foldl_andi_of_all f l (fun n hn => h n (List.mem_cons_of_mem _ hn))

theorem own_reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  refine own_foldl_andi_of_all x _ fun n hn => hx n ?_
  have h2 := (List.mem_filter.1 hn).2
  simpa using h2

theorem own_toInt_zero : (0#32 : BitVec 32).toInt = 0 := by decide
theorem own_toInt_9999 : (9999#32 : BitVec 32).toInt = 9999 := by decide

/-- For reading a per-sample word that was laid along the rows of a column or a rectangle. -/
theorem bcast_axis0_apply {α : Type} {n m : ℕ} (h : (⟨1, ![n]⟩ : Shape).BroadcastsInDim ⟨2, ![n, m]⟩ ![0])
    (v : (⟨1, ![n]⟩ : Shape).Idx → α) (b : Fin n) (k : Fin m) :
    broadcastInDim ⟨2, ![n, m]⟩ ![0] h v (ix2 b k) = v (ix1 b) := by
  refine broadcastInDim_apply _ _ v _ (ix1 b) fun a => ?_
  match a with
  | ⟨0, _⟩ =>
    have := b.isLt
    show b.val = if n = 1 then 0 else b.val
    split <;> omega

theorem ownIdx_apply (a3 : IVec S4096 32) (b : Fin 4096) (h0 : 0 ≤ (a3 (ix1 b)).toInt) :
    ownIdx a3 (ix2 b (0 : Fin 1)) = a3 (ix1 b) := by
  unfold ownIdx
  rw [bcast_axis0_apply, select_apply]
  have hc : cmpi .slt a3 (broadcastInDim S4096 ![] bcast_S_S4096 (constantI S_ 32 0#32)) (ix1 b) = 0#1 := by
    refine eq_zero_of_ne_one fun e => ?_
    have e' : (a3 (ix1 b)).toInt < (0#32 : BitVec 32).toInt := IntOp.cmpi_slt.1 e
    rw [own_toInt_zero] at e'
    omega
  rw [hc, select_zero]

theorem ownMask_apply (v5 : IVec S4096x1 32) (b : Fin 4096)
    (h : 0 ≤ (v5 (ix2 b (0 : Fin 1))).toInt ∧ (v5 (ix2 b (0 : Fin 1))).toInt ≤ 9999) : ownMask v5 (ix1 b) = 1#1 := by
  unfold ownMask
  refine own_reduce_andi_of_all _ _ _ _ _ rfl fun i hi => ?_
  have hv : ((reducesTo_S4096x1_S4096_d1).drop i 0 : Nat) = i 0 :=
    Shape.ReducesTo.drop_apply_val_of_eq reducesTo_S4096x1_S4096_d1 i 0 0
  rw [hi] at hv
  have hi1 : (i 1).val = 0 := by
    have := (i 1).isLt
    have e : S4096x1.size 1 = 1 := by decide
    omega
  have hie : i = ix2 b (0 : Fin 1) := by
    funext a
    refine Fin.ext ?_
    match a with
    | ⟨0, _⟩ => exact hv.symm
    | ⟨1, _⟩ => exact hi1
  rw [hie]
  refine IntOp.andi_eq_one.2 ⟨IntOp.cmpi_sge.2 ?_, IntOp.cmpi_sle.2 ?_⟩
  · show (0#32 : BitVec 32).toInt ≤ _
    rw [own_toInt_zero]; exact h.1
  · show _ ≤ (9999#32 : BitVec 32).toInt
    rw [own_toInt_9999]; exact h.2

theorem kTakeOf_apply {F : FTy → Type} [FloatOps F] (a3 : IVec S4096 32) (pr : FVec F S10000x128 .f32) (b : Fin 4096) (k : Fin 128)
    (hlab : 0 ≤ (a3 (ix1 b)).toInt ∧ (a3 (ix1 b)).toInt < 10000) :
    kTakeOf a3 pr (ix2 b k) = pr (ix2 (⟨(a3 (ix1 b)).toInt.toNat, by omega⟩ : Fin 10000) k) := by
  have hw := ownIdx_apply a3 b hlab.1
  have hm : ownMask (ownIdx a3) (ix1 b) = 1#1 := ownMask_apply _ b (by rw [hw]; omega)
  unfold kTakeOf
  rw [select_apply, bcast_axis0_apply, hm, select_one]
  refine (RowOps.rowGather_apply (N := 10000) (E := 4096) (C := 128) (by decide) gather_S10000x128_S4096x1_S4096x128_1_0_n_n_0_1_1128_wf
    pr (ownIdx a3) b k).trans ?_
  refine congrArg pr (congrArg (fun r : Fin 10000 => ix2 r k) (Fin.ext ?_))
  show min (ownIdx a3 (ix2 b (0 : Fin 1))).toInt.toNat (10000 - 1) = (a3 (ix1 b)).toInt.toNat
  rw [hw]
  omega

theorem own_hostSqrt_apply {s : Shape} (x : FVec Ideal s .f32) (i : s.Idx) : Host.sqrt x i = Ideal.sqrt (x i) := rfl

theorem kDistOf_apply (gn tk : FVec Ideal S4096x128 .f32) (b : Fin 4096) :
    kDistOf gn tk (ix1 b) = Cert.Spec.dist (Cert.Spec.dist2k (fun k : Fin 128 => gn (ix2 b k)) (fun k : Fin 128 => tk (ix2 b k))
      (Cert.Spec.sqn (fun k : Fin 128 => tk (ix2 b k)))) := by
  have e := fun x : FVec Ideal S4096x128 .f32 => hostRowSum_apply x reducesTo_S4096x128_S4096_d1 (by decide) h_S_ b
  unfold kDistOf kRowDot kRound
  rw [own_hostSqrt_apply, maximumf_apply, subf_apply, addf_apply, mulf_apply, e, e, e,
    broadcastInDim_scalar_apply, broadcastInDim_scalar_apply, constant_apply, constant_apply, Ideal.ofBits_zero_f32]
  rfl

theorem kOwnOf_apply (a3 : IVec S4096 32) (gn : FVec Ideal S4096x128 .f32) (pr : FVec Ideal S10000x128 .f32) (b : Fin 4096)
    (hlab : 0 ≤ (a3 (ix1 b)).toInt ∧ (a3 (ix1 b)).toInt < 10000) :
    kOwnOf a3 gn pr (ix1 b) = Cert.Spec.dist (Cert.Spec.dist2k (fun k : Fin 128 => gn (ix2 b k))
      (fun k : Fin 128 => pr (ix2 (⟨(a3 (ix1 b)).toInt.toNat, by omega⟩ : Fin 10000) k))
      (Cert.Spec.sqn (fun k : Fin 128 => pr (ix2 (⟨(a3 (ix1 b)).toInt.toNat, by omega⟩ : Fin 10000) k)))) := by
  unfold kOwnOf
  rw [kDistOf_apply]
  have e : (fun k : Fin 128 => kTakeOf a3 pr (ix2 b k))
      = fun k : Fin 128 => pr (ix2 (⟨(a3 (ix1 b)).toInt.toNat, by omega⟩ : Fin 10000) k) :=
    funext fun k => kTakeOf_apply a3 pr b k hlab
  rw [e]

end Cert.KernelIdeal.Hand

end
-- ==== Proof.LibPointGather.lean ====
import proofs.«408336_j75806172774555_3_alg».proof.Proof.LibRowOps

noncomputable section

namespace Idealize.ShloMosaic.RowOps

open Idealize.ShloMosaic Idealize.ShloMosaic.ValueIdx

abbrev pointGather (N M E : Nat)
    (wf : GatherDims.WF ⟨2, ![N, M]⟩ ⟨2, ![E, 2]⟩ ⟨1, ![E]⟩ [] [0, 1] [] [0, 1] [] 1 ![1, 1]) :
    GatherDims ⟨2, ![N, M]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

/-- A point gather at e: the table at the pair of clamped start words of e; both axes are collapsed and in the index map. -/
theorem pointGather_apply {α : Type} {N M E w : Nat} (hN : 0 < N) (hM : 0 < M)
    (wf : GatherDims.WF ⟨2, ![N, M]⟩ ⟨2, ![E, 2]⟩ ⟨1, ![E]⟩ [] [0, 1] [] [0, 1] [] 1 ![1, 1])
    (x : (⟨2, ![N, M]⟩ : Shape).Idx → α) (idx : IVec ⟨2, ![E, 2]⟩ w) (e : Fin E) :
    Host.gather (pointGather N M E wf) x idx (ix1 e)
      = x (ix2 (⟨min (idx (ix2 e (0 : Fin 2))).toInt.toNat (N - 1), by omega⟩ : Fin N)
               (⟨min (idx (ix2 e (1 : Fin 2))).toInt.toNat (M - 1), by omega⟩ : Fin M)) := by
  have hm0 : (0 : Fin 2) ∈ ([0, 1] : List (Fin 2)) := List.mem_cons_self
  have hm1 : (1 : Fin 2) ∈ ([0, 1] : List (Fin 2)) := List.mem_cons_of_mem _ (List.mem_singleton.mpr rfl)
  unfold Host.gather
  congr 1
  funext a
  refine Fin.ext ?_
  match a with
  | ⟨0, _⟩ =>
    exact gather_collapsed (pointGather N M E wf) (ix1 e) idx 0 List.not_mem_nil hm0 hm0 (ix2 e (0 : Fin 2))
      (funext fun b => Fin.ext (match b with | ⟨0, _⟩ => rfl | ⟨1, _⟩ => rfl))
  | ⟨1, _⟩ =>
    exact gather_collapsed (pointGather N M E wf) (ix1 e) idx 1 List.not_mem_nil hm1 hm1 (ix2 e (1 : Fin 2))
      (funext fun b => Fin.ext (match b with | ⟨0, _⟩ => rfl | ⟨1, _⟩ => rfl))

end Idealize.ShloMosaic.RowOps

end
-- ==== Proof.Ref.ReadOwn.lean ====
import proofs.«408336_j75806172774555_3_alg».proof.Proof.Ref.Run
import proofs.«408336_j75806172774555_3_alg».proof.Proof.LibPointGather
import Idealize.ShloMosaic.PureOps.Ideal
import Idealize.ShloMosaic.Lib.ValueIdx
import Idealize.ShloMosaic.Lib.WordArith
import Idealize.ShloMosaic.Lib.Pipeline.Value

noncomputable section

namespace Cert.ReferenceIdeal.Hand

open Cert.ReferenceIdeal Cert.ReferenceIdeal.Gen Idealize.ShloMosaic Idealize.ShloMosaic.ValueIdx

/-- A start word replaced by itself plus an extent where it reads negative is the word itself where it does not. -/
theorem wrap_of_nonneg (x d : BitVec 32) (h : 0 ≤ x.toInt) :
    Scalar.select (IntOp.cmpi .slt x 0#32) (IntOp.addi x d) x = x := by
  have hc : IntOp.cmpi .slt x 0#32 = 0#1 := eq_zero_of_ne_one fun h1 => by
    have := IntOp.cmpi_slt.1 h1
    rw [BitVec.toInt_zero] at this
    omega
  rw [hc, select_zero]

theorem rowIdx_apply (b : Fin 4096) : rowIdx (ix2 b (0 : Fin 1)) = BitVec.ofNat 32 b.val := by
  unfold rowIdx
  refine (broadcastInDim_apply _ _ _ _ (ix1 b) (fun a => by match a with | ⟨0, _⟩ => rfl)).trans
    (wrap_of_nonneg (BitVec.ofNat 32 b.val) 4096#32 ?_)
  rw [WordArith.toInt_ofNat_small _ (by have := b.isLt; omega)]
  omega

theorem colIdx_apply (a3 : IVec S4096 32) (b : Fin 4096) (h : 0 ≤ (a3 (ix1 b)).toInt) :
    colIdx a3 (ix2 b (0 : Fin 1)) = a3 (ix1 b) := by
  unfold colIdx
  exact (broadcastInDim_apply _ _ _ _ (ix1 b) (fun a => by match a with | ⟨0, _⟩ => rfl)).trans
    (wrap_of_nonneg (a3 (ix1 b)) 10000#32 h)

theorem idxOf_apply0 (a3 : IVec S4096 32) (b : Fin 4096) : idxOf a3 (ix2 b (0 : Fin 2)) = rowIdx (ix2 b (0 : Fin 1)) := by
  unfold idxOf
  exact concatenate_pair_apply_left 1 rowIdx (colIdx a3) _ (ix2 b (0 : Fin 2)) rfl (ix2 b (0 : Fin 1))
    (fun a => by match a with | ⟨0, _⟩ => rfl | ⟨1, _⟩ => rfl)

theorem idxOf_apply1 (a3 : IVec S4096 32) (b : Fin 4096) : idxOf a3 (ix2 b (1 : Fin 2)) = colIdx a3 (ix2 b (0 : Fin 1)) := by
  unfold idxOf
  exact concatenate_pair_apply_right 1 rowIdx (colIdx a3) _ (ix2 b (1 : Fin 2)) rfl rfl (ix2 b (0 : Fin 1))
    (fun a => by match a with | ⟨0, _⟩ => exact fun _ => rfl | ⟨1, _⟩ => exact fun hne => absurd rfl hne)
    rfl

/-- The row counter and a label in [0, 10000) are neither wrapped nor clamped: row `b` reads the table at (b, its label). -/
theorem ownOf_apply (a3 : IVec S4096 32) (dist : FVec Ideal S4096x10000 .f32) (b : Fin 4096)
    (hlab : 0 ≤ (a3 (ix1 b)).toInt ∧ (a3 (ix1 b)).toInt < 10000) :
    ownOf a3 dist (ix1 b) = dist (ix2 b (⟨(a3 (ix1 b)).toInt.toNat, by omega⟩ : Fin 10000)) := by
  refine (RowOps.pointGather_apply (by omega) (by omega) Facts₀.gather_S4096x10000_S4096x2_S4096_n_01_n_n_01_1_11_wf
    dist (idxOf a3) b).trans (congrArg dist (funext fun a => Fin.ext ?_))
  match a with
  | ⟨0, _⟩ =>
    show min (idxOf a3 (ix2 b (0 : Fin 2))).toInt.toNat (4096 - 1) = b.val
    rw [idxOf_apply0, rowIdx_apply, WordArith.toInt_ofNat_small _ (by have := b.isLt; omega)]
    have := b.isLt
    omega
  | ⟨1, _⟩ =>
    show min (idxOf a3 (ix2 b (1 : Fin 2))).toInt.toNat (10000 - 1) = (a3 (ix1 b)).toInt.toNat
    rw [idxOf_apply1, colIdx_apply a3 b hlab.1]
    omega

end Cert.ReferenceIdeal.Hand

end
-- ==== Proof.Bridge.Own.lean ====
import proofs.«408336_j75806172774555_3_alg».proof.Proof.KI.HostB
import proofs.«408336_j75806172774555_3_alg».proof.Proof.KI.HostC
import proofs.«408336_j75806172774555_3_alg».proof.Proof.KI.HostReadOwn
import proofs.«408336_j75806172774555_3_alg».proof.Proof.Ref.ReadOwn
import proofs.«408336_j75806172774555_3_alg».proof.Proof.Ref.ReadDist
import proofs.«408336_j75806172774555_3_alg».proof.Proof.SpecLaws

noncomputable section

namespace Cert.Bridge

open Idealize.ShloMosaic Idealize.ShloMosaic.ValueIdx Cert.KernelIdeal.Hand Cert.ReferenceIdeal.Hand

variable [Cert.KernelIdeal.Facts] [Cert.ReferenceIdeal.Facts]

/-- The two programs compute their six results by the same operations on the second argument, the own distances and the margin sum. -/
theorem tail_eq (a1 own row : FVec Ideal Cert.KernelIdeal.S4096 .f32) : kTailOf a1 own row = tailOf a1 own (kSumOf row) := rfl

/-- A table that agrees entry by entry with the unit rows is the reference's stage. -/
theorem gn_bridge (a0 : FVec Ideal Cert.KernelIdeal.S4096x64x128 .f32) (g : FVec Ideal Cert.KernelIdeal.S4096x128 .f32)
    (h : ∀ (b : Fin 4096) (d : Fin 128), g (ix2 b d) = Cert.Spec.gn a0 b d) : g = gnOf a0 := by
  funext j
  obtain ⟨b, d, rfl⟩ : ∃ (b : Fin 4096) (d : Fin 128), j = ix2 b d := ⟨j 0, j 1, eq_ix2 j⟩
  exact (h b d).trans (gnOf_apply a0 b d).symm

/-- A class row gathered then measured against the distance table read at the label: they differ in where the cross term is doubled. -/
theorem own_bridge (a3 : IVec Cert.KernelIdeal.S4096 32) (gn : FVec Ideal Cert.KernelIdeal.S4096x128 .f32)
    (pr : FVec Ideal Cert.KernelIdeal.S10000x128 .f32)
    (hlab : ∀ b : Fin 4096, 0 ≤ (a3 (ix1 b)).toInt ∧ (a3 (ix1 b)).toInt < 10000) :
    kOwnOf a3 gn pr = ownOf a3 (distOf gn pr) := by
  funext j
  obtain ⟨b, rfl⟩ : ∃ b : Fin 4096, j = ix1 b := ⟨j 0, eq_ix1 (n := 4096) j⟩
  rw [kOwnOf_apply a3 gn pr b (hlab b), ownOf_apply a3 (distOf gn pr) b (hlab b), distOf_apply, Cert.Spec.dist2k_eq_dist2r]

end Cert.Bridge

end
-- ==== Proof.Bridge.Main.lean ====
import proofs.«408336_j75806172774555_3_alg».proof.Proof.KI.Results
import proofs.«408336_j75806172774555_3_alg».proof.Proof.KI.Value0
import proofs.«408336_j75806172774555_3_alg».proof.Proof.KI.Value1
import proofs.«408336_j75806172774555_3_alg».proof.Proof.KI.Value2
import proofs.«408336_j75806172774555_3_alg».proof.Proof.Bridge.Stages
import proofs.«408336_j75806172774555_3_alg».proof.Proof.Bridge.Own

noncomputable section

namespace Cert.Bridge

open Idealize.ShloMosaic Idealize.ShloMosaic.ValueIdx Idealize.ShloMosaic.TcCoe Idealize.SL.Sem
open Cert.KernelIdeal Cert.KernelIdeal.Hand Cert.ReferenceIdeal.Hand

variable (m : (ℓ : Loc nD τ sig) → Buf (Elt Ideal) ℓ) (ρ : Dev nD → PrngReg) (c : Dev nD)

/-- The launch contents of an argument array on core `c`. -/
abbrev argK (r) := m ((c.tc : Thread nD τ).loc r)

/-- The reference's distance table as a function of its first, third and fourth arguments. -/
abbrev distR (a0 : FVec Ideal S4096x64x128 .f32) (a2 : FVec Ideal S10000x128 .f32) (a3 : IVec S4096 32) :=
  distOf (gnOf a0) (protosOf a2 (cntOf a3) (smOf a3 (gnOf a0)))

/-- With every label a class index the six results agree: unit rows, class sums and counts, class rows, own distances, margin sum in turn. -/
theorem results_eq
    (hlab : ∀ b : Fin 4096, 0 ≤ ((argK m c main_arg3 : IVec S4096 32) (ix1 b)).toInt
      ∧ ((argK m c main_arg3 : IVec S4096 32) (ix1 b)).toInt < 10000) :
    kTailOf (argK m c main_arg1) (kOwnOf (argK m c main_arg3) (gnK m ρ c) (prK m ρ c)) (kRowOf (o32K m ρ c))
      = tailOf (argK m c main_arg1)
          (ownOf (argK m c main_arg3) (distR (argK m c main_arg0) (argK m c main_arg2) (argK m c main_arg3)))
          (allReluOf (distR (argK m c main_arg0) (argK m c main_arg2) (argK m c main_arg3))) := by
  have hgn : gnK m ρ c = gnOf (argK m c main_arg0) :=
    gn_bridge _ _ fun b d => by
      have h := region0_value (VE0 m ρ) c b d
      rwa [VE0_arg0 m ρ c] at h
  have hcnt : kCntOf (o3K m ρ c) = cntOf (F := Ideal) (argK m c main_arg3) :=
    cnt_bridge _ _ fun n => by
      have h := region1_counts (VE1 m ρ) c n
      rwa [VE1_v1 m ρ c] at h
  have hsm : kSmOf (o2K m ρ c) = smOf (argK m c main_arg3) (gnOf (argK m c main_arg0)) :=
    sm_bridge _ _ _ fun n d => by
      have h := region1_sums (VE1 m ρ) c n d
      rwa [VE1_v1 m ρ c, VE1_v0 m ρ c, hgn] at h
  have hpr : prK m ρ c = protosOf (argK m c main_arg2) (cntOf (argK m c main_arg3))
      (smOf (argK m c main_arg3) (gnOf (argK m c main_arg0))) := by
    unfold prK
    rw [hcnt, hsm]
    rfl
  have hsum := sum_bridge (gnK m ρ c) (prK m ρ c) (o32K m ρ c) fun b => by
    have h := region2_rows (VE2 m ρ) c b
    rwa [VE2_v0 m ρ c, VE2_v26 m ρ c, VE2_v31 m ρ c] at h
  rw [tail_eq, own_bridge _ (gnK m ρ c) (prK m ρ c) hlab, hsum, hgn, hpr]

end Cert.Bridge

end
-- ==== Proof.lean ====
/-
  A batch pooled and scaled to unit rows, class sums and counts, class rows updated from them, and a margin sum over all
  distances between unit rows and class rows: a program of three regions against the plain array program.
  Both programs run and leave their four arguments unchanged.  On the extended reals their six results agree stage by
  stage: the unit rows; the class counts and sums (a product with a one-hot table against a scatter-add, both the sum
  over the positions carrying the label); the updated class rows; each item's distance to its own class (equal when every
  label is a class index); and the total margin sum (padding classes contribute nothing, and doubling commutes with a
  finite sum).
-/
import proofs.«408336_j75806172774555_3_alg».proof.Defs
import proofs.«408336_j75806172774555_3_alg».proof.Proof.Gen.Kernel
import proofs.«408336_j75806172774555_3_alg».proof.Proof.Gen.KernelIdeal
import proofs.«408336_j75806172774555_3_alg».proof.Proof.Gen.ReferenceIdeal
import proofs.«408336_j75806172774555_3_alg».proof.Proof.Gen.Pre_finite_inputs
import proofs.«408336_j75806172774555_3_alg».proof.Proof.KB.Main
import proofs.«408336_j75806172774555_3_alg».proof.Proof.KI.Main
import proofs.«408336_j75806172774555_3_alg».proof.Proof.KI.Results
import proofs.«408336_j75806172774555_3_alg».proof.Proof.Ref.Run
import proofs.«408336_j75806172774555_3_alg».proof.Proof.PreLabels
import proofs.«408336_j75806172774555_3_alg».proof.Proof.Bridge.Main
import Idealize.ShloMosaic.Adequacy
import Idealize.ShloMosaic.Init

noncomputable section

namespace Cert.Proof

open Idealize.ShloMosaic Idealize.SL.Sem

theorem frame_k : frame_Kernel (hKernel := Kernel.Gen.facts) (hPre_finite_inputs := Pre_finite_inputs.Gen.facts) :=
  fun m ρ _ => (θ_run (Kernel.defs (F := Bits)) _ _).mono
    (fun r h c => ⟨(h c _ (Kernel.Hand.mem_uc Kernel.main_arg0 (by decide))).trans (Kernel.Hand.W18_main_arg0 m ρ c),
      (h c _ (Kernel.Hand.mem_uc Kernel.main_arg1 (by decide))).trans (Kernel.Hand.W18_main_arg1 m ρ c),
      (h c _ (Kernel.Hand.mem_uc Kernel.main_arg2 (by decide))).trans (Kernel.Hand.W18_main_arg2 m ρ c),
      (h c _ (Kernel.Hand.mem_uc Kernel.main_arg3 (by decide))).trans (Kernel.Hand.W18_main_arg3 m ρ c)⟩)
    (Kernel.Hand.run_all (F := Bits) m ρ)

theorem frame_ki : frame_KernelIdeal (hKernelIdeal := KernelIdeal.Gen.facts) (hPre_finite_inputs := Pre_finite_inputs.Gen.facts) :=
  fun m ρ _ => (θ_run (KernelIdeal.defs (F := Ideal)) _ _).mono
    (fun r h c => ⟨(h c _ (KernelIdeal.Hand.mem_uc KernelIdeal.main_arg0 (by decide))).trans (KernelIdeal.Hand.W18_main_arg0 m ρ c),
      (h c _ (KernelIdeal.Hand.mem_uc KernelIdeal.main_arg1 (by decide))).trans (KernelIdeal.Hand.W18_main_arg1 m ρ c),
      (h c _ (KernelIdeal.Hand.mem_uc KernelIdeal.main_arg2 (by decide))).trans (KernelIdeal.Hand.W18_main_arg2 m ρ c),
      (h c _ (KernelIdeal.Hand.mem_uc KernelIdeal.main_arg3 (by decide))).trans (KernelIdeal.Hand.W18_main_arg3 m ρ c)⟩)
    (KernelIdeal.Hand.run_all (F := Ideal) m ρ)

/-- Narrowing to bfloat16 and back is the identity on the extended reals. -/
theorem preserves : preserves_Kernel_KernelIdeal := IdealRules.truncf_extf.statement _ .f32 .bf16

theorem frame_ri : frame_ReferenceIdeal (hReferenceIdeal := ReferenceIdeal.Gen.facts) (hPre_finite_inputs := Pre_finite_inputs.Gen.facts) :=
  fun m ρ _ => (θ_run (ReferenceIdeal.defs (F := Ideal)) _ _).mono
    (fun r h c => by
      have hc := h c
      dsimp only at hc
      exact hc.2.2.2.2.2.2)
    (ReferenceIdeal.Hand.run (F := Ideal) m ρ)

/-- The kernel program's six results on core `c`, as its last host stage of the launch memory. -/
def resK (m : (ℓ : Loc KernelIdeal.nD KernelIdeal.τ KernelIdeal.sig) → Buf (Elt Ideal) ℓ)
    (ρ : Dev KernelIdeal.nD → PrngReg) (c : Dev KernelIdeal.nD) :=
  KernelIdeal.Hand.kTailOf (Bridge.argK m c KernelIdeal.main_arg1)
    (KernelIdeal.Hand.kOwnOf (Bridge.argK m c KernelIdeal.main_arg3) (KernelIdeal.Hand.gnK m ρ c) (KernelIdeal.Hand.prK m ρ c))
    (KernelIdeal.Hand.kRowOf (KernelIdeal.Hand.o32K m ρ c))

theorem algebraic : algebraic_KernelIdeal_ReferenceIdeal (hKernelIdeal := KernelIdeal.Gen.facts)
    (hReferenceIdeal := ReferenceIdeal.Gen.facts) (hPre_finite_inputs := Pre_finite_inputs.Gen.facts) := by
  intro m ρ m' ρ' hpre hagree
  refine ⟨fun c => (resK m ρ c).1, fun c => (resK m ρ c).2.1, fun c => (resK m ρ c).2.2.1, fun c => (resK m ρ c).2.2.2.1,
    fun c => (resK m ρ c).2.2.2.2.1, fun c => (resK m ρ c).2.2.2.2.2, ?_, ?_⟩
  · exact (θ_run (KernelIdeal.defs (F := Ideal)) _ _).mono (fun r h c => by
      have hc := h c
      dsimp only at hc
      exact hc) (KernelIdeal.Hand.run_values m ρ)
  · refine (θ_run (ReferenceIdeal.defs (F := Ideal)) _ _).mono (fun r h c => ?_) (ReferenceIdeal.Hand.run (F := Ideal) m' ρ')
    have hc := h c
    dsimp only at hc
    obtain ⟨e0, e1, e2, e3⟩ := hagree c
    have hE := Bridge.results_eq m ρ c fun b => PreLabels.labels_in_range (F := Ideal) _ _ _ _ (hpre c) b
    rw [e0, e1, e2, e3] at hc
    obtain ⟨h1, h2, h3, h4, h5, h6, -, -, -, -⟩ := hc
    obtain ⟨-, -, -, -, -, -, k⟩ := h c
    exact ⟨h1.trans (congrArg (·.1) hE.symm), h2.trans (congrArg (·.2.1) hE.symm), h3.trans (congrArg (·.2.2.1) hE.symm),
      h4.trans (congrArg (·.2.2.2.1) hE.symm), h5.trans (congrArg (·.2.2.2.2.1) hE.symm), h6.trans (congrArg (·.2.2.2.2.2) hE.symm), k⟩

theorem claim : Cert.Claim := ⟨Kernel.Gen.facts, KernelIdeal.Gen.facts, ReferenceIdeal.Gen.facts, Pre_finite_inputs.Gen.facts,
  frame_k, frame_ki, frame_ri, preserves, algebraic⟩

end Cert.Proof

end
